-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S16000 : Shape := ⟨1, ![16000]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16000 : S_.BroadcastsInDim S16000 (![] : Fin 0 → Fin S16000.rank)
  reducesTo_S16000_S_d0 : S16000.ReducesTo [0] S_

variable [Facts]

def fn_part3 {F : FTy → Type} [FloatOps F] (main_arg11 : IVec S16000 32) (main_v45 : IVec S_ 1) (main_v47 : IVec S16000 1) (main_v49 : IVec S16000 1) : IVec S_ 1 :=
  let main_v50 : IVec S16000 1 := andi main_v47 main_v49
  let main_c_20 : IVec S_ 1 := constantI S_ 1 1#1
  let main_v51 : IVec S_ 1 := (fun x v => Host.reduce IntOp.andi x v reducesTo_S16000_S_d0 h_S_) main_v50 main_c_20
  let main_v52 : IVec S_ 1 := andi main_v45 main_v51
  let main_c_21 : IVec S_ 32 := constantI S_ 32 0#32
  let main_v53 : IVec S16000 32 := broadcastInDim S16000 ![] bcast_S_S16000 main_c_21
  let main_v54 : IVec S16000 1 := cmpi .sge main_arg11 main_v53
  let main_c_22 : IVec S_ 32 := constantI S_ 32 16000#32
  let main_v55 : IVec S16000 32 := broadcastInDim S16000 ![] bcast_S_S16000 main_c_22
  let main_v56 : IVec S16000 1 := cmpi .slt main_arg11 main_v55
  let main_v57 : IVec S16000 1 := andi main_v54 main_v56
  let main_c_23 : IVec S_ 1 := constantI S_ 1 1#1
  let main_v58 : IVec S_ 1 := (fun x v => Host.reduce IntOp.andi x v reducesTo_S16000_S_d0 h_S_) main_v57 main_c_23
  let main_v59 : IVec S_ 1 := andi main_v52 main_v58
  main_v59

def fn_part2 {F : FTy → Type} [FloatOps F] (main_arg7 : IVec S16000 32) (main_arg8 : IVec S16000 32) (main_arg10 : IVec S16000 32) (main_arg11 : IVec S16000 32) (main_v31 : IVec S_ 1) (main_v32 : IVec S16000 32) : IVec S_ 1 :=
  let main_v33 : IVec S16000 1 := cmpi .sge main_arg7 main_v32
  let main_c_13 : IVec S_ 32 := constantI S_ 32 16000#32
  let main_v34 : IVec S16000 32 := broadcastInDim S16000 ![] bcast_S_S16000 main_c_13
  let main_v35 : IVec S16000 1 := cmpi .slt main_arg7 main_v34
  let main_v36 : IVec S16000 1 := andi main_v33 main_v35
  let main_c_14 : IVec S_ 1 := constantI S_ 1 1#1
  let main_v37 : IVec S_ 1 := (fun x v => Host.reduce IntOp.andi x v reducesTo_S16000_S_d0 h_S_) main_v36 main_c_14
  let main_v38 : IVec S_ 1 := andi main_v31 main_v37
  let main_c_15 : IVec S_ 32 := constantI S_ 32 0#32
  let main_v39 : IVec S16000 32 := broadcastInDim S16000 ![] bcast_S_S16000 main_c_15
  let main_v40 : IVec S16000 1 := cmpi .sge main_arg8 main_v39
  let main_c_16 : IVec S_ 32 := constantI S_ 32 16000#32
  let main_v41 : IVec S16000 32 := broadcastInDim S16000 ![] bcast_S_S16000 main_c_16
  let main_v42 : IVec S16000 1 := cmpi .slt main_arg8 main_v41
  let main_v43 : IVec S16000 1 := andi main_v40 main_v42
  let main_c_17 : IVec S_ 1 := constantI S_ 1 1#1
  let main_v44 : IVec S_ 1 := (fun x v => Host.reduce IntOp.andi x v reducesTo_S16000_S_d0 h_S_) main_v43 main_c_17
  let main_v45 : IVec S_ 1 := andi main_v38 main_v44
  let main_c_18 : IVec S_ 32 := constantI S_ 32 0#32
  let main_v46 : IVec S16000 32 := broadcastInDim S16000 ![] bcast_S_S16000 main_c_18
  let main_v47 : IVec S16000 1 := cmpi .sge main_arg10 main_v46
  let main_c_19 : IVec S_ 32 := constantI S_ 32 16000#32
  let main_v48 : IVec S16000 32 := broadcastInDim S16000 ![] bcast_S_S16000 main_c_19
  let main_v49 : IVec S16000 1 := cmpi .slt main_arg10 main_v48
  fn_part3 (F := F) main_arg11 main_v45 main_v47 main_v49

def fn_part1 {F : FTy → Type} [FloatOps F] (main_arg4 : IVec S16000 32) (main_arg5 : IVec S16000 32) (main_arg7 : IVec S16000 32) (main_arg8 : IVec S16000 32) (main_arg10 : IVec S16000 32) (main_arg11 : IVec S16000 32) (main_v10 : IVec S_ 1) (main_v15 : IVec S16000 1) (main_c_5 : IVec S_ 1) : IVec S_ 1 :=
  let main_v16 : IVec S_ 1 := (fun x v => Host.reduce IntOp.andi x v reducesTo_S16000_S_d0 h_S_) main_v15 main_c_5
  let main_v17 : IVec S_ 1 := andi main_v10 main_v16
  let main_c_6 : IVec S_ 32 := constantI S_ 32 0#32
  let main_v18 : IVec S16000 32 := broadcastInDim S16000 ![] bcast_S_S16000 main_c_6
  let main_v19 : IVec S16000 1 := cmpi .sge main_arg4 main_v18
  let main_c_7 : IVec S_ 32 := constantI S_ 32 16000#32
  let main_v20 : IVec S16000 32 := broadcastInDim S16000 ![] bcast_S_S16000 main_c_7
  let main_v21 : IVec S16000 1 := cmpi .slt main_arg4 main_v20
  let main_v22 : IVec S16000 1 := andi main_v19 main_v21
  let main_c_8 : IVec S_ 1 := constantI S_ 1 1#1
  let main_v23 : IVec S_ 1 := (fun x v => Host.reduce IntOp.andi x v reducesTo_S16000_S_d0 h_S_) main_v22 main_c_8
  let main_v24 : IVec S_ 1 := andi main_v17 main_v23
  let main_c_9 : IVec S_ 32 := constantI S_ 32 0#32
  let main_v25 : IVec S16000 32 := broadcastInDim S16000 ![] bcast_S_S16000 main_c_9
  let main_v26 : IVec S16000 1 := cmpi .sge main_arg5 main_v25
  let main_c_10 : IVec S_ 32 := constantI S_ 32 16000#32
  let main_v27 : IVec S16000 32 := broadcastInDim S16000 ![] bcast_S_S16000 main_c_10
  let main_v28 : IVec S16000 1 := cmpi .slt main_arg5 main_v27
  let main_v29 : IVec S16000 1 := andi main_v26 main_v28
  let main_c_11 : IVec S_ 1 := constantI S_ 1 1#1
  let main_v30 : IVec S_ 1 := (fun x v => Host.reduce IntOp.andi x v reducesTo_S16000_S_d0 h_S_) main_v29 main_c_11
  let main_v31 : IVec S_ 1 := andi main_v24 main_v30
  let main_c_12 : IVec S_ 32 := constantI S_ 32 0#32
  let main_v32 : IVec S16000 32 := broadcastInDim S16000 ![] bcast_S_S16000 main_c_12
  fn_part2 (F := F) main_arg7 main_arg8 main_arg10 main_arg11 main_v31 main_v32

def fn {F : FTy → Type} [FloatOps F] (main_arg0 : FVec F S2048x1024 .f32) (main_arg1 : IVec S16000 32) (main_arg2 : IVec S16000 32) (main_arg3 : IVec S16000 32) (main_arg4 : IVec S16000 32) (main_arg5 : IVec S16000 32) (main_arg6 : IVec S16000 32) (main_arg7 : IVec S16000 32) (main_arg8 : IVec S16000 32) (main_arg9 : IVec S16000 32) (main_arg10 : IVec S16000 32) (main_arg11 : IVec S16000 32) (main_arg12 : IVec S16000 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 32 := constantI S_ 32 0#32
  let main_v4 : IVec S16000 32 := broadcastInDim S16000 ![] bcast_S_S16000 main_c_0
  let main_v5 : IVec S16000 1 := cmpi .sge main_arg1 main_v4
  let main_c_1 : IVec S_ 32 := constantI S_ 32 1024#32
  let main_v6 : IVec S16000 32 := broadcastInDim S16000 ![] bcast_S_S16000 main_c_1
  let main_v7 : IVec S16000 1 := cmpi .slt main_arg1 main_v6
  let main_v8 : IVec S16000 1 := andi main_v5 main_v7
  let main_c_2 : IVec S_ 1 := constantI S_ 1 1#1
  let main_v9 : IVec S_ 1 := (fun x v => Host.reduce IntOp.andi x v reducesTo_S16000_S_d0 h_S_) main_v8 main_c_2
  let main_v10 : IVec S_ 1 := andi main_v3 main_v9
  let main_c_3 : IVec S_ 32 := constantI S_ 32 0#32
  let main_v11 : IVec S16000 32 := broadcastInDim S16000 ![] bcast_S_S16000 main_c_3
  let main_v12 : IVec S16000 1 := cmpi .sge main_arg2 main_v11
  let main_c_4 : IVec S_ 32 := constantI S_ 32 1024#32
  let main_v13 : IVec S16000 32 := broadcastInDim S16000 ![] bcast_S_S16000 main_c_4
  let main_v14 : IVec S16000 1 := cmpi .slt main_arg2 main_v13
  let main_v15 : IVec S16000 1 := andi main_v12 main_v14
  let main_c_5 : IVec S_ 1 := constantI S_ 1 1#1
  fn_part1 (F := F) main_arg4 main_arg5 main_arg7 main_arg8 main_arg10 main_arg11 main_v10 main_v15 main_c_5
-- ==== Kernel.lean ====
abbrev S2048x1024 : Shape := ⟨2, ![2048, 1024]⟩
abbrev S16000 : Shape := ⟨1, ![16000]⟩
abbrev S1024x2048 : Shape := ⟨2, ![1024, 2048]⟩
abbrev S2048x128 : Shape := ⟨2, ![2048, 128]⟩
abbrev S128x2048 : Shape := ⟨2, ![128, 2048]⟩
abbrev S1024x1x2048 : Shape := ⟨3, ![1024, 1, 2048]⟩
abbrev S_ : Shape := ⟨0, ![]⟩
abbrev S16000x1x2048 : Shape := ⟨3, ![16000, 1, 2048]⟩
abbrev S1x1x2048 : Shape := ⟨3, ![1, 1, 2048]⟩
abbrev S1 : Shape := ⟨1, ![1]⟩
abbrev S16000x2048 : Shape := ⟨2, ![16000, 2048]⟩
abbrev S10x1x2048 : Shape := ⟨3, ![10, 1, 2048]⟩
abbrev S10x2048 : Shape := ⟨2, ![10, 2048]⟩
abbrev S2048x10 : Shape := ⟨2, ![2048, 10]⟩

abbrev nBuf : Space → Nat
  | .hbm => 87
  | .vmem => 28
  | .smem => 24
  | _ => 0

abbrev bufTy : (tb : Table) → Fin (tcTables nBuf tb) → BufTy
  | .hbm, ⟨0, _⟩ => ⟨S2048x1024, .f32⟩
  | .hbm, ⟨1, _⟩ => ⟨S16000, .i32⟩
  | .hbm, ⟨2, _⟩ => ⟨S16000, .i32⟩
  | .hbm, ⟨3, _⟩ => ⟨S16000, .i32⟩
  | .hbm, ⟨4, _⟩ => ⟨S16000, .i32⟩
  | .hbm, ⟨5, _⟩ => ⟨S1024x2048, .i32⟩
  | .hbm, ⟨6, _⟩ => ⟨S1024x1x2048, .i32⟩
  | .hbm, ⟨7, _⟩ => ⟨S_, .i32⟩
  | .hbm, ⟨8, _⟩ => ⟨S16000, .i32⟩
  | .hbm, ⟨9, _⟩ => ⟨S_, .i32⟩
  | .hbm, ⟨10, _⟩ => ⟨S16000, .i32⟩
  | .hbm, ⟨11, _⟩ => ⟨S16000, .i32⟩
  | .hbm, ⟨12, _⟩ => ⟨S_, .i32⟩
  | .hbm, ⟨13, _⟩ => ⟨S16000, .i32⟩
  | .hbm, ⟨14, _⟩ => ⟨S_, .i32⟩
  | .hbm, ⟨15, _⟩ => ⟨S16000, .i32⟩
  | .hbm, ⟨16, _⟩ => ⟨S16000, .i32⟩
  | .hbm, ⟨17, _⟩ => ⟨S_, .i32⟩
  | .hbm, ⟨18, _⟩ => ⟨S16000, .i32⟩
  | .hbm, ⟨19, _⟩ => ⟨S_, .i32⟩
  | .hbm, ⟨20, _⟩ => ⟨S16000, .i32⟩
  | .hbm, ⟨21, _⟩ => ⟨S16000, .i32⟩
  | .hbm, ⟨22, _⟩ => ⟨S_, .i32⟩
  | .hbm, ⟨23, _⟩ => ⟨S16000, .i32⟩
  | .hbm, ⟨24, _⟩ => ⟨S16000x1x2048, .i32⟩
  | .hbm, ⟨25, _⟩ => ⟨S16000x2048, .i32⟩
  | .hbm, ⟨26, _⟩ => ⟨S16000x1x2048, .i32⟩
  | .hbm, ⟨27, _⟩ => ⟨S_, .i32⟩
  | .hbm, ⟨28, _⟩ => ⟨S16000, .i32⟩
  | .hbm, ⟨29, _⟩ => ⟨S_, .i32⟩
  | .hbm, ⟨30, _⟩ => ⟨S16000, .i32⟩
  | .hbm, ⟨31, _⟩ => ⟨S16000, .i32⟩
  | .hbm, ⟨32, _⟩ => ⟨S_, .i32⟩
  | .hbm, ⟨33, _⟩ => ⟨S16000, .i32⟩
  | .hbm, ⟨34, _⟩ => ⟨S_, .i32⟩
  | .hbm, ⟨35, _⟩ => ⟨S16000, .i32⟩
  | .hbm, ⟨36, _⟩ => ⟨S16000, .i32⟩
  | .hbm, ⟨37, _⟩ => ⟨S_, .i32⟩
  | .hbm, ⟨38, _⟩ => ⟨S16000, .i32⟩
  | .hbm, ⟨39, _⟩ => ⟨S_, .i32⟩
  | .hbm, ⟨40, _⟩ => ⟨S16000, .i32⟩
  | .hbm, ⟨41, _⟩ => ⟨S16000, .i32⟩
  | .hbm, ⟨42, _⟩ => ⟨S_, .i32⟩
  | .hbm, ⟨43, _⟩ => ⟨S16000, .i32⟩
  | .hbm, ⟨44, _⟩ => ⟨S16000x1x2048, .i32⟩
  | .hbm, ⟨45, _⟩ => ⟨S16000x2048, .i32⟩
  | .hbm, ⟨46, _⟩ => ⟨S16000x1x2048, .i32⟩
  | .hbm, ⟨47, _⟩ => ⟨S_, .i32⟩
  | .hbm, ⟨48, _⟩ => ⟨S16000, .i32⟩
  | .hbm, ⟨49, _⟩ => ⟨S_, .i32⟩
  | .hbm, ⟨50, _⟩ => ⟨S16000, .i32⟩
  | .hbm, ⟨51, _⟩ => ⟨S16000, .i32⟩
  | .hbm, ⟨52, _⟩ => ⟨S_, .i32⟩
  | .hbm, ⟨53, _⟩ => ⟨S16000, .i32⟩
  | .hbm, ⟨54, _⟩ => ⟨S_, .i32⟩
  | .hbm, ⟨55, _⟩ => ⟨S16000, .i32⟩
  | .hbm, ⟨56, _⟩ => ⟨S16000, .i32⟩
  | .hbm, ⟨57, _⟩ => ⟨S_, .i32⟩
  | .hbm, ⟨58, _⟩ => ⟨S16000, .i32⟩
  | .hbm, ⟨59, _⟩ => ⟨S_, .i32⟩
  | .hbm, ⟨60, _⟩ => ⟨S16000, .i32⟩
  | .hbm, ⟨61, _⟩ => ⟨S16000, .i32⟩
  | .hbm, ⟨62, _⟩ => ⟨S_, .i32⟩
  | .hbm, ⟨63, _⟩ => ⟨S16000, .i32⟩
  | .hbm, ⟨64, _⟩ => ⟨S16000x1x2048, .i32⟩
  | .hbm, ⟨65, _⟩ => ⟨S16000x2048, .i32⟩
  | .hbm, ⟨66, _⟩ => ⟨S16000x1x2048, .i32⟩
  | .hbm, ⟨67, _⟩ => ⟨S_, .i32⟩
  | .hbm, ⟨68, _⟩ => ⟨S16000, .i32⟩
  | .hbm, ⟨69, _⟩ => ⟨S_, .i32⟩
  | .hbm, ⟨70, _⟩ => ⟨S16000, .i32⟩
  | .hbm, ⟨71, _⟩ => ⟨S16000, .i32⟩
  | .hbm, ⟨72, _⟩ => ⟨S_, .i32⟩
  | .hbm, ⟨73, _⟩ => ⟨S16000, .i32⟩
  | .hbm, ⟨74, _⟩ => ⟨S_, .i32⟩
  | .hbm, ⟨75, _⟩ => ⟨S16000, .i32⟩
  | .hbm, ⟨76, _⟩ => ⟨S16000, .i32⟩
  | .hbm, ⟨77, _⟩ => ⟨S_, .i32⟩
  | .hbm, ⟨78, _⟩ => ⟨S16000, .i32⟩
  | .hbm, ⟨79, _⟩ => ⟨S_, .i32⟩
  | .hbm, ⟨80, _⟩ => ⟨S16000, .i32⟩
  | .hbm, ⟨81, _⟩ => ⟨S16000, .i32⟩
  | .hbm, ⟨82, _⟩ => ⟨S_, .i32⟩
  | .hbm, ⟨83, _⟩ => ⟨S16000, .i32⟩
  | .hbm, ⟨84, _⟩ => ⟨S10x1x2048, .i32⟩
  | .hbm, ⟨85, _⟩ => ⟨S10x2048, .i32⟩
  | .hbm, ⟨86, _⟩ => ⟨S2048x10, .i32⟩
  | .local _ .vmem, ⟨0, _⟩ => ⟨S2048x128, .f32⟩
  | .local _ .vmem, ⟨1, _⟩ => ⟨S2048x128, .f32⟩
  | .local _ .vmem, ⟨2, _⟩ => ⟨S128x2048, .i32⟩
  | .local _ .vmem, ⟨3, _⟩ => ⟨S128x2048, .i32⟩
  | .local _ .vmem, ⟨4, _⟩ => ⟨S1x1x2048, .i32⟩
  | .local _ .vmem, ⟨5, _⟩ => ⟨S1x1x2048, .i32⟩
  | .local _ .vmem, ⟨6, _⟩ => ⟨S1x1x2048, .i32⟩
  | .local _ .vmem, ⟨7, _⟩ => ⟨S1x1x2048, .i32⟩
  | .local _ .vmem, ⟨8, _⟩ => ⟨S1x1x2048, .i32⟩
  | .local _ .vmem, ⟨9, _⟩ => ⟨S1x1x2048, .i32⟩
  | .local _ .vmem, ⟨10, _⟩ => ⟨S1x1x2048, .i32⟩
  | .local _ .vmem, ⟨11, _⟩ => ⟨S1x1x2048, .i32⟩
  | .local _ .vmem, ⟨12, _⟩ => ⟨S1x1x2048, .i32⟩
  | .local _ .vmem, ⟨13, _⟩ => ⟨S1x1x2048, .i32⟩
  | .local _ .vmem, ⟨14, _⟩ => ⟨S1x1x2048, .i32⟩
  | .local _ .vmem, ⟨15, _⟩ => ⟨S1x1x2048, .i32⟩
  | .local _ .vmem, ⟨16, _⟩ => ⟨S1x1x2048, .i32⟩
  | .local _ .vmem, ⟨17, _⟩ => ⟨S1x1x2048, .i32⟩
  | .local _ .vmem, ⟨18, _⟩ => ⟨S1x1x2048, .i32⟩
  | .local _ .vmem, ⟨19, _⟩ => ⟨S1x1x2048, .i32⟩
  | .local _ .vmem, ⟨20, _⟩ => ⟨S1x1x2048, .i32⟩
  | .local _ .vmem, ⟨21, _⟩ => ⟨S1x1x2048, .i32⟩
  | .local _ .vmem, ⟨22, _⟩ => ⟨S1x1x2048, .i32⟩
  | .local _ .vmem, ⟨23, _⟩ => ⟨S1x1x2048, .i32⟩
  | .local _ .vmem, ⟨24, _⟩ => ⟨S1x1x2048, .i32⟩
  | .local _ .vmem, ⟨25, _⟩ => ⟨S1x1x2048, .i32⟩
  | .local _ .vmem, ⟨26, _⟩ => ⟨S1x1x2048, .i32⟩
  | .local _ .vmem, ⟨27, _⟩ => ⟨S1x1x2048, .i32⟩
  | .local _ .smem, ⟨0, _⟩ => ⟨S16000, .i32⟩
  | .local _ .smem, ⟨1, _⟩ => ⟨S16000, .i32⟩
  | .local _ .smem, ⟨2, _⟩ => ⟨S16000, .i32⟩
  | .local _ .smem, ⟨3, _⟩ => ⟨S16000, .i32⟩
  | .local _ .smem, ⟨4, _⟩ => ⟨S16000, .i32⟩
  | .local _ .smem, ⟨5, _⟩ => ⟨S16000, .i32⟩
  | .local _ .smem, ⟨6, _⟩ => ⟨S16000, .i32⟩
  | .local _ .smem, ⟨7, _⟩ => ⟨S16000, .i32⟩
  | .local _ .smem, ⟨8, _⟩ => ⟨S16000, .i32⟩
  | .local _ .smem, ⟨9, _⟩ => ⟨S16000, .i32⟩
  | .local _ .smem, ⟨10, _⟩ => ⟨S16000, .i32⟩
  | .local _ .smem, ⟨11, _⟩ => ⟨S16000, .i32⟩
  | .local _ .smem, ⟨12, _⟩ => ⟨S16000, .i32⟩
  | .local _ .smem, ⟨13, _⟩ => ⟨S16000, .i32⟩
  | .local _ .smem, ⟨14, _⟩ => ⟨S16000, .i32⟩
  | .local _ .smem, ⟨15, _⟩ => ⟨S16000, .i32⟩
  | .local _ .smem, ⟨16, _⟩ => ⟨S16000, .i32⟩
  | .local _ .smem, ⟨17, _⟩ => ⟨S16000, .i32⟩
  | .local _ .smem, ⟨18, _⟩ => ⟨S16000, .i32⟩
  | .local _ .smem, ⟨19, _⟩ => ⟨S16000, .i32⟩
  | .local _ .smem, ⟨20, _⟩ => ⟨S16000, .i32⟩
  | .local _ .smem, ⟨21, _⟩ => ⟨S16000, .i32⟩
  | .local _ .smem, ⟨22, _⟩ => ⟨S16000, .i32⟩
  | .local _ .smem, ⟨23, _⟩ => ⟨S16000, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg6 : Ref sig .tc := ⟨.hbm, 2, rfl⟩
abbrev main_arg9 : Ref sig .tc := ⟨.hbm, 3, rfl⟩
abbrev main_arg12 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_6 : Ref sig .tc := ⟨.hbm, 27, rfl⟩
abbrev main_v19 : Ref sig .tc := ⟨.hbm, 28, rfl⟩
abbrev main_c_7 : Ref sig .tc := ⟨.hbm, 29, rfl⟩
abbrev main_v21 : Ref sig .tc := ⟨.hbm, 30, rfl⟩
abbrev main_v22 : Ref sig .tc := ⟨.hbm, 31, rfl⟩
abbrev main_c_8 : Ref sig .tc := ⟨.hbm, 32, rfl⟩
abbrev main_v23 : Ref sig .tc := ⟨.hbm, 33, rfl⟩
abbrev main_c_9 : Ref sig .tc := ⟨.hbm, 34, rfl⟩
abbrev main_v25 : Ref sig .tc := ⟨.hbm, 35, rfl⟩
abbrev main_v26 : Ref sig .tc := ⟨.hbm, 36, rfl⟩
abbrev main_c_10 : Ref sig .tc := ⟨.hbm, 37, rfl⟩
abbrev main_v27 : Ref sig .tc := ⟨.hbm, 38, rfl⟩
abbrev main_c_11 : Ref sig .tc := ⟨.hbm, 39, rfl⟩
abbrev main_v29 : Ref sig .tc := ⟨.hbm, 40, rfl⟩
abbrev main_v30 : Ref sig .tc := ⟨.hbm, 41, rfl⟩
abbrev main_c_12 : Ref sig .tc := ⟨.hbm, 42, rfl⟩
abbrev main_v31 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_13 : Ref sig .tc := ⟨.hbm, 47, rfl⟩
abbrev main_v36 : Ref sig .tc := ⟨.hbm, 48, rfl⟩
abbrev main_c_14 : Ref sig .tc := ⟨.hbm, 49, rfl⟩
abbrev main_v38 : Ref sig .tc := ⟨.hbm, 50, rfl⟩
abbrev main_v39 : Ref sig .tc := ⟨.hbm, 51, rfl⟩
abbrev main_c_15 : Ref sig .tc := ⟨.hbm, 52, rfl⟩
abbrev main_v40 : Ref sig .tc := ⟨.hbm, 53, rfl⟩
abbrev main_c_16 : Ref sig .tc := ⟨.hbm, 54, rfl⟩
abbrev main_v42 : Ref sig .tc := ⟨.hbm, 55, rfl⟩
abbrev main_v43 : Ref sig .tc := ⟨.hbm, 56, rfl⟩
abbrev main_c_17 : Ref sig .tc := ⟨.hbm, 57, rfl⟩
abbrev main_v44 : Ref sig .tc := ⟨.hbm, 58, rfl⟩
abbrev main_c_18 : Ref sig .tc := ⟨.hbm, 59, rfl⟩
abbrev main_v46 : Ref sig .tc := ⟨.hbm, 60, rfl⟩
abbrev main_v47 : Ref sig .tc := ⟨.hbm, 61, rfl⟩
abbrev main_c_19 : Ref sig .tc := ⟨.hbm, 62, rfl⟩
abbrev main_v48 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_20 : Ref sig .tc := ⟨.hbm, 67, rfl⟩
abbrev main_v53 : Ref sig .tc := ⟨.hbm, 68, rfl⟩
abbrev main_c_21 : Ref sig .tc := ⟨.hbm, 69, rfl⟩
abbrev main_v55 : Ref sig .tc := ⟨.hbm, 70, rfl⟩
abbrev main_v56 : Ref sig .tc := ⟨.hbm, 71, rfl⟩
abbrev main_c_22 : Ref sig .tc := ⟨.hbm, 72, rfl⟩
abbrev main_v57 : Ref sig .tc := ⟨.hbm, 73, rfl⟩
abbrev main_c_23 : Ref sig .tc := ⟨.hbm, 74, rfl⟩
abbrev main_v59 : Ref sig .tc := ⟨.hbm, 75, rfl⟩
abbrev main_v60 : Ref sig .tc := ⟨.hbm, 76, rfl⟩
abbrev main_c_24 : Ref sig .tc := ⟨.hbm, 77, rfl⟩
abbrev main_v61 : Ref sig .tc := ⟨.hbm, 78, rfl⟩
abbrev main_c_25 : Ref sig .tc := ⟨.hbm, 79, rfl⟩
abbrev main_v63 : Ref sig .tc := ⟨.hbm, 80, rfl⟩
abbrev main_v64 : Ref sig .tc := ⟨.hbm, 81, rfl⟩
abbrev main_c_26 : Ref sig .tc := ⟨.hbm, 82, rfl⟩
abbrev main_v65 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_arg1 : Ref sig .tc := ⟨.smem, 0, rfl⟩
abbrev main_arg2 : Ref sig .tc := ⟨.smem, 1, rfl⟩
abbrev main_v3 : Ref sig .tc := ⟨.smem, 2, rfl⟩
abbrev main_v7 : Ref sig .tc := ⟨.smem, 3, rfl⟩
abbrev main_v11 : Ref sig .tc := ⟨.smem, 4, rfl⟩
abbrev main_v15 : Ref sig .tc := ⟨.smem, 5, rfl⟩
abbrev main_arg4 : Ref sig .tc := ⟨.smem, 6, rfl⟩
abbrev main_arg5 : Ref sig .tc := ⟨.smem, 7, rfl⟩
abbrev main_v20 : Ref sig .tc := ⟨.smem, 8, rfl⟩
abbrev main_v24 : Ref sig .tc := ⟨.smem, 9, rfl⟩
abbrev main_v28 : Ref sig .tc := ⟨.smem, 10, rfl⟩
abbrev main_v32 : Ref sig .tc := ⟨.smem, 11, rfl⟩
abbrev main_arg7 : Ref sig .tc := ⟨.smem, 12, rfl⟩
abbrev main_arg8 : Ref sig .tc := ⟨.smem, 13, rfl⟩
abbrev main_v37 : Ref sig .tc := ⟨.smem, 14, rfl⟩
abbrev main_v41 : Ref sig .tc := ⟨.smem, 15, rfl⟩
abbrev main_v45 : Ref sig .tc := ⟨.smem, 16, rfl⟩
abbrev main_v49 : Ref sig .tc := ⟨.smem, 17, rfl⟩
abbrev main_arg10 : Ref sig .tc := ⟨.smem, 18, rfl⟩
abbrev main_arg11 : Ref sig .tc := ⟨.smem, 19, rfl⟩
abbrev main_v54 : Ref sig .tc := ⟨.smem, 20, rfl⟩
abbrev main_v58 : Ref sig .tc := ⟨.smem, 21, rfl⟩
abbrev main_v62 : Ref sig .tc := ⟨.smem, 22, rfl⟩
abbrev main_v66 : Ref sig .tc := ⟨.smem, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16000], ![false]⟩

abbrev pre1 : Pipeline.Prefetch sig := ⟨6, ![main_arg1.idx, main_arg2.idx, main_v3.idx, main_v7.idx, main_v11.idx, main_v15.idx], fun | 0 => main_arg1.names | 1 => main_arg2.names | 2 => main_v3.names | 3 => main_v7.names | 4 => main_v11.names | 5 => main_v15.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S16000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S16000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S16000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S16000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2048 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16000], ![false]⟩

abbrev pre2 : Pipeline.Prefetch sig := ⟨6, ![main_arg4.idx, main_arg5.idx, main_v20.idx, main_v24.idx, main_v28.idx, main_v32.idx], fun | 0 => main_arg4.names | 1 => main_arg5.names | 2 => main_v20.names | 3 => main_v24.names | 4 => main_v28.names | 5 => main_v32.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S16000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S16000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S16000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S16000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x2048 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16000], ![false]⟩

abbrev pre3 : Pipeline.Prefetch sig := ⟨6, ![main_arg7.idx, main_arg8.idx, main_v37.idx, main_v41.idx, main_v45.idx, main_v49.idx], fun | 0 => main_arg7.names | 1 => main_arg8.names | 2 => main_v37.names | 3 => main_v41.names | 4 => main_v45.names | 5 => main_v49.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S16000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S16000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S16000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S16000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x2048 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x2048 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16000], ![false]⟩

abbrev pre4 : Pipeline.Prefetch sig := ⟨6, ![main_arg10.idx, main_arg11.idx, main_v54.idx, main_v58.idx, main_v62.idx, main_v66.idx], fun | 0 => main_arg10.names | 1 => main_arg11.names | 2 => main_v54.names | 3 => main_v58.names | 4 => main_v62.names | 5 => main_v66.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S16000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S16000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (k4_off1_inb : ∀ i : grid4.Coords, ∀ a, (k4_off1 i) a + S1.size a ≤ S16000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S16000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (i : grid4.Coords) : Fin 3 → Nat :=
  let arg0 : BitVec 32 := BitVec.ofNat 32 (i 0).val
  let c1600_i32 : BitVec 32 := 1600#32
  let v0 : BitVec 32 := Scalar.divsi arg0 c1600_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1600_i32 c0_i32_1
  let v7 : BitVec 32 := Scalar.extui v6
  let c0_i32_2 : BitVec 32 := 0#32
  let v8 : BitVec 1 := Scalar.cmpi .slt c1600_i32 c0_i32_2
  let v9 : BitVec 32 := Scalar.extui v8
  let v10 : BitVec 32 := Scalar.subi v7 v9
  let v11 : BitVec 1 := Scalar.cmpi .ne v5 v10
  let v12 : BitVec 32 := Scalar.remsi arg0 c1600_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage4_0 : Fin 2 → Memref sig .tc .vmem S1x1x2048 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x2048 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S2048x128_S2048x128_0_0 : ∀ a, (![0, 0] : Fin 2 → Nat) a + S2048x128.size a ≤ S2048x128.size a
  h_S2048x128 : 0 < S2048x128.numel
  natLt_1_32 : 1 < 32
  transposes_S2048x128_p1_0_S128x2048 : S2048x128.Transposes [1, 0] S128x2048
  inb_S128x2048_S128x2048_0_0 : ∀ a, (![0, 0] : Fin 2 → Nat) a + S128x2048.size a ≤ S128x2048.size a
  h_S128x2048 : 0 < S128x2048.numel
  shapeCasts_S1024x2048_S1024x1x2048 : S1024x2048.ShapeCasts S1024x1x2048
  bcast_S_S16000 : S_.BroadcastsInDim S16000 (![] : Fin 0 → Fin S16000.rank)
  numel1_S1 : S1.numel = 1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S16000x1x2048_S16000x2048 : S16000x1x2048.ShapeCasts S16000x2048
  shapeCasts_S16000x2048_S16000x1x2048 : S16000x2048.ShapeCasts S16000x1x2048
  shapeCasts_S10x1x2048_S10x2048 : S10x1x2048.ShapeCasts S10x2048
  transposes_S10x2048_S2048x10_1_0 : S10x2048.Transposes [1, 0] S2048x10
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x1024.size a
  hwx0_0 : ∀ i : grid0.Coords, EltTy.bits .f32 = 32 ∨ (Rect.block (s := S2048x1024) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S1024x2048.size a
  hwx0_1 : ∀ i : grid0.Coords, EltTy.bits .i32 = 32 ∨ (Rect.block (s := S1024x2048) S128x2048.size (cc0_transform_1 i) (hinb0_1 i)).WholeWords (EltTy.packing .i32)
  hrank1 : 0 < grid1.rank
  k1_off1_inb : ∀ i : grid1.Coords, ∀ a, (k1_off1 i) a + S1.size a ≤ S16000.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S16000x1x2048.size a
  hwx1_2 : ∀ i : grid1.Coords, EltTy.bits .i32 = 32 ∨ (Rect.block (s := S16000x1x2048) S1x1x2048.size (cc1_transform_2 i) (hinb1_2 i)).WholeWords (EltTy.packing .i32)
  hrank2 : 0 < grid2.rank
  k2_off1_inb : ∀ i : grid2.Coords, ∀ a, (k2_off1 i) a + S1.size a ≤ S16000.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x2048.size a ≤ S16000x1x2048.size a
  hwx2_2 : ∀ i : grid2.Coords, EltTy.bits .i32 = 32 ∨ (Rect.block (s := S16000x1x2048) S1x1x2048.size (cc2_transform_2 i) (hinb2_2 i)).WholeWords (EltTy.packing .i32)
  hrank3 : 0 < grid3.rank
  k3_off1_inb : ∀ i : grid3.Coords, ∀ a, (k3_off1 i) a + S1.size a ≤ S16000.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048.size a ≤ S16000x1x2048.size a
  hwx3_2 : ∀ i : grid3.Coords, EltTy.bits .i32 = 32 ∨ (Rect.block (s := S16000x1x2048) S1x1x2048.size (cc3_transform_2 i) (hinb3_2 i)).WholeWords (EltTy.packing .i32)
  hrank4 : 0 < grid4.rank
  k4_off1_inb : ∀ i : grid4.Coords, ∀ a, (k4_off1 i) a + S1.size a ≤ S16000.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x2048.size a ≤ S10x1x2048.size a
  hwx4_2 : ∀ i : grid4.Coords, EltTy.bits .i32 = 32 ∨ (Rect.block (s := S10x1x2048) S1x1x2048.size (cc4_transform_2 i) (hinb4_2 i)).WholeWords (EltTy.packing .i32)

variable [Facts₀]

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1_0 : Pipeline.WinSpec sig grid1.rank :=
  Pipeline.WinSpec.ofSpec (Memref.whole main_v1) S1x1x2048.size reads1_0 false false 2 stage1_0 sem1_0 nbuf1_0 hstage1_0

abbrev spec1_1 : Pipeline.WinSpec sig grid1.rank :=
  Pipeline.WinSpec.ofSpec (Memref.whole main_v1) S1x1x2048.size reads1_1 false false 2 stage1_1 sem1_1 nbuf1_1 hstage1_1

abbrev spec1_2 : Pipeline.WinSpec sig grid1.rank :=
  Pipeline.WinSpec.ofSpec (Memref.whole main_v16) S1x1x2048.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 k1_off1_inb numel1_S1 pf | 1 => cc1_transform_1 k1_off1_inb numel1_S1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x2048.size a ≤ S1024x1x2048.size a), EltTy.bits .i32 = 32 ∨ (Rect.block (s := S1024x1x2048) S1x1x2048.size (cc1_transform_0 k1_off1_inb numel1_S1 pf i) h).WholeWords (EltTy.packing .i32)) ∧
  (∀ i : grid1.Coords, ∃ h : (∀ a, (cc1_transform_1 k1_off1_inb numel1_S1 pf i a + 1) * S1x1x2048.size a ≤ S1024x1x2048.size a), EltTy.bits .i32 = 32 ∨ (Rect.block (s := S1024x1x2048) S1x1x2048.size (cc1_transform_1 k1_off1_inb numel1_S1 pf i) h).WholeWords (EltTy.packing .i32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | ⟨_ + 3, h⟩ => absurd h (Nat.not_lt.2 (Nat.le_add_left _ _))
abbrev spec2_0 : Pipeline.WinSpec sig grid2.rank :=
  Pipeline.WinSpec.ofSpec (Memref.whole main_v18) S1x1x2048.size reads2_0 false false 2 stage2_0 sem2_0 nbuf2_0 hstage2_0

abbrev spec2_1 : Pipeline.WinSpec sig grid2.rank :=
  Pipeline.WinSpec.ofSpec (Memref.whole main_v18) S1x1x2048.size reads2_1 false false 2 stage2_1 sem2_1 nbuf2_1 hstage2_1

abbrev spec2_2 : Pipeline.WinSpec sig grid2.rank :=
  Pipeline.WinSpec.ofSpec (Memref.whole main_v33) S1x1x2048.size reads2_2 true false 2 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 k2_off1_inb numel1_S1 pf | 1 => cc2_transform_1 k2_off1_inb numel1_S1 pf | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 | ⟨_ + 3, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x2048.size a ≤ S16000x1x2048.size a), EltTy.bits .i32 = 32 ∨ (Rect.block (s := S16000x1x2048) S1x1x2048.size (cc2_transform_0 k2_off1_inb numel1_S1 pf i) h).WholeWords (EltTy.packing .i32)) ∧
  (∀ i : grid2.Coords, ∃ h : (∀ a, (cc2_transform_1 k2_off1_inb numel1_S1 pf i a + 1) * S1x1x2048.size a ≤ S16000x1x2048.size a), EltTy.bits .i32 = 32 ∨ (Rect.block (s := S16000x1x2048) S1x1x2048.size (cc2_transform_1 k2_off1_inb numel1_S1 pf i) h).WholeWords (EltTy.packing .i32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2 i).elim fun h _ => h a | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2 i).elim fun _ h => h | 2 => hwx2_2 | ⟨_ + 3, h⟩ => absurd h (Nat.not_lt.2 (Nat.le_add_left _ _))
abbrev spec3_0 : Pipeline.WinSpec sig grid3.rank :=
  Pipeline.WinSpec.ofSpec (Memref.whole main_v35) S1x1x2048.size reads3_0 false false 2 stage3_0 sem3_0 nbuf3_0 hstage3_0

abbrev spec3_1 : Pipeline.WinSpec sig grid3.rank :=
  Pipeline.WinSpec.ofSpec (Memref.whole main_v35) S1x1x2048.size reads3_1 false false 2 stage3_1 sem3_1 nbuf3_1 hstage3_1

abbrev spec3_2 : Pipeline.WinSpec sig grid3.rank :=
  Pipeline.WinSpec.ofSpec (Memref.whole main_v50) S1x1x2048.size reads3_2 true false 2 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 k3_off1_inb numel1_S1 pf | 1 => cc3_transform_1 k3_off1_inb numel1_S1 pf | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 | ⟨_ + 3, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x2048.size a ≤ S16000x1x2048.size a), EltTy.bits .i32 = 32 ∨ (Rect.block (s := S16000x1x2048) S1x1x2048.size (cc3_transform_0 k3_off1_inb numel1_S1 pf i) h).WholeWords (EltTy.packing .i32)) ∧
  (∀ i : grid3.Coords, ∃ h : (∀ a, (cc3_transform_1 k3_off1_inb numel1_S1 pf i a + 1) * S1x1x2048.size a ≤ S16000x1x2048.size a), EltTy.bits .i32 = 32 ∨ (Rect.block (s := S16000x1x2048) S1x1x2048.size (cc3_transform_1 k3_off1_inb numel1_S1 pf i) h).WholeWords (EltTy.packing .i32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2 i).elim fun h _ => h a | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2 i).elim fun _ h => h | 2 => hwx3_2 | ⟨_ + 3, h⟩ => absurd h (Nat.not_lt.2 (Nat.le_add_left _ _))
abbrev spec4_0 : Pipeline.WinSpec sig grid4.rank :=
  Pipeline.WinSpec.ofSpec (Memref.whole main_v52) S1x1x2048.size reads4_0 false false 2 stage4_0 sem4_0 nbuf4_0 hstage4_0

abbrev spec4_1 : Pipeline.WinSpec sig grid4.rank :=
  Pipeline.WinSpec.ofSpec (Memref.whole main_v52) S1x1x2048.size reads4_1 false false 2 stage4_1 sem4_1 nbuf4_1 hstage4_1

abbrev spec4_2 : Pipeline.WinSpec sig grid4.rank :=
  Pipeline.WinSpec.ofSpec (Memref.whole main_v67) S1x1x2048.size reads4_2 true false 2 stage4_2 sem4_2 nbuf4_2 hstage4_2

abbrev spec4 : Fin 3 → Pipeline.WinSpec sig grid4.rank := fun | 0 => spec4_0 | 1 => spec4_1 | 2 => spec4_2 | ⟨_ + 3, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | ⟨_ + 3, h⟩ => absurd h (Nat.not_lt.2 (Nat.le_add_left _ _))
abbrev ix4 (pf : pre4.Contents (Elt F)) : (w : Fin 3) → grid4.Coords → Fin (spec4 w).shape.rank → Nat := fun | 0 => cc4_transform_0 k4_off1_inb numel1_S1 pf | 1 => cc4_transform_1 k4_off1_inb numel1_S1 pf | 2 => cc4_transform_2 | ⟨_ + 3, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 pf | 2 => hreads4_2 | ⟨_ + 3, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x2048.size a ≤ S16000x1x2048.size a), EltTy.bits .i32 = 32 ∨ (Rect.block (s := S16000x1x2048) S1x1x2048.size (cc4_transform_0 k4_off1_inb numel1_S1 pf i) h).WholeWords (EltTy.packing .i32)) ∧
  (∀ i : grid4.Coords, ∃ h : (∀ a, (cc4_transform_1 k4_off1_inb numel1_S1 pf i a + 1) * S1x1x2048.size a ≤ S16000x1x2048.size a), EltTy.bits .i32 = 32 ∨ (Rect.block (s := S16000x1x2048) S1x1x2048.size (cc4_transform_1 k4_off1_inb numel1_S1 pf i) h).WholeWords (EltTy.packing .i32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok.1 i).elim fun h _ => h a | 1 => fun i a => (hok.2 i).elim fun h _ => h a | 2 => hinb4_2 | ⟨_ + 3, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok.1 i).elim fun _ h => h | 1 => fun i => (hok.2 i).elim fun _ h => h | 2 => hwx4_2 | ⟨_ + 3, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole

variable [Facts]
-- ==== ReferenceIdeal.lean ====
abbrev S2048x1024 : Shape := ⟨2, ![2048, 1024]⟩
abbrev S16000 : Shape := ⟨1, ![16000]⟩
abbrev S_ : Shape := ⟨0, ![]⟩
abbrev S16000x1 : Shape := ⟨2, ![16000, 1]⟩
abbrev S2048x16000 : Shape := ⟨2, ![2048, 16000]⟩
abbrev S1x16000 : Shape := ⟨2, ![1, 16000]⟩
abbrev S2048x10x1600 : Shape := ⟨3, ![2048, 10, 1600]⟩
abbrev S2048x10 : Shape := ⟨2, ![2048, 10]⟩

abbrev nBuf : Space → Nat
  | .hbm => 144
  | .vmem => 0
  | .smem => 0
  | _ => 0

abbrev hbmTy0_0 (i : Nat) : BufTy := match i % 128 with
  | 0 => ⟨S2048x1024, .f32⟩
  | 1 => ⟨S16000, .i32⟩
  | 2 => ⟨S16000, .i32⟩
  | 3 => ⟨S16000, .i32⟩
  | 4 => ⟨S16000, .i32⟩
  | 5 => ⟨S16000, .i32⟩
  | 6 => ⟨S16000, .i32⟩
  | 7 => ⟨S16000, .i32⟩
  | 8 => ⟨S16000, .i32⟩
  | 9 => ⟨S16000, .i32⟩
  | 10 => ⟨S16000, .i32⟩
  | 11 => ⟨S16000, .i32⟩
  | 12 => ⟨S16000, .i32⟩
  | 13 => ⟨S_, .f32⟩
  | 14 => ⟨S2048x1024, .f32⟩
  | 15 => ⟨S2048x1024, .i1⟩
  | 16 => ⟨S2048x1024, .i32⟩
  | 17 => ⟨S_, .i32⟩
  | 18 => ⟨S16000, .i32⟩
  | 19 => ⟨S16000, .i1⟩
  | 20 => ⟨S_, .i32⟩
  | 21 => ⟨S16000, .i32⟩
  | 22 => ⟨S16000, .i32⟩
  | 23 => ⟨S16000, .i32⟩
  | 24 => ⟨S16000x1, .i32⟩
  | 25 => ⟨S2048x16000, .i32⟩
  | 26 => ⟨S_, .i32⟩
  | 27 => ⟨S16000, .i32⟩
  | 28 => ⟨S16000, .i1⟩
  | 29 => ⟨S_, .i32⟩
  | 30 => ⟨S16000, .i32⟩
  | 31 => ⟨S16000, .i32⟩
  | 32 => ⟨S16000, .i32⟩
  | 33 => ⟨S16000x1, .i32⟩
  | 34 => ⟨S2048x16000, .i32⟩
  | 35 => ⟨S1x16000, .i32⟩
  | 36 => ⟨S_, .i32⟩
  | 37 => ⟨S2048x16000, .i32⟩
  | 38 => ⟨S2048x16000, .i32⟩
  | 39 => ⟨S_, .i32⟩
  | 40 => ⟨S2048x16000, .i32⟩
  | 41 => ⟨S2048x16000, .i32⟩
  | 42 => ⟨S2048x16000, .i32⟩
  | 43 => ⟨S2048x16000, .i32⟩
  | 44 => ⟨S2048x16000, .i32⟩
  | 45 => ⟨S_, .i32⟩
  | 46 => ⟨S2048x16000, .i32⟩
  | 47 => ⟨S2048x16000, .i32⟩
  | 48 => ⟨S_, .i32⟩
  | 49 => ⟨S16000, .i32⟩
  | 50 => ⟨S16000, .i1⟩
  | 51 => ⟨S_, .i32⟩
  | 52 => ⟨S16000, .i32⟩
  | 53 => ⟨S16000, .i32⟩
  | 54 => ⟨S16000, .i32⟩
  | 55 => ⟨S16000x1, .i32⟩
  | 56 => ⟨S2048x16000, .i32⟩
  | 57 => ⟨S_, .i32⟩
  | 58 => ⟨S16000, .i32⟩
  | 59 => ⟨S16000, .i1⟩
  | 60 => ⟨S_, .i32⟩
  | 61 => ⟨S16000, .i32⟩
  | 62 => ⟨S16000, .i32⟩
  | 63 => ⟨S16000, .i32⟩
  | 64 => ⟨S16000x1, .i32⟩
  | 65 => ⟨S2048x16000, .i32⟩
  | 66 => ⟨S1x16000, .i32⟩
  | 67 => ⟨S_, .i32⟩
  | 68 => ⟨S2048x16000, .i32⟩
  | 69 => ⟨S2048x16000, .i32⟩
  | 70 => ⟨S_, .i32⟩
  | 71 => ⟨S2048x16000, .i32⟩
  | 72 => ⟨S2048x16000, .i32⟩
  | 73 => ⟨S2048x16000, .i32⟩
  | 74 => ⟨S2048x16000, .i32⟩
  | 75 => ⟨S2048x16000, .i32⟩
  | 76 => ⟨S_, .i32⟩
  | 77 => ⟨S2048x16000, .i32⟩
  | 78 => ⟨S2048x16000, .i32⟩
  | 79 => ⟨S_, .i32⟩
  | 80 => ⟨S16000, .i32⟩
  | 81 => ⟨S16000, .i1⟩
  | 82 => ⟨S_, .i32⟩
  | 83 => ⟨S16000, .i32⟩
  | 84 => ⟨S16000, .i32⟩
  | 85 => ⟨S16000, .i32⟩
  | 86 => ⟨S16000x1, .i32⟩
  | 87 => ⟨S2048x16000, .i32⟩
  | 88 => ⟨S_, .i32⟩
  | 89 => ⟨S16000, .i32⟩
  | 90 => ⟨S16000, .i1⟩
  | 91 => ⟨S_, .i32⟩
  | 92 => ⟨S16000, .i32⟩
  | 93 => ⟨S16000, .i32⟩
  | 94 => ⟨S16000, .i32⟩
  | 95 => ⟨S16000x1, .i32⟩
  | 96 => ⟨S2048x16000, .i32⟩
  | 97 => ⟨S1x16000, .i32⟩
  | 98 => ⟨S_, .i32⟩
  | 99 => ⟨S2048x16000, .i32⟩
  | 100 => ⟨S2048x16000, .i32⟩
  | 101 => ⟨S_, .i32⟩
  | 102 => ⟨S2048x16000, .i32⟩
  | 103 => ⟨S2048x16000, .i32⟩
  | 104 => ⟨S2048x16000, .i32⟩
  | 105 => ⟨S2048x16000, .i32⟩
  | 106 => ⟨S2048x16000, .i32⟩
  | 107 => ⟨S_, .i32⟩
  | 108 => ⟨S2048x16000, .i32⟩
  | 109 => ⟨S2048x16000, .i32⟩
  | 110 => ⟨S_, .i32⟩
  | 111 => ⟨S16000, .i32⟩
  | 112 => ⟨S16000, .i1⟩
  | 113 => ⟨S_, .i32⟩
  | 114 => ⟨S16000, .i32⟩
  | 115 => ⟨S16000, .i32⟩
  | 116 => ⟨S16000, .i32⟩
  | 117 => ⟨S16000x1, .i32⟩
  | 118 => ⟨S2048x16000, .i32⟩
  | 119 => ⟨S_, .i32⟩
  | 120 => ⟨S16000, .i32⟩
  | 121 => ⟨S16000, .i1⟩
  | 122 => ⟨S_, .i32⟩
  | 123 => ⟨S16000, .i32⟩
  | 124 => ⟨S16000, .i32⟩
  | 125 => ⟨S16000, .i32⟩
  | 126 => ⟨S16000x1, .i32⟩
  | 127 => ⟨S2048x16000, .i32⟩
  | _ => ⟨S2048x1024, .f32⟩

abbrev hbmTy0_1 (i : Nat) : BufTy := match i % 128 with
  | 0 => ⟨S1x16000, .i32⟩
  | 1 => ⟨S_, .i32⟩
  | 2 => ⟨S2048x16000, .i32⟩
  | 3 => ⟨S2048x16000, .i32⟩
  | 4 => ⟨S_, .i32⟩
  | 5 => ⟨S2048x16000, .i32⟩
  | 6 => ⟨S2048x16000, .i32⟩
  | 7 => ⟨S2048x16000, .i32⟩
  | 8 => ⟨S2048x16000, .i32⟩
  | 9 => ⟨S2048x16000, .i32⟩
  | 10 => ⟨S_, .i32⟩
  | 11 => ⟨S2048x16000, .i32⟩
  | 12 => ⟨S2048x16000, .i32⟩
  | 13 => ⟨S2048x10x1600, .i32⟩
  | 14 => ⟨S_, .i32⟩
  | 15 => ⟨S2048x10, .i32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_c_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_v59 : Ref sig .tc := ⟨.hbm, 90, rfl⟩
abbrev main_c_16 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_17 : Ref sig .tc := ⟨.hbm, 98, rfl⟩
abbrev main_v66 : Ref sig .tc := ⟨.hbm, 99, rfl⟩
abbrev main_v67 : Ref sig .tc := ⟨.hbm, 100, rfl⟩
abbrev main_c_18 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_19 : Ref sig .tc := ⟨.hbm, 107, rfl⟩
abbrev main_v73 : Ref sig .tc := ⟨.hbm, 108, rfl⟩
abbrev main_v74 : Ref sig .tc := ⟨.hbm, 109, rfl⟩
abbrev main_c_20 : Ref sig .tc := ⟨.hbm, 110, rfl⟩
abbrev main_v75 : Ref sig .tc := ⟨.hbm, 111, rfl⟩
abbrev main_v76 : Ref sig .tc := ⟨.hbm, 112, rfl⟩
abbrev main_c_21 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_22 : Ref sig .tc := ⟨.hbm, 119, rfl⟩
abbrev main_v82 : Ref sig .tc := ⟨.hbm, 120, rfl⟩
abbrev main_v83 : Ref sig .tc := ⟨.hbm, 121, rfl⟩
abbrev main_c_23 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_24 : Ref sig .tc := ⟨.hbm, 129, rfl⟩
abbrev main_v90 : Ref sig .tc := ⟨.hbm, 130, rfl⟩
abbrev main_v91 : Ref sig .tc := ⟨.hbm, 131, rfl⟩
abbrev main_c_25 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_26 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_27 : Ref sig .tc := ⟨.hbm, 142, rfl⟩
abbrev main_v100 : Ref sig .tc := ⟨.hbm, 143, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  natLt_1_32 : 1 < 32
  bcast_S_S16000 : S_.BroadcastsInDim S16000 (![] : Fin 0 → Fin S16000.rank)
  bcast_S16000_S16000x1_0 : S16000.BroadcastsInDim S16000x1 (![0] : Fin 1 → Fin S16000x1.rank)
  bcast_S16000_S1x16000_1 : S16000.BroadcastsInDim S1x16000 (![1] : Fin 1 → Fin S1x16000.rank)
  bcast_S_S2048x16000 : S_.BroadcastsInDim S2048x16000 (![] : Fin 0 → Fin S2048x16000.rank)
  bcast_S1x16000_S2048x16000_0_1 : S1x16000.BroadcastsInDim S2048x16000 (![0, 1] : Fin 2 → Fin S2048x16000.rank)
  shapeCasts_S2048x16000_S2048x10x1600 : S2048x16000.ShapeCasts S2048x10x1600
  reducesTo_S2048x10x1600_S2048x10_d2 : S2048x10x1600.ReducesTo [2] S2048x10
  h_S_ : 0 < S_.numel
  gather_S2048x1024_S16000x1_S2048x16000_0_1_n_n_1_1_20481_wf : GatherDims.WF S2048x1024 S16000x1 S2048x16000 [0] [1] [] [1] [] 1 ![2048, 1]
  gather_S2048x16000_S16000x1_S2048x16000_0_1_n_n_1_1_20481_wf : GatherDims.WF S2048x16000 S16000x1 S2048x16000 [0] [1] [] [1] [] 1 ![2048, 1]

variable [Facts₀]

def gather_S2048x1024_S16000x1_S2048x16000_0_1_n_n_1_1_20481 : GatherDims S2048x1024 S16000x1 S2048x16000 where
  offsetDims := [0]
  collapsedSliceDims := [1]
  operandBatchingDims := []
  startIndicesBatchingDims := []
  startIndexMap := [1]
  indexVectorDim := 1
  sliceSizes := ![2048, 1]
  wf := gather_S2048x1024_S16000x1_S2048x16000_0_1_n_n_1_1_20481_wf
def gather_S2048x16000_S16000x1_S2048x16000_0_1_n_n_1_1_20481 : GatherDims S2048x16000 S16000x1 S2048x16000 where
  offsetDims := [0]
  collapsedSliceDims := [1]
  operandBatchingDims := []
  startIndicesBatchingDims := []
  startIndexMap := [1]
  indexVectorDim := 1
  sliceSizes := ![2048, 1]
  wf := gather_S2048x16000_S16000x1_S2048x16000_0_1_n_n_1_1_20481_wf

class Facts : Prop extends Facts₀ where

variable [Facts]
-- ==== Proof.KB.R0.lean ====
import proofs.«401413_j6932077216080_2_alg».proof.Proof.Gen.Kernel.Launch
import proofs.«401413_j6932077216080_2_alg».proof.Proof.Gen.Kernel.Skeleton
import proofs.«401413_j6932077216080_2_alg».proof.Proof.Gen.Kernel.Points
import Idealize.ShloMosaic.Lib.Pipeline.FrameBody
import Idealize.ShloMosaic.Lib.Tactic

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t := by
  have hblock : ∀ t, dat.blockOf 0 t = iblk V c 0 t := fun t => by unfold Dat.blockOf iblk; rw [hA]
  rw [dat.before_in_eq_fetched 0 rfl (fun _ => rfl) (fun _ _ _ => rfl) (fun t => by rw [hafter, hblock]) t d]
  unfold Dat.fetched
  rw [hblock]; rfl

abbrev rin : Rect S2048x128 := Rect.unit (s := S2048x128) ![0, 0] S2048x128.size inb_S2048x128_S2048x128_0_0
abbrev r0 : Rect S128x2048 := Rect.unit (s := S128x2048) ![0, 0] S128x2048.size inb_S128x2048_S128x2048_0_0

-- The output block as a function of the input block.
def out (x0 : Vec F S2048x128 .f32) : Vec F S128x2048 .i32 :=
  View.canon [⟨r0, k0_pay1 (View.ld x0 rin)⟩]

theorem cover (p0 : Vec F S128x2048 .i32) (y : S128x2048.Idx) :
    ∃ pc ∈ ([⟨r0, p0⟩] : List (View.Piece (Elt F) S128x2048 .i32)), y ∈ pc.1.set :=
  View.cover_of_tiled [⟨r0, p0⟩] S128x2048.size (by rfl) y

set_option maxHeartbeats 1000000 in
theorem sound_kernel (c : Dev nD) (E : Set ℕ) (i : grid0.Coords) (arg1 : Memref sig .tc .vmem S2048x128 .f32) (harg1 : arg1.IsWhole)
    (arg2 : Memref sig .tc .vmem S128x2048 .i32) (harg2 : arg2.IsWhole) (x0 : Vec F S2048x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__threshold_transpose_kernel i arg1 harg1 arg2 harg2) K := by
  simp only [cc0__threshold_transpose_kernel_eq_skeleton]; unfold cc0__threshold_transpose_kernel_skel
  unfold owns
  iintro ⟨⟨%f0, %hf0, H0⟩, ⟨%d1, %f1, -, H1⟩, Hk⟩
  subst hf0
  sl_exec
  sl_step
  iapply Hk
  isplitl [H0]
  · iexists f0; iframe; ipureintro; rfl
  iexists _; iframe
  ipureintro
  exact View.read_writes_eq_canon _ _ _ (cover _)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out (iblk V c 0 t)
  Φ _ := Pipeline.ΦA spec0 c
  q _ := fullShare
  owed _ := 0

theorem A_eq (c : Dev nD) (w : Fin cfg0.W) : (dat V c).A w = V c (Pipeline.arrRef spec0 w) := rfl

theorem after_0 (c : Dev nD) (t : Fin cfg0.N) : (dat V c).after 0 t = iblk V c 0 t := by dsimp only [dat]
theorem after_1 (c : Dev nD) (t : Fin cfg0.N) : (dat V c).after 1 t = out (iblk V c 0 t) := by dsimp only [dat]

theorem before_0 (c : Dev nD) (t : Fin cfg0.N) (d) : (dat V c).before 0 t d = iblk V c 0 t :=
  before_0_of V (dat V c) rfl (after_0 V c) t d

theorem sound_body (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d)))
      ⊢ wp frame (wpE (defs₀ (F := F)) Variants.none c none) Set.univ (bodyAt0 t) (fun _ =>
        iprop((dat V c).Φ t.succ ∗ (dat V c).owesAt () t.succ
          ∗ owns (c : Thread nD τ) (st0_0 t) fullShare ((dat V c).after 0 t)
          ∗ owns (c : Thread nD τ) (st0_1 t) fullShare ((dat V c).after 1 t))) := by
  unfold bodyAt0
  simp only [before_0]
  rw [show (dat V c).Φ t.succ = (dat V c).Φ t.castSucc from rfl,
    show (dat V c).owesAt () t.succ = (dat V c).owesAt () t.castSucc from rfl, after_0, after_1]
  iintro ⟨HΦ, Ho, ⟨%d0, H0⟩, ⟨%d1, H1⟩⟩
  iapply (sound_kernel c Set.univ _ _ _ _ _ (iblk V c 0 t) _)
  iframe H0
  isplitl [H1]; · iexists _; iexact H1
  iintro ⟨H0, H1⟩
  iframe

theorem body_obligation (c : Dev nD) : BodyObligation (dat (F := F) V c) (defs₀ (F := F)) Variants.none () Set.univ := fun t => by
  rw [bigSep_W0, bigSep_W0]
  exact sound_body V c t

end Cert.Kernel.R0

end
-- ==== Proof.KB.R1.lean ====
import proofs.«401413_j6932077216080_2_alg».proof.Proof.Gen.Kernel.Launch
import proofs.«401413_j6932077216080_2_alg».proof.Proof.Gen.Kernel.Skeleton
import proofs.«401413_j6932077216080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.R1

open Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The six tables' contents at entry: there is one device.
def tbl : pre1.Contents (Elt F) := fun j => V (0 : Dev nD) (pre1.ref j)
theorem V_pre (c : Dev nD) (j : Fin 6) : V c (pre1.ref j) = tbl V j := by
  cases Subsingleton.elim c 0; rfl
-- Every row an index word names exists.
abbrev Ok : Prop := ok1 (F := F) (tbl V)

variable (hO : Ok V) (c : Dev nD)

abbrev adm : (pcfg1 (F := F)).Adm := ⟨tbl V, hO⟩
abbrev cfgM : Pipeline.Cfg sig Λ₀ := cfg1 (adm V hO)

variable (w : Fin (cfgM V hO).W) (t : Fin (cfgM V hO).N)

abbrev TbBuf (M : Memref sig .tc .smem S16000 .i32) : Type := Buf (Elt F) (M.view.loc (c : Thread nD τ))
abbrev tbPt (M : Memref sig .tc .smem S16000 .i32) (f : TbBuf (F := F) c M) : sProp 𝕄 :=
  M.view.loc (c : Thread nD τ) ↦{fullShare} f

abbrev ΦTb : sProp 𝕄 :=
  Pipeline.prefHeld pre1 c (fun _ => fullShare) (tbl V)

-- Window w's block at point t, read off its array at entry.
def iblk : (((cfgM V hO).win w).xblock ((cfgM V hO).grid.coords t)).Idx → Elt F ((cfgM V hO).win w).elt :=
  (((cfgM V hO).win w).blk t).view.read (Elt F) (V c (Pipeline.arrRef spec1 w))

abbrev VO : View sig .tc .vmem S1x1x2048 .i32 := (Memref.whole cc1_stg2_0 : Memref sig .tc .vmem S1x1x2048 .i32).view
abbrev ms_0 : Memref sig .tc .vmem S1x1x2048 .i32 := spec1_0.stage ((cfgM V hO).slots t 0)
abbrev hs_0 : (ms_0 V hO t).IsWhole := hstage1_0 (((cfgM V hO).slots t 0).cast nbuf1_0)
abbrev ms_1 : Memref sig .tc .vmem S1x1x2048 .i32 := spec1_1.stage ((cfgM V hO).slots t 1)
abbrev hs_1 : (ms_1 V hO t).IsWhole := hstage1_1 (((cfgM V hO).slots t 1).cast nbuf1_1)
abbrev ms_2 : Memref sig .tc .vmem S1x1x2048 .i32 := spec1_2.stage ((cfgM V hO).slots t 2)
abbrev hs_2 : (ms_2 V hO t).IsWhole := hstage1_2 (((cfgM V hO).slots t 2).cast nbuf1_2)

variable (i : grid1.Coords) (arg7 : Memref sig .tc .vmem S1x1x2048 .i32) (harg7 : arg7.IsWhole)
  (arg8 : Memref sig .tc .vmem S1x1x2048 .i32) (harg8 : arg8.IsWhole) (arg9 : Memref sig .tc .vmem S1x1x2048 .i32) (harg9 : arg9.IsWhole)
  (x0 x1 : Vec F S1x1x2048 .i32)
  (t0 : TbBuf (F := F) c (Memref.whole main_arg1)) (t1 : TbBuf (F := F) c (Memref.whole main_arg2)) (t2 : TbBuf (F := F) c (Memref.whole main_v3))
  (t3 : TbBuf (F := F) c (Memref.whole main_v7)) (t4 : TbBuf (F := F) c (Memref.whole main_v11)) (t5 : TbBuf (F := F) c (Memref.whole main_v15))

-- The six tables, each held whole.
abbrev Tb6 : sProp 𝕄 :=
  iprop(tbPt c (Memref.whole main_arg1) t0 ∗ tbPt c (Memref.whole main_arg2) t1 ∗ tbPt c (Memref.whole main_v3) t2
    ∗ tbPt c (Memref.whole main_v7) t3 ∗ tbPt c (Memref.whole main_v11) t4 ∗ tbPt c (Memref.whole main_v15) t5)

theorem PhiT_eq : (ΦTb V c : sProp 𝕄) = Tb6 c (tbl V 0) (tbl V 1) (tbl V 2) (tbl V 3) (tbl V 4) (tbl V 5) := by
  unfold ΦTb Pipeline.prefHeld
  rw [bigSep_univ_eq_bigSepL [(0 : Fin 6), 1, 2, 3, 4, 5] (by decide) (by decide)]
  rfl

abbrev bodyOn : Prog (TpuEff nD τ sig (Elt F) Λ₀ .tc) PUnit :=
  cc1_kernel i (Memref.whole main_arg1) (Memref.isWhole_whole _) (Memref.whole main_arg2) (Memref.isWhole_whole _) (Memref.whole main_v3) (Memref.isWhole_whole _)
    (Memref.whole main_v7) (Memref.isWhole_whole _) (Memref.whole main_v11) (Memref.isWhole_whole _) (Memref.whole main_v15) (Memref.isWhole_whole _) arg7 harg7 arg8 harg8 arg9 harg9

set_option maxHeartbeats 1000000 in
-- The pieces the body's one store writes, with the run: inputs and tables come back as they were, the output holds the pieces.
def kernelRun :
    { L1 : List (View.Piece (Elt F) S1x1x2048 .i32) //
      ∀ (E : Set ℕ) (K : PUnit → sProp 𝕄),
        iprop(owns c arg7 fullShare x0 ∗ owns c arg8 fullShare x1 ∗ (∃ d, owns c arg9 fullShare d)
            ∗ Tb6 c t0 t1 t2 t3 t4 t5
            ∗ (iprop(owns c arg7 fullShare x0 ∗ owns c arg8 fullShare x1
                ∗ (∃ f, arg9.view.loc (c : Thread nD τ) ↦[arg9.view.set]{fullShare} arg9.view.writes (Elt F) f L1)
                ∗ Tb6 c t0 t1 t2 t3 t4 t5) -∗ K ⟨⟩))
          ⊢ wp frame (wpE (defs₀ (F := F)) Variants.none c none) E (bodyOn i arg7 harg7 arg8 harg8 arg9 harg9) K } := by
  refine ⟨?_, fun E K => ?run⟩
  case run =>
    unfold bodyOn
    simp only [cc1_kernel_eq_skeleton]; unfold cc1_kernel_skel
    unfold owns Tb6
    iintro ⟨⟨%f0, %hf0, H0⟩, ⟨%f1, %hf1, H1⟩, ⟨%d2, %f2, -, H2⟩, ⟨HT0, HT1, HT2, HT3, HT4, HT5⟩, Hk⟩
    obtain rfl := harg7.eq_unread hf0
    obtain rfl := harg8.eq_unread hf1
    sl_exec
    sl_step
    iapply Hk
    iframe HT0 HT1 HT2 HT3 HT4 HT5
    isplitl [H0]
    · iexists _; isplitr; · ipureintro; exact harg7.read_unread _
      iexact H0
    isplitl [H1]
    · iexists _; isplitr; · ipureintro; exact harg8.read_unread _
      iexact H1
    iexists _; iexact H2

-- What the run leaves in the output buffer: its pieces read back.
def outOn : Vec F S1x1x2048 .i32 :=
  VO.read (Elt F) (VO.writes (Elt F) VO.junk (kernelRun c i arg7 harg7 arg8 harg8 arg9 harg9 x0 x1 t0 t1 t2 t3 t4 t5).1)

-- The gate's row: what the body leaves in the output buffer at point t.
def outAt : Vec F S1x1x2048 .i32 :=
  outOn c (grid1.coords t) _ (hs_0 V hO t) _ (hs_1 V hO t) _ (hs_2 V hO t) (iblk V hO c 0 t) (iblk V hO c 1 t)
    (tbl V 0) (tbl V 1) (tbl V 2) (tbl V 3) (tbl V 4) (tbl V 5)

def dat : Dat τ (Elt F) Unit ℕ (UR sig nD τ) ℕ (cfgM V hO) c where
  A w := V c (Pipeline.arrRef spec1 w)
  after w t := match w with
    | ⟨0, _⟩ => iblk V hO c 0 t
    | ⟨1, _⟩ => iblk V hO c 1 t
    | ⟨2, _⟩ => outAt V hO c t
  Φ _ := iprop(Pipeline.ΦA spec1 c ∗ ΦTb V c)
  q w := match w with
    | ⟨0, _⟩ => fullShare.left
    | ⟨1, _⟩ => fullShare.right
    | ⟨2, _⟩ => fullShare
  owed _ := 0

theorem A_eq : (dat V hO c).A w = V c (Pipeline.arrRef spec1 w) := rfl

theorem before_in (hw : w = 0 ∨ w = 1) (d) : (dat V hO c).before w t d = iblk V hO c w t := by
  rcases hw with rfl | rfl <;>
  exact ((dat V hO c).before_in_eq_fetched _ rfl (fun _ => rfl) (fun _ _ _ => rfl) (fun _ => rfl) t d).trans rfl

theorem after_2 : (dat V hO c).after 2 t = outAt V hO c t := by dsimp only [dat]; try rfl

theorem sound_body :
    iprop((Pipeline.ΦA spec1 c ∗ ΦTb V c) ∗ (dat V hO c).owesAt () t.castSucc
      ∗ (∃ d, owns c (ms_0 V hO t) fullShare ((dat V hO c).before 0 t d))
      ∗ (∃ d, owns c (ms_1 V hO t) fullShare ((dat V hO c).before 1 t d))
      ∗ (∃ d, owns c (ms_2 V hO t) fullShare ((dat V hO c).before 2 t d)))
    ⊢ wp frame (wpE (defs₀ (F := F)) Variants.none c none) Set.univ
        (bodyOn (grid1.coords t) _ (hs_0 V hO t) _ (hs_1 V hO t) _ (hs_2 V hO t)) (fun _ =>
      iprop((Pipeline.ΦA spec1 c ∗ ΦTb V c) ∗ (dat V hO c).owesAt () t.castSucc
        ∗ owns c (ms_0 V hO t) fullShare (iblk V hO c 0 t)
        ∗ owns c (ms_1 V hO t) fullShare (iblk V hO c 1 t)
        ∗ owns c (ms_2 V hO t) fullShare ((dat V hO c).after 2 t))) := by
  simp only [before_in V hO c _ t (.inl rfl), before_in V hO c _ t (.inr rfl)]
  rw [after_2, PhiT_eq]
  unfold outAt outOn
  iintro ⟨⟨HΦ, HT⟩, Ho, ⟨%d0, H0⟩, ⟨%d1, H1⟩, ⟨%d2, H2⟩⟩
  iapply ((kernelRun c (grid1.coords t) _ _ _ _ _ _ (iblk V hO c 0 t) (iblk V hO c 1 t) (tbl V 0) (tbl V 1) (tbl V 2) (tbl V 3) (tbl V 4) (tbl V 5)).2 Set.univ _)
  iframe H0 H1 HT
  isplitl [H2]; · iexists _; iexact H2
  iintro ⟨H0, H1, ⟨%e2, H2⟩, HT⟩
  iframe
  ihave H' := (Ring.owns_of_writes_tiledL VO S1x1x2048.size) $$ H2; iapply H'; ipureintro; sl_kernel_rfl

theorem body_obligation : BodyObligation (dat (F := F) V hO c) (defs₀ (F := F)) Variants.none () Set.univ := fun t => by
  rw [bigSep_W1, bigSep_W1]
  exact sound_body V hO c t

end Cert.Kernel.R1

end
-- ==== Proof.KB.S1.lean ====
import proofs.«401413_j6932077216080_2_alg».proof.Proof.Gen.Kernel.Launch
import proofs.«401413_j6932077216080_2_alg».proof.Proof.KB.R1

noncomputable section

namespace Cert.Kernel.R1

open Gen Idealize.ShloMosaic Idealize.ShloMosaic.TcCoe Idealize.SL.RA Idealize.SL.BI Idealize.SL.BI.BIBase Idealize.SL.ProofMode

variable {F : FTy → Type} [FloatOps F]

local notation "𝕄" => MT nD τ sig Unit (Elt F) ℕ (UR sig nD τ) ℕ

variable (W : Dev nD → Valuation τ sig (Elt F))

-- A valuation read at the core's references.
abbrev VW : (c : Dev nD) → (b : Ref sig .tc) → Buf (Elt F) ((c : Thread nD τ).loc b) := fun c b => W c b

variable (hO : Ok (VW W)) (c : Dev nD)

-- The resources a core carries from one region to the next beside its buffers.
abbrev Rst : sProp 𝕄 :=
  iprop((∃ r, prngReg c r) ∗ ∃ Wd, owes (c : Thread nD τ) 0 Wd)

-- The six tables, held whole at contents `T`.
abbrev Tb (T : pre1.Contents (Elt F)) : sProp 𝕄 := Pipeline.prefHeld pre1 c (fun _ => fullShare) T

-- The unscoped buffers that are neither a window's array nor a table, at contents `B`.
abbrev Rs (B : (b : Ref sig .tc) → Buf (Elt F) ((c : Thread nD τ).loc b)) : sProp 𝕄 := Pipeline.unscopedRestP pre1 spec1 c B

-- The index set splits into the two arrays, the tables and the rest, and the conjunction with it.
theorem bufs_eq (B T) (hT : ∀ k, B (pre1.ref k) = T k) :
    (unscopedBufs c B : sProp 𝕄)
      = iprop(((((c : Thread nD τ).loc main_v1) ↦{fullShare} B main_v1) ∗ (((c : Thread nD τ).loc main_v16) ↦{fullShare} B main_v16))
          ∗ Tb c T ∗ Rs c B) := by
  obtain rfl := funext hT
  rw [← Pipeline.unscopedRest_split preFacts1 c B]
  unfold unscopedBufs Pipeline.unscopedRest
  rw [bigSep_sdiff_split (by decide : Finset.univ.image (Pipeline.arrRef spec1) ⊆ _),
    show Finset.univ.image (Pipeline.arrRef spec1) = ({main_v1, main_v16} : Finset (Ref sig .tc)) by decide, bigSep_insert (by decide), bigSep_singleton]
  rfl

-- A conjunction over three windows, each over the whole of its array.
theorem arrays_eq (G) :
    ((dat (VW W) hO c).arrays G : sProp 𝕄)
      = iprop((((c : Thread nD τ).loc main_v1) ↦{fullShare.left} G 0) ∗ (((c : Thread nD τ).loc main_v1) ↦{fullShare.right} G 1)
          ∗ (((c : Thread nD τ).loc main_v16) ↦{fullShare} G 2)) := by
  unfold Pipeline.Dat.arrays
  rw [bigSep_W1, (arr_whole1 0).set_eq_univ, (arr_whole1 2).set_eq_univ]
  rfl

-- The buffers held at `W`, split, are the region's precondition.
theorem entry :
    iprop(StableHlo.held (c : Thread nD τ) (Pipeline.ucRefs τ sig) (W c) ∗ Rst c)
      ⊢ |={Set.univ}=> iprop((dat (VW W) hO c).arrays ((dat (VW W) hO c).arrAt · 0) ∗ Tb c (tbl (VW W))
          ∗ (dat (VW W) hO c).owesAt () 0 ∗ (∃ r, prngReg c r) ∗ Rs c (VW W c)) := by
  rw [← Pipeline.unscopedBufs_held c (W c), bufs_eq c _ _ (V_pre (VW W) c), arrays_eq]
  iintro ⟨⟨⟨⟨Hl, Hr⟩, Hout⟩, Ht, Hrest⟩, Hp, %Wd, HO⟩
  imodintro
  isplitl [Hl Hr Hout]
  · isplitl [Hl]; · iexact Hl
    isplitl [Hr]; · iexact Hr
    iexact Hout
  iframe
  iexists Wd; isplitr; · ipureintro; exact fun _ _ => .inl trivial
  iexact HO

theorem hin :
    iprop((∃ r, prngReg c r) ∗ Tb c (tbl (VW W)) ∗ Pipeline.scopedRest spec1 c) ⊢ (dat (VW W) hO c).Φ 0 := by
  change _ ⊢ iprop((_ ∗ _) ∗ _)
  iintro ⟨Hp, Ht, Hr⟩
  iframe

theorem hout :
    (dat (VW W) hO c).Φ (Fin.last (cfgM (VW W) hO).N)
      ⊢ iprop(((∃ r, prngReg c r) ∗ Tb c (tbl (VW W))) ∗ Pipeline.scopedRest spec1 c) := by
  change iprop((_ ∗ _) ∗ _) ⊢ _
  iintro ⟨⟨Hr, Hp⟩, Ht⟩
  iframe

-- Off the output array `W'` is `W`, so the region's postcondition reassembles into the buffers held at `W'`.
theorem exit (W' : Valuation τ sig (Elt F))
    (hout' : W' main_v16 = (dat (VW W) hO c).arrAt 2 (cfgM (VW W) hO).N)
    (hrest : ∀ b : Ref sig .tc, b ≠ main_v16 → W' b = W c b) :
    iprop((dat (VW W) hO c).arrays ((dat (VW W) hO c).arrAt · (cfgM (VW W) hO).N) ∗ (dat (VW W) hO c).owesAt () (Fin.last (cfgM (VW W) hO).N)
        ∗ ((∃ r, prngReg c r) ∗ Tb c (tbl (VW W))) ∗ Rs c (VW W c))
      ⊢ |={Set.univ}=> iprop(StableHlo.held (c : Thread nD τ) (Pipeline.ucRefs τ sig) W' ∗ Rst c) := by
  have ei := (hrest main_v1 (by decide)).symm
  have er : (Rs c (VW W c) : sProp 𝕄) = Rs c fun b => W' b :=
    bigSep_congr fun b hb => by simp only [hrest b fun e => absurd (e ▸ hb) (by decide)]
  rw [← Pipeline.unscopedBufs_held c W', bufs_eq c _ _ fun k => (hrest _ (preFacts1.disj k 2)).trans (V_pre (VW W) c k), arrays_eq,
    ((dat (VW W) hO c).arrAt_in 0 rfl _).trans ei, ((dat (VW W) hO c).arrAt_in 1 rfl _).trans ei, ← hout', er]
  unfold Rst
  iintro ⟨⟨Hl, Hr, Hout⟩, ⟨%Wd, -, HO⟩, ⟨Hp, Ht⟩, Hrest⟩
  imodintro
  icombine Hl Hr as Hin
  iframe
  iexists Wd; iexact HO

end Cert.Kernel.R1

end
-- ==== Proof.KB.R2.lean ====
import proofs.«401413_j6932077216080_2_alg».proof.Proof.Gen.Kernel.Launch
import proofs.«401413_j6932077216080_2_alg».proof.Proof.Gen.Kernel.Skeleton
import proofs.«401413_j6932077216080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.R2

open Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The six tables' contents at entry: there is one device.
def tbl : pre2.Contents (Elt F) := fun j => V (0 : Dev nD) (pre2.ref j)
theorem V_pre (c : Dev nD) (j : Fin 6) : V c (pre2.ref j) = tbl V j := by
  cases Subsingleton.elim c 0; rfl
-- Every row an index word names exists.
abbrev Ok : Prop := ok2 (F := F) (tbl V)

variable (hO : Ok V) (c : Dev nD)

abbrev adm : (pcfg2 (F := F)).Adm := ⟨tbl V, hO⟩
abbrev cfgM : Pipeline.Cfg sig Λ₀ := cfg2 (adm V hO)

variable (w : Fin (cfgM V hO).W) (t : Fin (cfgM V hO).N)

abbrev TbBuf (M : Memref sig .tc .smem S16000 .i32) : Type := Buf (Elt F) (M.view.loc (c : Thread nD τ))
abbrev tbPt (M : Memref sig .tc .smem S16000 .i32) (f : TbBuf (F := F) c M) : sProp 𝕄 :=
  M.view.loc (c : Thread nD τ) ↦{fullShare} f

abbrev ΦTb : sProp 𝕄 :=
  Pipeline.prefHeld pre2 c (fun _ => fullShare) (tbl V)

-- Window w's block at point t, read off its array at entry.
def iblk : (((cfgM V hO).win w).xblock ((cfgM V hO).grid.coords t)).Idx → Elt F ((cfgM V hO).win w).elt :=
  (((cfgM V hO).win w).blk t).view.read (Elt F) (V c (Pipeline.arrRef spec2 w))

abbrev VO : View sig .tc .vmem S1x1x2048 .i32 := (Memref.whole cc2_stg2_0 : Memref sig .tc .vmem S1x1x2048 .i32).view
abbrev ms_0 : Memref sig .tc .vmem S1x1x2048 .i32 := spec2_0.stage ((cfgM V hO).slots t 0)
abbrev hs_0 : (ms_0 V hO t).IsWhole := hstage2_0 (((cfgM V hO).slots t 0).cast nbuf2_0)
abbrev ms_1 : Memref sig .tc .vmem S1x1x2048 .i32 := spec2_1.stage ((cfgM V hO).slots t 1)
abbrev hs_1 : (ms_1 V hO t).IsWhole := hstage2_1 (((cfgM V hO).slots t 1).cast nbuf2_1)
abbrev ms_2 : Memref sig .tc .vmem S1x1x2048 .i32 := spec2_2.stage ((cfgM V hO).slots t 2)
abbrev hs_2 : (ms_2 V hO t).IsWhole := hstage2_2 (((cfgM V hO).slots t 2).cast nbuf2_2)

variable (i : grid2.Coords) (arg7 : Memref sig .tc .vmem S1x1x2048 .i32) (harg7 : arg7.IsWhole)
  (arg8 : Memref sig .tc .vmem S1x1x2048 .i32) (harg8 : arg8.IsWhole) (arg9 : Memref sig .tc .vmem S1x1x2048 .i32) (harg9 : arg9.IsWhole)
  (x0 x1 : Vec F S1x1x2048 .i32)
  (t0 : TbBuf (F := F) c (Memref.whole main_arg4)) (t1 : TbBuf (F := F) c (Memref.whole main_arg5)) (t2 : TbBuf (F := F) c (Memref.whole main_v20))
  (t3 : TbBuf (F := F) c (Memref.whole main_v24)) (t4 : TbBuf (F := F) c (Memref.whole main_v28)) (t5 : TbBuf (F := F) c (Memref.whole main_v32))

-- The six tables, each held whole.
abbrev Tb6 : sProp 𝕄 :=
  iprop(tbPt c (Memref.whole main_arg4) t0 ∗ tbPt c (Memref.whole main_arg5) t1 ∗ tbPt c (Memref.whole main_v20) t2
    ∗ tbPt c (Memref.whole main_v24) t3 ∗ tbPt c (Memref.whole main_v28) t4 ∗ tbPt c (Memref.whole main_v32) t5)

theorem PhiT_eq : (ΦTb V c : sProp 𝕄) = Tb6 c (tbl V 0) (tbl V 1) (tbl V 2) (tbl V 3) (tbl V 4) (tbl V 5) := by
  unfold ΦTb Pipeline.prefHeld
  rw [bigSep_univ_eq_bigSepL [(0 : Fin 6), 1, 2, 3, 4, 5] (by decide) (by decide)]
  rfl

abbrev bodyOn : Prog (TpuEff nD τ sig (Elt F) Λ₀ .tc) PUnit :=
  cc2_kernel i (Memref.whole main_arg4) (Memref.isWhole_whole _) (Memref.whole main_arg5) (Memref.isWhole_whole _) (Memref.whole main_v20) (Memref.isWhole_whole _)
    (Memref.whole main_v24) (Memref.isWhole_whole _) (Memref.whole main_v28) (Memref.isWhole_whole _) (Memref.whole main_v32) (Memref.isWhole_whole _) arg7 harg7 arg8 harg8 arg9 harg9

set_option maxHeartbeats 1000000 in
-- The pieces the body's one store writes, with the run: inputs and tables come back as they were, the output holds the pieces.
def kernelRun :
    { L1 : List (View.Piece (Elt F) S1x1x2048 .i32) //
      ∀ (E : Set ℕ) (K : PUnit → sProp 𝕄),
        iprop(owns c arg7 fullShare x0 ∗ owns c arg8 fullShare x1 ∗ (∃ d, owns c arg9 fullShare d)
            ∗ Tb6 c t0 t1 t2 t3 t4 t5
            ∗ (iprop(owns c arg7 fullShare x0 ∗ owns c arg8 fullShare x1
                ∗ (∃ f, arg9.view.loc (c : Thread nD τ) ↦[arg9.view.set]{fullShare} arg9.view.writes (Elt F) f L1)
                ∗ Tb6 c t0 t1 t2 t3 t4 t5) -∗ K ⟨⟩))
          ⊢ wp frame (wpE (defs₀ (F := F)) Variants.none c none) E (bodyOn i arg7 harg7 arg8 harg8 arg9 harg9) K } := by
  refine ⟨?_, fun E K => ?run⟩
  case run =>
    unfold bodyOn
    simp only [cc2_kernel_eq_skeleton]; unfold cc2_kernel_skel
    unfold owns Tb6
    iintro ⟨⟨%f0, %hf0, H0⟩, ⟨%f1, %hf1, H1⟩, ⟨%d2, %f2, -, H2⟩, ⟨HT0, HT1, HT2, HT3, HT4, HT5⟩, Hk⟩
    obtain rfl := harg7.eq_unread hf0
    obtain rfl := harg8.eq_unread hf1
    sl_exec
    sl_step
    iapply Hk
    iframe HT0 HT1 HT2 HT3 HT4 HT5
    isplitl [H0]
    · iexists _; isplitr; · ipureintro; exact harg7.read_unread _
      iexact H0
    isplitl [H1]
    · iexists _; isplitr; · ipureintro; exact harg8.read_unread _
      iexact H1
    iexists _; iexact H2

-- What the run leaves in the output buffer: its pieces read back.
def outOn : Vec F S1x1x2048 .i32 :=
  VO.read (Elt F) (VO.writes (Elt F) VO.junk (kernelRun c i arg7 harg7 arg8 harg8 arg9 harg9 x0 x1 t0 t1 t2 t3 t4 t5).1)

-- The gate's row: what the body leaves in the output buffer at point t.
def outAt : Vec F S1x1x2048 .i32 :=
  outOn c (grid2.coords t) _ (hs_0 V hO t) _ (hs_1 V hO t) _ (hs_2 V hO t) (iblk V hO c 0 t) (iblk V hO c 1 t)
    (tbl V 0) (tbl V 1) (tbl V 2) (tbl V 3) (tbl V 4) (tbl V 5)

def dat : Dat τ (Elt F) Unit ℕ (UR sig nD τ) ℕ (cfgM V hO) c where
  A w := V c (Pipeline.arrRef spec2 w)
  after w t := match w with
    | ⟨0, _⟩ => iblk V hO c 0 t
    | ⟨1, _⟩ => iblk V hO c 1 t
    | ⟨2, _⟩ => outAt V hO c t
  Φ _ := iprop(Pipeline.ΦA spec2 c ∗ ΦTb V c)
  q w := match w with
    | ⟨0, _⟩ => fullShare.left
    | ⟨1, _⟩ => fullShare.right
    | ⟨2, _⟩ => fullShare
  owed _ := 0

theorem A_eq : (dat V hO c).A w = V c (Pipeline.arrRef spec2 w) := rfl

theorem before_in (hw : w = 0 ∨ w = 1) (d) : (dat V hO c).before w t d = iblk V hO c w t := by
  rcases hw with rfl | rfl <;>
  exact ((dat V hO c).before_in_eq_fetched _ rfl (fun _ => rfl) (fun _ _ _ => rfl) (fun _ => rfl) t d).trans rfl

theorem after_2 : (dat V hO c).after 2 t = outAt V hO c t := by dsimp only [dat]; try rfl

theorem sound_body :
    iprop((Pipeline.ΦA spec2 c ∗ ΦTb V c) ∗ (dat V hO c).owesAt () t.castSucc
      ∗ (∃ d, owns c (ms_0 V hO t) fullShare ((dat V hO c).before 0 t d))
      ∗ (∃ d, owns c (ms_1 V hO t) fullShare ((dat V hO c).before 1 t d))
      ∗ (∃ d, owns c (ms_2 V hO t) fullShare ((dat V hO c).before 2 t d)))
    ⊢ wp frame (wpE (defs₀ (F := F)) Variants.none c none) Set.univ
        (bodyOn (grid2.coords t) _ (hs_0 V hO t) _ (hs_1 V hO t) _ (hs_2 V hO t)) (fun _ =>
      iprop((Pipeline.ΦA spec2 c ∗ ΦTb V c) ∗ (dat V hO c).owesAt () t.castSucc
        ∗ owns c (ms_0 V hO t) fullShare (iblk V hO c 0 t)
        ∗ owns c (ms_1 V hO t) fullShare (iblk V hO c 1 t)
        ∗ owns c (ms_2 V hO t) fullShare ((dat V hO c).after 2 t))) := by
  simp only [before_in V hO c _ t (.inl rfl), before_in V hO c _ t (.inr rfl)]
  rw [after_2, PhiT_eq]
  unfold outAt outOn
  iintro ⟨⟨HΦ, HT⟩, Ho, ⟨%d0, H0⟩, ⟨%d1, H1⟩, ⟨%d2, H2⟩⟩
  iapply ((kernelRun c (grid2.coords t) _ _ _ _ _ _ (iblk V hO c 0 t) (iblk V hO c 1 t) (tbl V 0) (tbl V 1) (tbl V 2) (tbl V 3) (tbl V 4) (tbl V 5)).2 Set.univ _)
  iframe H0 H1 HT
  isplitl [H2]; · iexists _; iexact H2
  iintro ⟨H0, H1, ⟨%e2, H2⟩, HT⟩
  iframe
  ihave H' := (Ring.owns_of_writes_tiledL VO S1x1x2048.size) $$ H2; iapply H'; ipureintro; sl_kernel_rfl

theorem body_obligation : BodyObligation (dat (F := F) V hO c) (defs₀ (F := F)) Variants.none () Set.univ := fun t => by
  rw [bigSep_W2, bigSep_W2]
  exact sound_body V hO c t

end Cert.Kernel.R2

end
-- ==== Proof.KB.S2.lean ====
import proofs.«401413_j6932077216080_2_alg».proof.Proof.Gen.Kernel.Launch
import proofs.«401413_j6932077216080_2_alg».proof.Proof.KB.R2

noncomputable section

namespace Cert.Kernel.R2

open Gen Idealize.ShloMosaic Idealize.ShloMosaic.TcCoe Idealize.SL.RA Idealize.SL.BI Idealize.SL.BI.BIBase Idealize.SL.ProofMode

variable {F : FTy → Type} [FloatOps F]

local notation "𝕄" => MT nD τ sig Unit (Elt F) ℕ (UR sig nD τ) ℕ

variable (W : Dev nD → Valuation τ sig (Elt F))

-- A valuation read at the core's references.
abbrev VW : (c : Dev nD) → (b : Ref sig .tc) → Buf (Elt F) ((c : Thread nD τ).loc b) := fun c b => W c b

variable (hO : Ok (VW W)) (c : Dev nD)

-- The resources a core carries from one region to the next beside its buffers.
abbrev Rst : sProp 𝕄 :=
  iprop((∃ r, prngReg c r) ∗ ∃ Wd, owes (c : Thread nD τ) 0 Wd)

-- The six tables, held whole at contents `T`.
abbrev Tb (T : pre2.Contents (Elt F)) : sProp 𝕄 := Pipeline.prefHeld pre2 c (fun _ => fullShare) T

-- The unscoped buffers that are neither a window's array nor a table, at contents `B`.
abbrev Rs (B : (b : Ref sig .tc) → Buf (Elt F) ((c : Thread nD τ).loc b)) : sProp 𝕄 := Pipeline.unscopedRestP pre2 spec2 c B

-- The index set splits into the two arrays, the tables and the rest, and the conjunction with it.
theorem bufs_eq (B T) (hT : ∀ k, B (pre2.ref k) = T k) :
    (unscopedBufs c B : sProp 𝕄)
      = iprop(((((c : Thread nD τ).loc main_v18) ↦{fullShare} B main_v18) ∗ (((c : Thread nD τ).loc main_v33) ↦{fullShare} B main_v33))
          ∗ Tb c T ∗ Rs c B) := by
  obtain rfl := funext hT
  rw [← Pipeline.unscopedRest_split preFacts2 c B]
  unfold unscopedBufs Pipeline.unscopedRest
  rw [bigSep_sdiff_split (by decide : Finset.univ.image (Pipeline.arrRef spec2) ⊆ _),
    show Finset.univ.image (Pipeline.arrRef spec2) = ({main_v18, main_v33} : Finset (Ref sig .tc)) by decide, bigSep_insert (by decide), bigSep_singleton]
  rfl

-- A conjunction over three windows, each over the whole of its array.
theorem arrays_eq (G) :
    ((dat (VW W) hO c).arrays G : sProp 𝕄)
      = iprop((((c : Thread nD τ).loc main_v18) ↦{fullShare.left} G 0) ∗ (((c : Thread nD τ).loc main_v18) ↦{fullShare.right} G 1)
          ∗ (((c : Thread nD τ).loc main_v33) ↦{fullShare} G 2)) := by
  unfold Pipeline.Dat.arrays
  rw [bigSep_W2, (arr_whole2 0).set_eq_univ, (arr_whole2 2).set_eq_univ]
  rfl

-- The buffers held at `W`, split, are the region's precondition.
theorem entry :
    iprop(StableHlo.held (c : Thread nD τ) (Pipeline.ucRefs τ sig) (W c) ∗ Rst c)
      ⊢ |={Set.univ}=> iprop((dat (VW W) hO c).arrays ((dat (VW W) hO c).arrAt · 0) ∗ Tb c (tbl (VW W))
          ∗ (dat (VW W) hO c).owesAt () 0 ∗ (∃ r, prngReg c r) ∗ Rs c (VW W c)) := by
  rw [← Pipeline.unscopedBufs_held c (W c), bufs_eq c _ _ (V_pre (VW W) c), arrays_eq]
  iintro ⟨⟨⟨⟨Hl, Hr⟩, Hout⟩, Ht, Hrest⟩, Hp, %Wd, HO⟩
  imodintro
  isplitl [Hl Hr Hout]
  · isplitl [Hl]; · iexact Hl
    isplitl [Hr]; · iexact Hr
    iexact Hout
  iframe
  iexists Wd; isplitr; · ipureintro; exact fun _ _ => .inl trivial
  iexact HO

theorem hin :
    iprop((∃ r, prngReg c r) ∗ Tb c (tbl (VW W)) ∗ Pipeline.scopedRest spec2 c) ⊢ (dat (VW W) hO c).Φ 0 := by
  change _ ⊢ iprop((_ ∗ _) ∗ _)
  iintro ⟨Hp, Ht, Hr⟩
  iframe

theorem hout :
    (dat (VW W) hO c).Φ (Fin.last (cfgM (VW W) hO).N)
      ⊢ iprop(((∃ r, prngReg c r) ∗ Tb c (tbl (VW W))) ∗ Pipeline.scopedRest spec2 c) := by
  change iprop((_ ∗ _) ∗ _) ⊢ _
  iintro ⟨⟨Hr, Hp⟩, Ht⟩
  iframe

-- Off the output array `W'` is `W`, so the region's postcondition reassembles into the buffers held at `W'`.
theorem exit (W' : Valuation τ sig (Elt F))
    (hout' : W' main_v33 = (dat (VW W) hO c).arrAt 2 (cfgM (VW W) hO).N)
    (hrest : ∀ b : Ref sig .tc, b ≠ main_v33 → W' b = W c b) :
    iprop((dat (VW W) hO c).arrays ((dat (VW W) hO c).arrAt · (cfgM (VW W) hO).N) ∗ (dat (VW W) hO c).owesAt () (Fin.last (cfgM (VW W) hO).N)
        ∗ ((∃ r, prngReg c r) ∗ Tb c (tbl (VW W))) ∗ Rs c (VW W c))
      ⊢ |={Set.univ}=> iprop(StableHlo.held (c : Thread nD τ) (Pipeline.ucRefs τ sig) W' ∗ Rst c) := by
  have ei := (hrest main_v18 (by decide)).symm
  have er : (Rs c (VW W c) : sProp 𝕄) = Rs c fun b => W' b :=
    bigSep_congr fun b hb => by simp only [hrest b fun e => absurd (e ▸ hb) (by decide)]
  rw [← Pipeline.unscopedBufs_held c W', bufs_eq c _ _ fun k => (hrest _ (preFacts2.disj k 2)).trans (V_pre (VW W) c k), arrays_eq,
    ((dat (VW W) hO c).arrAt_in 0 rfl _).trans ei, ((dat (VW W) hO c).arrAt_in 1 rfl _).trans ei, ← hout', er]
  unfold Rst
  iintro ⟨⟨Hl, Hr, Hout⟩, ⟨%Wd, -, HO⟩, ⟨Hp, Ht⟩, Hrest⟩
  imodintro
  icombine Hl Hr as Hin
  iframe
  iexists Wd; iexact HO

end Cert.Kernel.R2

end
-- ==== Proof.KB.R3.lean ====
import proofs.«401413_j6932077216080_2_alg».proof.Proof.Gen.Kernel.Launch
import proofs.«401413_j6932077216080_2_alg».proof.Proof.Gen.Kernel.Skeleton
import proofs.«401413_j6932077216080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.R3

open Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The six tables' contents at entry: there is one device.
def tbl : pre3.Contents (Elt F) := fun j => V (0 : Dev nD) (pre3.ref j)
theorem V_pre (c : Dev nD) (j : Fin 6) : V c (pre3.ref j) = tbl V j := by
  cases Subsingleton.elim c 0; rfl
-- Every row an index word names exists.
abbrev Ok : Prop := ok3 (F := F) (tbl V)

variable (hO : Ok V) (c : Dev nD)

abbrev adm : (pcfg3 (F := F)).Adm := ⟨tbl V, hO⟩
abbrev cfgM : Pipeline.Cfg sig Λ₀ := cfg3 (adm V hO)

variable (w : Fin (cfgM V hO).W) (t : Fin (cfgM V hO).N)

abbrev TbBuf (M : Memref sig .tc .smem S16000 .i32) : Type := Buf (Elt F) (M.view.loc (c : Thread nD τ))
abbrev tbPt (M : Memref sig .tc .smem S16000 .i32) (f : TbBuf (F := F) c M) : sProp 𝕄 :=
  M.view.loc (c : Thread nD τ) ↦{fullShare} f

abbrev ΦTb : sProp 𝕄 :=
  Pipeline.prefHeld pre3 c (fun _ => fullShare) (tbl V)

-- Window w's block at point t, read off its array at entry.
def iblk : (((cfgM V hO).win w).xblock ((cfgM V hO).grid.coords t)).Idx → Elt F ((cfgM V hO).win w).elt :=
  (((cfgM V hO).win w).blk t).view.read (Elt F) (V c (Pipeline.arrRef spec3 w))

abbrev VO : View sig .tc .vmem S1x1x2048 .i32 := (Memref.whole cc3_stg2_0 : Memref sig .tc .vmem S1x1x2048 .i32).view
abbrev ms_0 : Memref sig .tc .vmem S1x1x2048 .i32 := spec3_0.stage ((cfgM V hO).slots t 0)
abbrev hs_0 : (ms_0 V hO t).IsWhole := hstage3_0 (((cfgM V hO).slots t 0).cast nbuf3_0)
abbrev ms_1 : Memref sig .tc .vmem S1x1x2048 .i32 := spec3_1.stage ((cfgM V hO).slots t 1)
abbrev hs_1 : (ms_1 V hO t).IsWhole := hstage3_1 (((cfgM V hO).slots t 1).cast nbuf3_1)
abbrev ms_2 : Memref sig .tc .vmem S1x1x2048 .i32 := spec3_2.stage ((cfgM V hO).slots t 2)
abbrev hs_2 : (ms_2 V hO t).IsWhole := hstage3_2 (((cfgM V hO).slots t 2).cast nbuf3_2)

variable (i : grid3.Coords) (arg7 : Memref sig .tc .vmem S1x1x2048 .i32) (harg7 : arg7.IsWhole)
  (arg8 : Memref sig .tc .vmem S1x1x2048 .i32) (harg8 : arg8.IsWhole) (arg9 : Memref sig .tc .vmem S1x1x2048 .i32) (harg9 : arg9.IsWhole)
  (x0 x1 : Vec F S1x1x2048 .i32)
  (t0 : TbBuf (F := F) c (Memref.whole main_arg7)) (t1 : TbBuf (F := F) c (Memref.whole main_arg8)) (t2 : TbBuf (F := F) c (Memref.whole main_v37))
  (t3 : TbBuf (F := F) c (Memref.whole main_v41)) (t4 : TbBuf (F := F) c (Memref.whole main_v45)) (t5 : TbBuf (F := F) c (Memref.whole main_v49))

-- The six tables, each held whole.
abbrev Tb6 : sProp 𝕄 :=
  iprop(tbPt c (Memref.whole main_arg7) t0 ∗ tbPt c (Memref.whole main_arg8) t1 ∗ tbPt c (Memref.whole main_v37) t2
    ∗ tbPt c (Memref.whole main_v41) t3 ∗ tbPt c (Memref.whole main_v45) t4 ∗ tbPt c (Memref.whole main_v49) t5)

theorem PhiT_eq : (ΦTb V c : sProp 𝕄) = Tb6 c (tbl V 0) (tbl V 1) (tbl V 2) (tbl V 3) (tbl V 4) (tbl V 5) := by
  unfold ΦTb Pipeline.prefHeld
  rw [bigSep_univ_eq_bigSepL [(0 : Fin 6), 1, 2, 3, 4, 5] (by decide) (by decide)]
  rfl

abbrev bodyOn : Prog (TpuEff nD τ sig (Elt F) Λ₀ .tc) PUnit :=
  cc3_kernel i (Memref.whole main_arg7) (Memref.isWhole_whole _) (Memref.whole main_arg8) (Memref.isWhole_whole _) (Memref.whole main_v37) (Memref.isWhole_whole _)
    (Memref.whole main_v41) (Memref.isWhole_whole _) (Memref.whole main_v45) (Memref.isWhole_whole _) (Memref.whole main_v49) (Memref.isWhole_whole _) arg7 harg7 arg8 harg8 arg9 harg9

set_option maxHeartbeats 1000000 in
-- The pieces the body's one store writes, with the run: inputs and tables come back as they were, the output holds the pieces.
def kernelRun :
    { L1 : List (View.Piece (Elt F) S1x1x2048 .i32) //
      ∀ (E : Set ℕ) (K : PUnit → sProp 𝕄),
        iprop(owns c arg7 fullShare x0 ∗ owns c arg8 fullShare x1 ∗ (∃ d, owns c arg9 fullShare d)
            ∗ Tb6 c t0 t1 t2 t3 t4 t5
            ∗ (iprop(owns c arg7 fullShare x0 ∗ owns c arg8 fullShare x1
                ∗ (∃ f, arg9.view.loc (c : Thread nD τ) ↦[arg9.view.set]{fullShare} arg9.view.writes (Elt F) f L1)
                ∗ Tb6 c t0 t1 t2 t3 t4 t5) -∗ K ⟨⟩))
          ⊢ wp frame (wpE (defs₀ (F := F)) Variants.none c none) E (bodyOn i arg7 harg7 arg8 harg8 arg9 harg9) K } := by
  refine ⟨?_, fun E K => ?run⟩
  case run =>
    unfold bodyOn
    simp only [cc3_kernel_eq_skeleton]; unfold cc3_kernel_skel
    unfold owns Tb6
    iintro ⟨⟨%f0, %hf0, H0⟩, ⟨%f1, %hf1, H1⟩, ⟨%d2, %f2, -, H2⟩, ⟨HT0, HT1, HT2, HT3, HT4, HT5⟩, Hk⟩
    obtain rfl := harg7.eq_unread hf0
    obtain rfl := harg8.eq_unread hf1
    sl_exec
    sl_step
    iapply Hk
    iframe HT0 HT1 HT2 HT3 HT4 HT5
    isplitl [H0]
    · iexists _; isplitr; · ipureintro; exact harg7.read_unread _
      iexact H0
    isplitl [H1]
    · iexists _; isplitr; · ipureintro; exact harg8.read_unread _
      iexact H1
    iexists _; iexact H2

-- What the run leaves in the output buffer: its pieces read back.
def outOn : Vec F S1x1x2048 .i32 :=
  VO.read (Elt F) (VO.writes (Elt F) VO.junk (kernelRun c i arg7 harg7 arg8 harg8 arg9 harg9 x0 x1 t0 t1 t2 t3 t4 t5).1)

-- The gate's row: what the body leaves in the output buffer at point t.
def outAt : Vec F S1x1x2048 .i32 :=
  outOn c (grid3.coords t) _ (hs_0 V hO t) _ (hs_1 V hO t) _ (hs_2 V hO t) (iblk V hO c 0 t) (iblk V hO c 1 t)
    (tbl V 0) (tbl V 1) (tbl V 2) (tbl V 3) (tbl V 4) (tbl V 5)

def dat : Dat τ (Elt F) Unit ℕ (UR sig nD τ) ℕ (cfgM V hO) c where
  A w := V c (Pipeline.arrRef spec3 w)
  after w t := match w with
    | ⟨0, _⟩ => iblk V hO c 0 t
    | ⟨1, _⟩ => iblk V hO c 1 t
    | ⟨2, _⟩ => outAt V hO c t
  Φ _ := iprop(Pipeline.ΦA spec3 c ∗ ΦTb V c)
  q w := match w with
    | ⟨0, _⟩ => fullShare.left
    | ⟨1, _⟩ => fullShare.right
    | ⟨2, _⟩ => fullShare
  owed _ := 0

theorem A_eq : (dat V hO c).A w = V c (Pipeline.arrRef spec3 w) := rfl

theorem before_in (hw : w = 0 ∨ w = 1) (d) : (dat V hO c).before w t d = iblk V hO c w t := by
  rcases hw with rfl | rfl <;>
  exact ((dat V hO c).before_in_eq_fetched _ rfl (fun _ => rfl) (fun _ _ _ => rfl) (fun _ => rfl) t d).trans rfl

theorem after_2 : (dat V hO c).after 2 t = outAt V hO c t := by dsimp only [dat]; try rfl

theorem sound_body :
    iprop((Pipeline.ΦA spec3 c ∗ ΦTb V c) ∗ (dat V hO c).owesAt () t.castSucc
      ∗ (∃ d, owns c (ms_0 V hO t) fullShare ((dat V hO c).before 0 t d))
      ∗ (∃ d, owns c (ms_1 V hO t) fullShare ((dat V hO c).before 1 t d))
      ∗ (∃ d, owns c (ms_2 V hO t) fullShare ((dat V hO c).before 2 t d)))
    ⊢ wp frame (wpE (defs₀ (F := F)) Variants.none c none) Set.univ
        (bodyOn (grid3.coords t) _ (hs_0 V hO t) _ (hs_1 V hO t) _ (hs_2 V hO t)) (fun _ =>
      iprop((Pipeline.ΦA spec3 c ∗ ΦTb V c) ∗ (dat V hO c).owesAt () t.castSucc
        ∗ owns c (ms_0 V hO t) fullShare (iblk V hO c 0 t)
        ∗ owns c (ms_1 V hO t) fullShare (iblk V hO c 1 t)
        ∗ owns c (ms_2 V hO t) fullShare ((dat V hO c).after 2 t))) := by
  simp only [before_in V hO c _ t (.inl rfl), before_in V hO c _ t (.inr rfl)]
  rw [after_2, PhiT_eq]
  unfold outAt outOn
  iintro ⟨⟨HΦ, HT⟩, Ho, ⟨%d0, H0⟩, ⟨%d1, H1⟩, ⟨%d2, H2⟩⟩
  iapply ((kernelRun c (grid3.coords t) _ _ _ _ _ _ (iblk V hO c 0 t) (iblk V hO c 1 t) (tbl V 0) (tbl V 1) (tbl V 2) (tbl V 3) (tbl V 4) (tbl V 5)).2 Set.univ _)
  iframe H0 H1 HT
  isplitl [H2]; · iexists _; iexact H2
  iintro ⟨H0, H1, ⟨%e2, H2⟩, HT⟩
  iframe
  ihave H' := (Ring.owns_of_writes_tiledL VO S1x1x2048.size) $$ H2; iapply H'; ipureintro; sl_kernel_rfl

theorem body_obligation : BodyObligation (dat (F := F) V hO c) (defs₀ (F := F)) Variants.none () Set.univ := fun t => by
  rw [bigSep_W3, bigSep_W3]
  exact sound_body V hO c t

end Cert.Kernel.R3

end
-- ==== Proof.KB.S3.lean ====
import proofs.«401413_j6932077216080_2_alg».proof.Proof.Gen.Kernel.Launch
import proofs.«401413_j6932077216080_2_alg».proof.Proof.KB.R3

noncomputable section

namespace Cert.Kernel.R3

open Gen Idealize.ShloMosaic Idealize.ShloMosaic.TcCoe Idealize.SL.RA Idealize.SL.BI Idealize.SL.BI.BIBase Idealize.SL.ProofMode

variable {F : FTy → Type} [FloatOps F]

local notation "𝕄" => MT nD τ sig Unit (Elt F) ℕ (UR sig nD τ) ℕ

variable (W : Dev nD → Valuation τ sig (Elt F))

-- A valuation read at the core's references.
abbrev VW : (c : Dev nD) → (b : Ref sig .tc) → Buf (Elt F) ((c : Thread nD τ).loc b) := fun c b => W c b

variable (hO : Ok (VW W)) (c : Dev nD)

-- The resources a core carries from one region to the next beside its buffers.
abbrev Rst : sProp 𝕄 :=
  iprop((∃ r, prngReg c r) ∗ ∃ Wd, owes (c : Thread nD τ) 0 Wd)

-- The six tables, held whole at contents `T`.
abbrev Tb (T : pre3.Contents (Elt F)) : sProp 𝕄 := Pipeline.prefHeld pre3 c (fun _ => fullShare) T

-- The unscoped buffers that are neither a window's array nor a table, at contents `B`.
abbrev Rs (B : (b : Ref sig .tc) → Buf (Elt F) ((c : Thread nD τ).loc b)) : sProp 𝕄 := Pipeline.unscopedRestP pre3 spec3 c B

-- The index set splits into the two arrays, the tables and the rest, and the conjunction with it.
theorem bufs_eq (B T) (hT : ∀ k, B (pre3.ref k) = T k) :
    (unscopedBufs c B : sProp 𝕄)
      = iprop(((((c : Thread nD τ).loc main_v35) ↦{fullShare} B main_v35) ∗ (((c : Thread nD τ).loc main_v50) ↦{fullShare} B main_v50))
          ∗ Tb c T ∗ Rs c B) := by
  obtain rfl := funext hT
  rw [← Pipeline.unscopedRest_split preFacts3 c B]
  unfold unscopedBufs Pipeline.unscopedRest
  rw [bigSep_sdiff_split (by decide : Finset.univ.image (Pipeline.arrRef spec3) ⊆ _),
    show Finset.univ.image (Pipeline.arrRef spec3) = ({main_v35, main_v50} : Finset (Ref sig .tc)) by decide, bigSep_insert (by decide), bigSep_singleton]
  rfl

-- A conjunction over three windows, each over the whole of its array.
theorem arrays_eq (G) :
    ((dat (VW W) hO c).arrays G : sProp 𝕄)
      = iprop((((c : Thread nD τ).loc main_v35) ↦{fullShare.left} G 0) ∗ (((c : Thread nD τ).loc main_v35) ↦{fullShare.right} G 1)
          ∗ (((c : Thread nD τ).loc main_v50) ↦{fullShare} G 2)) := by
  unfold Pipeline.Dat.arrays
  rw [bigSep_W3, (arr_whole3 0).set_eq_univ, (arr_whole3 2).set_eq_univ]
  rfl

-- The buffers held at `W`, split, are the region's precondition.
theorem entry :
    iprop(StableHlo.held (c : Thread nD τ) (Pipeline.ucRefs τ sig) (W c) ∗ Rst c)
      ⊢ |={Set.univ}=> iprop((dat (VW W) hO c).arrays ((dat (VW W) hO c).arrAt · 0) ∗ Tb c (tbl (VW W))
          ∗ (dat (VW W) hO c).owesAt () 0 ∗ (∃ r, prngReg c r) ∗ Rs c (VW W c)) := by
  rw [← Pipeline.unscopedBufs_held c (W c), bufs_eq c _ _ (V_pre (VW W) c), arrays_eq]
  iintro ⟨⟨⟨⟨Hl, Hr⟩, Hout⟩, Ht, Hrest⟩, Hp, %Wd, HO⟩
  imodintro
  isplitl [Hl Hr Hout]
  · isplitl [Hl]; · iexact Hl
    isplitl [Hr]; · iexact Hr
    iexact Hout
  iframe
  iexists Wd; isplitr; · ipureintro; exact fun _ _ => .inl trivial
  iexact HO

theorem hin :
    iprop((∃ r, prngReg c r) ∗ Tb c (tbl (VW W)) ∗ Pipeline.scopedRest spec3 c) ⊢ (dat (VW W) hO c).Φ 0 := by
  change _ ⊢ iprop((_ ∗ _) ∗ _)
  iintro ⟨Hp, Ht, Hr⟩
  iframe

theorem hout :
    (dat (VW W) hO c).Φ (Fin.last (cfgM (VW W) hO).N)
      ⊢ iprop(((∃ r, prngReg c r) ∗ Tb c (tbl (VW W))) ∗ Pipeline.scopedRest spec3 c) := by
  change iprop((_ ∗ _) ∗ _) ⊢ _
  iintro ⟨⟨Hr, Hp⟩, Ht⟩
  iframe

-- Off the output array `W'` is `W`, so the region's postcondition reassembles into the buffers held at `W'`.
theorem exit (W' : Valuation τ sig (Elt F))
    (hout' : W' main_v50 = (dat (VW W) hO c).arrAt 2 (cfgM (VW W) hO).N)
    (hrest : ∀ b : Ref sig .tc, b ≠ main_v50 → W' b = W c b) :
    iprop((dat (VW W) hO c).arrays ((dat (VW W) hO c).arrAt · (cfgM (VW W) hO).N) ∗ (dat (VW W) hO c).owesAt () (Fin.last (cfgM (VW W) hO).N)
        ∗ ((∃ r, prngReg c r) ∗ Tb c (tbl (VW W))) ∗ Rs c (VW W c))
      ⊢ |={Set.univ}=> iprop(StableHlo.held (c : Thread nD τ) (Pipeline.ucRefs τ sig) W' ∗ Rst c) := by
  have ei := (hrest main_v35 (by decide)).symm
  have er : (Rs c (VW W c) : sProp 𝕄) = Rs c fun b => W' b :=
    bigSep_congr fun b hb => by simp only [hrest b fun e => absurd (e ▸ hb) (by decide)]
  rw [← Pipeline.unscopedBufs_held c W', bufs_eq c _ _ fun k => (hrest _ (preFacts3.disj k 2)).trans (V_pre (VW W) c k), arrays_eq,
    ((dat (VW W) hO c).arrAt_in 0 rfl _).trans ei, ((dat (VW W) hO c).arrAt_in 1 rfl _).trans ei, ← hout', er]
  unfold Rst
  iintro ⟨⟨Hl, Hr, Hout⟩, ⟨%Wd, -, HO⟩, ⟨Hp, Ht⟩, Hrest⟩
  imodintro
  icombine Hl Hr as Hin
  iframe
  iexists Wd; iexact HO

end Cert.Kernel.R3

end
-- ==== Proof.KB.R4.lean ====
import proofs.«401413_j6932077216080_2_alg».proof.Proof.Gen.Kernel.Launch
import proofs.«401413_j6932077216080_2_alg».proof.Proof.Gen.Kernel.Skeleton
import Idealize.ShloMosaic.Lib.Pipeline.Value
import Idealize.ShloMosaic.Lib.Tactic

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev condW (x : BitVec 32) : Prop :=
  let v0 := Scalar.cmpi .eq 1600#32 0#32
  let v1 := Scalar.select v0 1#32 1600#32
  let v2 := Scalar.remsi x v1
  let v3 := Scalar.cmpi .ne v2 0#32
  let v4 := Scalar.cmpi .slt v2 0#32
  let v5 := Scalar.cmpi .slt v1 0#32
  let v6 := Scalar.xori v4 v5
  let v7 := Scalar.andi v6 v3
  let v8 := Scalar.addi v2 v1
  let v9 := Scalar.select v7 v8 v2
  let v10 := Scalar.cmpi .eq v9 0#32
  let v11 := Scalar.extui v10
  let v12 := Scalar.cmpi .ne v11 0#32
  v12 = 1#1

abbrev cond4 (i : grid4.Coords) : Prop := condW (BitVec.ofNat 32 (i 0).val)

private theorem bit_eq_zero_of_ne_one : ∀ b : BitVec 1, b ≠ 1#1 → b = 0#1 := by decide
private theorem andi_zero_left : ∀ b : BitVec 1, Scalar.andi 0#1 b = 0#1 := by decide
private theorem select_zero {α : Type} (a b : α) : Scalar.select 0#1 a b = b := by
  unfold Scalar.select; exact if_neg (by decide)

-- A nonnegative word is not below zero.
private theorem slt_zero (x : BitVec 32) (hx : 2 * x.toNat < 2 ^ 32) : Scalar.cmpi .slt x 0#32 = 0#1 :=
  bit_eq_zero_of_ne_one _ fun h => by
    rw [Scalar.cmpi, IntOp.cmpi_slt, show (0#32 : BitVec 32).toInt = 0 from by decide,
      BitVec.toInt_eq_toNat_of_lt hx] at h
    omega

-- The reset condition holds of a nonnegative word exactly when 1600 divides it.
theorem condW_iff (x : BitVec 32) (hx : 2 * x.toNat < 2 ^ 32) : condW x ↔ x.toNat % 1600 = 0 := by
  have hv1 : Scalar.select (Scalar.cmpi .eq 1600#32 0#32) 1#32 (1600#32 : BitVec 32) = 1600#32 := by decide
  have hv5 : Scalar.cmpi .slt (1600#32 : BitVec 32) 0#32 = 0#1 := by decide
  have hx6 : Scalar.xori 0#1 0#1 = (0#1 : BitVec 1) := by decide
  have hr : (Scalar.remsi x 1600#32).toNat = x.toNat % 1600 := IntOp.toNat_remsi .scalar hx 1600 (by omega) (by omega)
  unfold condW
  dsimp only
  rw [hv1, hv5, slt_zero _ (by rw [hr]; omega), hx6, andi_zero_left, select_zero, Scalar.guard_iff, Scalar.cmpi,
    IntOp.cmpi_eq, ← BitVec.toNat_inj, hr]
  rfl

abbrev fdivW (x : BitVec 32) : BitVec 32 :=
  let v0 := Scalar.divsi x 1600#32
  let v1 := Scalar.cmpi .sgt x 0#32
  let v2 := Scalar.extui v1
  let v3 := Scalar.cmpi .slt x 0#32
  let v4 := Scalar.extui v3
  let v5 := Scalar.subi v2 v4
  let v6 := Scalar.cmpi .sgt 1600#32 0#32
  let v7 := Scalar.extui v6
  let v8 := Scalar.cmpi .slt 1600#32 0#32
  let v9 := Scalar.extui v8
  let v10 := Scalar.subi v7 v9
  let v11 := Scalar.cmpi .ne v5 v10
  let v12 := Scalar.remsi x 1600#32
  let v13 := Scalar.cmpi .ne v12 0#32
  let v14 := Scalar.andi v11 v13
  let v15 := Scalar.subi v0 1#32
  let v16 := Scalar.select v14 v15 v0
  v16

theorem transform_2_eq (i : grid4.Coords) :
    cc4_transform_2 i = ![(fdivW (BitVec.ofNat 32 (i 0).val)).toNat, 0, 0] := rfl

private theorem toNat_divsi_1600 (x : BitVec 32) (hx : 2 * x.toNat < 2 ^ 32) :
    (Scalar.divsi x 1600#32).toNat = x.toNat / 1600 := by
  have hm : x.msb = false := by rw [BitVec.msb_eq_false_iff_two_mul_lt]; exact hx
  have hkm : (1600#32 : BitVec 32).msb = false := by decide
  rw [Scalar.divsi, IntOp.divsi, if_neg (IntOp.not_corner_of_pos (by decide)), BitVec.sdiv_eq, hm, hkm]
  show (x / 1600#32).toNat = _
  rw [BitVec.toNat_udiv]; rfl

-- Of a nonnegative word the block index is the natural quotient by 1600.
theorem toNat_fdivW (x : BitVec 32) (hx : 2 * x.toNat < 2 ^ 32) : (fdivW x).toNat = x.toNat / 1600 := by
  have hv10 : Scalar.subi (Scalar.extui (Scalar.cmpi .sgt (1600#32 : BitVec 32) 0#32))
      (Scalar.extui (Scalar.cmpi .slt (1600#32 : BitVec 32) 0#32)) = 1#32 := by decide
  unfold fdivW
  dsimp only
  rw [hv10]
  by_cases h0 : x = 0#32
  · subst h0; decide
  · have hsgt : Scalar.cmpi .sgt x 0#32 = 1#1 := by
      rw [Scalar.cmpi, IntOp.cmpi_sgt, show (0#32 : BitVec 32).toInt = 0 from by decide,
        BitVec.toInt_eq_toNat_of_lt hx]
      have : x.toNat ≠ 0 := fun h => h0 (BitVec.eq_of_toNat_eq (h.trans rfl))
      omega
    have h11 : Scalar.cmpi .ne (Scalar.subi (Scalar.extui 1#1) (Scalar.extui 0#1)) (1#32 : BitVec 32) = 0#1 := by decide
    rw [hsgt, slt_zero x hx, h11, andi_zero_left, select_zero]
    exact toNat_divsi_1600 x hx

private theorem t_lt (t : Fin grid4.N) : t.val < 16000 := lt_of_lt_of_eq t.isLt N_4

theorem coords_val (t : Fin grid4.N) : (grid4.coords t 0).val = t.val := by
  have := t_lt t
  show t.val / 1 % 16000 = t.val
  omega

private theorem toNat_coord (t : Fin grid4.N) : (BitVec.ofNat 32 (grid4.coords t 0).val).toNat = t.val := by
  have := t_lt t
  rw [coords_val, BitVec.toNat_ofNat]; omega

theorem hcond4 (t : Fin grid4.N) : cond4 (grid4.coords t) ↔ t.val % 1600 = 0 := by
  have := t_lt t
  rw [cond4, condW_iff _ (by rw [toNat_coord]; omega), toNat_coord]

abbrev tbM0 : Memref sig .tc .smem S16000 .i32 := Memref.whole main_arg10
abbrev tbM1 : Memref sig .tc .smem S16000 .i32 := Memref.whole main_arg11
abbrev tbM2 : Memref sig .tc .smem S16000 .i32 := Memref.whole main_v54
abbrev tbM3 : Memref sig .tc .smem S16000 .i32 := Memref.whole main_v58
abbrev tbM4 : Memref sig .tc .smem S16000 .i32 := Memref.whole main_v62
abbrev tbM5 : Memref sig .tc .smem S16000 .i32 := Memref.whole main_v66

abbrev TbBuf (c : Dev nD) (M : Memref sig .tc .smem S16000 .i32) : Type := Buf (Elt F) (M.view.loc (c : Thread nD τ))
abbrev tbPt (c : Dev nD) (M : Memref sig .tc .smem S16000 .i32) (f : TbBuf (F := F) c M) : sProp 𝕄 :=
  M.view.loc (c : Thread nD τ) ↦{fullShare} f

def wordAt (c : Dev nD) (M : Memref sig .tc .smem S16000 .i32) (f : TbBuf (F := F) c M) (i : grid4.Coords) : Elt F .i32 :=
  View.readAt (Elt F) M.view (Rect.unit (s := S16000) (k4_off1 i) S1.size (k4_off1_inb i)).toLoadRect f
    (Shape.Idx.first (numel1_S1.symm ▸ Nat.one_pos))

def rowOf (c : Dev nD) (i : grid4.Coords) (x0 x1 : Vec F S1x1x2048 .i32)
    (xt2 : TbBuf (F := F) c tbM2) (xt3 : TbBuf (F := F) c tbM3) (xt4 : TbBuf (F := F) c tbM4) (xt5 : TbBuf (F := F) c tbM5) :
    Vec F S1x1x2048 .i32 :=
  k4_pay3 x0 x1 (wordAt c tbM2 xt2 i) (wordAt c tbM3 xt3 i) (wordAt c tbM4 xt4 i) (wordAt c tbM5 xt5 i)

private theorem off3_zero : ∀ a : Fin 3, (![0, 0, 0] : Fin 3 → ℕ) a = 0 := by decide

abbrev rAll : Rect S1x1x2048 := Rect.unit (s := S1x1x2048) ![0, 0, 0] S1x1x2048.size inb_S1x1x2048_S1x1x2048_0_0_0

-- The whole block's rectangle places every index at itself.
private theorem emb0 (y : S1x1x2048.Idx) : rAll.emb y = y :=
  funext fun a => Fin.ext (by
    show (![0, 0, 0] : Fin 3 → ℕ) a + 1 * (y a).val = (y a).val
    rw [off3_zero a, Nat.zero_add, Nat.one_mul])

-- A store of the whole block, made last, leaves its payload.
theorem read_store_whole {κ : Kind} {sp : Space} (v : View sig κ sp S1x1x2048 .i32) (f : v.ty.Contents (Elt F))
    (w : S1x1x2048.Idx → Elt F .i32) (L : List (View.Piece (Elt F) S1x1x2048 .i32)) :
    v.read (Elt F) (v.writes (Elt F) f (⟨rAll, w⟩ :: L)) = w :=
  funext fun y => by
    have h := View.read_writes_cons_emb v f rAll w L y
    rwa [emb0] at h

-- A load of the whole block of a whole memref holding X reads X.
theorem load_whole (m : Memref sig .tc .vmem S1x1x2048 .i32) (h : m.IsWhole) (X : Vec F S1x1x2048 .i32) :
    View.readAt (Elt F) m.view rAll.toLoadRect (h.unread X) = X := by
  funext x
  rw [View.readAt_apply, h.read_unread]
  exact congrArg X (emb0 x)

section Body
variable (c : Dev nD) (i : grid4.Coords) (a7 a8 a9 : Memref sig .tc .vmem S1x1x2048 .i32) (x0 x1 : Vec F S1x1x2048 .i32)
  (xt0 : TbBuf (F := F) c tbM0) (xt1 : TbBuf (F := F) c tbM1) (xt2 : TbBuf (F := F) c tbM2)
  (xt3 : TbBuf (F := F) c tbM3) (xt4 : TbBuf (F := F) c tbM4) (xt5 : TbBuf (F := F) c tbM5)

-- What the body holds: the two inputs at their blocks, the output at xo, the six tables.
abbrev held (xo : Vec F S1x1x2048 .i32) : sProp 𝕄 :=
  iprop(owns (c : Thread nD τ) a7 fullShare x0 ∗ owns (c : Thread nD τ) a8 fullShare x1 ∗ owns (c : Thread nD τ) a9 fullShare xo
    ∗ tbPt c tbM0 xt0 ∗ tbPt c tbM1 xt1 ∗ tbPt c tbM2 xt2 ∗ tbPt c tbM3 xt3 ∗ tbPt c tbM4 xt4 ∗ tbPt c tbM5 xt5)

abbrev run (h7 : a7.IsWhole) (h8 : a8.IsWhole) (h9 : a9.IsWhole) : Prog (TpuEff nD τ sig (Elt F) Λ₀ .tc) PUnit :=
  cc4_kernel i tbM0 (Memref.isWhole_whole _) tbM1 (Memref.isWhole_whole _) tbM2 (Memref.isWhole_whole _)
    tbM3 (Memref.isWhole_whole _) tbM4 (Memref.isWhole_whole _) tbM5 (Memref.isWhole_whole _) a7 h7 a8 h8 a9 h9

variable (h7 : a7.IsWhole) (h8 : a8.IsWhole) (h9 : a9.IsWhole) (xo : Vec F S1x1x2048 .i32) (E : Set ℕ)

set_option maxHeartbeats 1000000 in
-- At a reset point the body leaves the gate row added to the zero block, whatever the output held; elsewhere added to what it held.
theorem kernel_run (out : Vec F S1x1x2048 .i32)
    (h : cond4 i ∧ out = k4_pay1 (F := F) (rowOf c i x0 x1 xt2 xt3 xt4 xt5) k4_pay2
      ∨ ¬cond4 i ∧ out = k4_pay1 (rowOf c i x0 x1 xt2 xt3 xt4 xt5) xo) (K : PUnit → sProp 𝕄) :
    iprop(held c a7 a8 a9 x0 x1 xt0 xt1 xt2 xt3 xt4 xt5 xo ∗ (held c a7 a8 a9 x0 x1 xt0 xt1 xt2 xt3 xt4 xt5 out -∗ K ⟨⟩))
      ⊢ wp frame (wpE (defs₀ (F := F)) Variants.none c none) E (run i a7 a8 a9 h7 h8 h9) K := by
  unfold held run
  simp only [cc4_kernel_eq_skeleton]; unfold cc4_kernel_skel
  simp only [k4_part1_eq_skeleton]; unfold k4_part1_skel
  unfold owns
  iintro ⟨⟨⟨%f0, %hf0, H0⟩, ⟨%f1, %hf1, H1⟩, ⟨%f2, %hf2, H2⟩, HT0, HT1, HT2, HT3, HT4, HT5⟩, Hk⟩
  obtain rfl := h7.eq_unread hf0; obtain rfl := h8.eq_unread hf1
  obtain ⟨hc, rfl⟩ | ⟨hc, rfl⟩ := h
  on_goal 2 => obtain rfl := h9.eq_unread hf2
  all_goals
    sl_exec (disch := exact hc)
    sl_step
    iapply Hk
    iframe HT0 HT1 HT2 HT3 HT4 HT5
    isplitl [H0]
    · iexists _; isplitr; · ipureintro; exact h7.read_unread _
      iexact H0
    isplitl [H1]
    · iexists _; isplitr; · ipureintro; exact h8.read_unread _
      iexact H1
    iexists _; isplitr
    swap; · iexact H2
    ipureintro
    rw [read_store_whole]
    sl_unfold_run_names
    first | rw [View.readCov_cons_toLoadRect, load_whole, load_whole] | rw [load_whole, load_whole, load_whole]
    rfl

end Body

def tbl : pre4.Contents (Elt F) := fun j => V (0 : Dev nD) (pre4.ref j)
-- There is one device.
theorem V_pre (c : Dev nD) (j : Fin 6) : V c (pre4.ref j) = tbl V j := by
  obtain rfl : c = 0 := Subsingleton.elim _ _; rfl
abbrev Ok : Prop := ok4 (F := F) (tbl V)
abbrev adm (hO : Ok V) : (pcfg4 (F := F)).Adm := ⟨tbl V, hO⟩
abbrev cfgM (hO : Ok V) : Pipeline.Cfg sig Λ₀ := cfg4 (adm V hO)

variable (hO : Ok V) (c : Dev nD)

def iblk (w : Fin (cfgM V hO).W) (t : Fin (cfgM V hO).N) : (((cfgM V hO).win w).xblock ((cfgM V hO).grid.coords t)).Idx → Elt F ((cfgM V hO).win w).elt :=
  (((cfgM V hO).win w).blk t).view.read (Elt F) (V c (Pipeline.arrRef spec4 w))

variable (t : Fin (cfgM V hO).N)

abbrev ms_0 : Memref sig .tc .vmem S1x1x2048 .i32 := spec4_0.stage ((cfgM V hO).slots t 0)
abbrev hs_0 : (ms_0 V hO t).IsWhole := hstage4_0 (((cfgM V hO).slots t 0).cast nbuf4_0)
abbrev ms_1 : Memref sig .tc .vmem S1x1x2048 .i32 := spec4_1.stage ((cfgM V hO).slots t 1)
abbrev hs_1 : (ms_1 V hO t).IsWhole := hstage4_1 (((cfgM V hO).slots t 1).cast nbuf4_1)
abbrev ms_2 : Memref sig .tc .vmem S1x1x2048 .i32 := spec4_2.stage ((cfgM V hO).slots t 2)
abbrev hs_2 : (ms_2 V hO t).IsWhole := hstage4_2 (((cfgM V hO).slots t 2).cast nbuf4_2)

abbrev tabs : sProp 𝕄 := Pipeline.prefHeld (Ix := Unit) (Name := ℕ) (U := UR sig nD τ) (Lvl := ℕ) pre4 c (fun _ => fullShare) (tbl V)

-- The tables the region hands the body, table by table.
theorem PhiT_eq :
    tabs V c
      = iprop(tbPt c tbM0 (tbl V 0) ∗ tbPt c tbM1 (tbl V 1) ∗ tbPt c tbM2 (tbl V 2) ∗ tbPt c tbM3 (tbl V 3)
          ∗ tbPt c tbM4 (tbl V 4) ∗ tbPt c tbM5 (tbl V 5)) := by
  unfold tabs Pipeline.prefHeld
  rw [bigSep_univ_eq_bigSepL [(0 : Fin 6), 1, 2, 3, 4, 5] (by decide) (by decide)]
  rfl

section Schedule
variable (a : (pcfg4 (F := F)).Adm)

theorem N_a : (cfg4 a).N = 16000 := N_4

-- The output's block index at point t is t / 1600.
theorem index_2 (t : Fin (cfg4 a).N) : ((cfg4 a).win 2).index t = ![t.val / 1600, 0, 0] := by
  have := t_lt t
  show cc4_transform_2 (grid4.coords t) = _
  rw [transform_2_eq, toNat_fdivW _ (by rw [toNat_coord]; omega), toNat_coord]

theorem flush_2 (t : Fin (cfg4 a).N) : ((cfg4 a).win 2).flush t = true ↔ (t.val + 1) % 1600 = 0 := by
  have hN : t.val < 16000 := lt_of_lt_of_eq t.isLt (N_a a)
  have hG : (cfg4 a).grid.N = 16000 := N_a a
  unfold Window.flush
  rw [show ((cfg4 a).win 2).isOut = true from rfl, Bool.true_and, Bool.or_eq_true, decide_eq_true_eq, decide_eq_true_eq]
  constructor
  · rintro (h | ⟨h, hne⟩)
    · omega
    · rw [index_2, index_2] at hne
      have : (t.val + 1) / 1600 ≠ t.val / 1600 := fun e => hne (by show ![_, _, _] = ![_, _, _]; rw [e])
      omega
  · intro h
    by_cases hl : t.val + 1 = 16000
    · exact .inl (by omega)
    · refine .inr ⟨by omega, fun e => ?_⟩
      rw [index_2, index_2] at e
      have : (t.val + 1) / 1600 = t.val / 1600 := congrFun e 0
      omega

end Schedule

def row : Vec F S1x1x2048 .i32 :=
  rowOf c (grid4.coords t) (iblk V hO c 0 t) (iblk V hO c 1 t) (tbl V 2) (tbl V 3) (tbl V 4) (tbl V 5)

-- The running sum: the gate row added to the zero block at the first point of a group of 1600, to what the point before left elsewhere.
def acc : (n : ℕ) → (hn : n < (cfgM V hO).N) → Vec F S1x1x2048 .i32
  | 0, hn => k4_pay1 (F := F) (row V hO c ⟨0, hn⟩) k4_pay2
  | n + 1, hn =>
    if (n + 1) % 1600 = 0 then k4_pay1 (F := F) (row V hO c ⟨n + 1, hn⟩) k4_pay2
    else k4_pay1 (row V hO c ⟨n + 1, hn⟩) (acc n (Nat.lt_of_succ_lt hn))

theorem acc_zero_mod (n : ℕ) (hn : n < (cfgM V hO).N) (h : n % 1600 = 0) :
    acc V hO c n hn = k4_pay1 (F := F) (row V hO c ⟨n, hn⟩) k4_pay2 := by
  cases n with
  | zero => rfl
  | succ n => exact (if_pos h).trans rfl

theorem acc_succ (n : ℕ) (hn : n < (cfgM V hO).N) (h : n % 1600 ≠ 0) :
    acc V hO c n hn = k4_pay1 (row V hO c ⟨n, hn⟩) (acc V hO c (n - 1) (Nat.lt_of_le_of_lt (Nat.sub_le _ _) hn)) := by
  cases n with
  | zero => exact absurd (Nat.zero_mod _) h
  | succ n => exact (if_neg h).trans rfl

def dat : Dat τ (Elt F) Unit ℕ (UR sig nD τ) ℕ (cfgM V hO) c where
  A w := V c (Pipeline.arrRef spec4 w)
  after w t := match w with
    | ⟨0, _⟩ => iblk V hO c 0 t
    | ⟨1, _⟩ => iblk V hO c 1 t
    | ⟨2, _⟩ => acc V hO c t.val t.isLt
  Φ _ := iprop(Pipeline.ΦA spec4 c ∗ Pipeline.prefHeld (Ix := Unit) (Name := ℕ) (U := UR sig nD τ) (Lvl := ℕ) pre4 c (fun _ => fullShare) (tbl V))
  q := fun | ⟨0, _⟩ => fullShare.left | ⟨1, _⟩ => fullShare.right | _ => fullShare
  owed _ := 0

theorem A_eq (w : Fin (cfgM V hO).W) : (dat V hO c).A w = V c (Pipeline.arrRef spec4 w) := rfl

theorem after_2 : (dat V hO c).after 2 t = acc V hO c t.val t.isLt := rfl

theorem before_0 (d) : (dat V hO c).before 0 t d = iblk V hO c 0 t :=
  (dat V hO c).before_in_eq_fetched 0 rfl (fun _ => rfl) (fun _ _ _ => rfl) (fun _ => rfl) t d
theorem before_1 (d) : (dat V hO c).before 1 t d = iblk V hO c 1 t :=
  (dat V hO c).before_in_eq_fetched 1 rfl (fun _ => rfl) (fun _ _ _ => rfl) (fun _ => rfl) t d

-- Away from a group's first point the running sum carries over from the point before.
theorem before_2_acc (h : t.val % 1600 ≠ 0) (d) :
    (dat V hO c).before 2 t d = acc V hO c (t.val - 1) (Nat.lt_of_le_of_lt (Nat.sub_le _ _) t.isLt) := by
  have ht : t.val ≠ 0 := fun e => h (by rw [e])
  rw [Dat.before_out_kept _ 2 rfl t ht
    (Bool.eq_false_iff.mpr fun hf => by have := (flush_2 (adm V hO) _).mp hf; dsimp only at this; omega)
    (fun _ => rfl) (fun _ _ => rfl)]
  exact after_2 V hO c _

abbrev bodyAt : Prog (TpuEff nD τ sig (Elt F) Λ₀ .tc) PUnit :=
  run (grid4.coords t) (ms_0 V hO t) (ms_1 V hO t) (ms_2 V hO t) (hs_0 V hO t) (hs_1 V hO t) (hs_2 V hO t)

-- At a group's first point the body starts the sum afresh; elsewhere it adds to the sum so far.
theorem sound_body :
    iprop((Pipeline.ΦA spec4 c ∗ tabs V c) ∗ (dat V hO c).owesAt () t.castSucc
      ∗ (∃ d, owns (c : Thread nD τ) (ms_0 V hO t) fullShare ((dat V hO c).before 0 t d))
      ∗ (∃ d, owns (c : Thread nD τ) (ms_1 V hO t) fullShare ((dat V hO c).before 1 t d))
      ∗ (∃ d, owns (c : Thread nD τ) (ms_2 V hO t) fullShare ((dat V hO c).before 2 t d)))
      ⊢ wp frame (wpE (defs₀ (F := F)) Variants.none c none) Set.univ (bodyAt V hO t)
        (fun _ => iprop((Pipeline.ΦA spec4 c ∗ tabs V c) ∗ (dat V hO c).owesAt () t.castSucc
          ∗ owns (c : Thread nD τ) (ms_0 V hO t) fullShare (iblk V hO c 0 t)
          ∗ owns (c : Thread nD τ) (ms_1 V hO t) fullShare (iblk V hO c 1 t)
          ∗ owns (c : Thread nD τ) (ms_2 V hO t) fullShare (acc V hO c t.val t.isLt))) := by
  simp only [before_0, before_1]
  rw [PhiT_eq]
  iintro ⟨⟨HΦ, HT0, HT1, HT2, HT3, HT4, HT5⟩, Ho, ⟨%d0, H0⟩, ⟨%d1, H1⟩, ⟨%d2, H2⟩⟩
  have h : cond4 (grid4.coords t) ∧ acc V hO c t.val t.isLt = k4_pay1 (F := F) (row V hO c t) k4_pay2
      ∨ ¬cond4 (grid4.coords t) ∧ acc V hO c t.val t.isLt = k4_pay1 (row V hO c t) ((dat V hO c).before 2 t d2) := by
    by_cases h0 : t.val % 1600 = 0
    · exact .inl ⟨(hcond4 t).mpr h0, acc_zero_mod V hO c _ _ h0⟩
    · exact .inr ⟨mt (hcond4 t).mp h0, by rw [before_2_acc V hO c t h0]; exact acc_succ V hO c _ _ h0⟩
  iapply (kernel_run c (grid4.coords t) _ _ _ (iblk V hO c 0 t) (iblk V hO c 1 t) (tbl V 0) (tbl V 1) (tbl V 2) (tbl V 3) (tbl V 4) (tbl V 5)
    (hs_0 V hO t) (hs_1 V hO t) (hs_2 V hO t) _ Set.univ _ h)
  unfold held
  iframe H0 H1 H2 HT0 HT1 HT2 HT3 HT4 HT5
  iintro ⟨H0, H1, H2, HT0, HT1, HT2, HT3, HT4, HT5⟩
  iframe

theorem body_obligation : BodyObligation (dat (F := F) V hO c) (defs₀ (F := F)) Variants.none () Set.univ := fun t => by
  rw [bigSep_W4, bigSep_W4]
  exact sound_body V hO c t

end Cert.Kernel.R4

end
-- ==== Proof.KB.S4.lean ====
import proofs.«401413_j6932077216080_2_alg».proof.Proof.Gen.Kernel.Launch
import proofs.«401413_j6932077216080_2_alg».proof.Proof.KB.R4

noncomputable section

namespace Cert.Kernel.R4

open Gen Idealize.ShloMosaic Idealize.ShloMosaic.TcCoe Idealize.SL.RA Idealize.SL.BI Idealize.SL.BI.BIBase Idealize.SL.ProofMode

variable {F : FTy → Type} [FloatOps F]

local notation "𝕄" => MT nD τ sig Unit (Elt F) ℕ (UR sig nD τ) ℕ

variable (W : Dev nD → Valuation τ sig (Elt F))

-- A valuation read at the core's references.
abbrev VW : (c : Dev nD) → (b : Ref sig .tc) → Buf (Elt F) ((c : Thread nD τ).loc b) := fun c b => W c b

variable (hO : Ok (VW W)) (c : Dev nD)

-- The resources a core carries from one region to the next beside its buffers.
abbrev Rst : sProp 𝕄 :=
  iprop((∃ r, prngReg c r) ∗ ∃ Wd, owes (c : Thread nD τ) 0 Wd)

-- The six tables, held whole at contents `T`.
abbrev Tb (T : pre4.Contents (Elt F)) : sProp 𝕄 := Pipeline.prefHeld pre4 c (fun _ => fullShare) T

-- The unscoped buffers that are neither a window's array nor a table, at contents `B`.
abbrev Rs (B : (b : Ref sig .tc) → Buf (Elt F) ((c : Thread nD τ).loc b)) : sProp 𝕄 := Pipeline.unscopedRestP pre4 spec4 c B

-- The index set splits into the two arrays, the tables and the rest, and the conjunction with it.
theorem bufs_eq (B T) (hT : ∀ k, B (pre4.ref k) = T k) :
    (unscopedBufs c B : sProp 𝕄)
      = iprop(((((c : Thread nD τ).loc main_v52) ↦{fullShare} B main_v52) ∗ (((c : Thread nD τ).loc main_v67) ↦{fullShare} B main_v67))
          ∗ Tb c T ∗ Rs c B) := by
  obtain rfl := funext hT
  rw [← Pipeline.unscopedRest_split preFacts4 c B]
  unfold unscopedBufs Pipeline.unscopedRest
  rw [bigSep_sdiff_split (by decide : Finset.univ.image (Pipeline.arrRef spec4) ⊆ _),
    show Finset.univ.image (Pipeline.arrRef spec4) = ({main_v52, main_v67} : Finset (Ref sig .tc)) by decide, bigSep_insert (by decide), bigSep_singleton]
  rfl

-- A conjunction over three windows, each over the whole of its array.
theorem arrays_eq (G) :
    ((dat (VW W) hO c).arrays G : sProp 𝕄)
      = iprop((((c : Thread nD τ).loc main_v52) ↦{fullShare.left} G 0) ∗ (((c : Thread nD τ).loc main_v52) ↦{fullShare.right} G 1)
          ∗ (((c : Thread nD τ).loc main_v67) ↦{fullShare} G 2)) := by
  unfold Pipeline.Dat.arrays
  rw [bigSep_W4, (arr_whole4 0).set_eq_univ, (arr_whole4 2).set_eq_univ]
  rfl

-- The buffers held at `W`, split, are the region's precondition.
theorem entry :
    iprop(StableHlo.held (c : Thread nD τ) (Pipeline.ucRefs τ sig) (W c) ∗ Rst c)
      ⊢ |={Set.univ}=> iprop((dat (VW W) hO c).arrays ((dat (VW W) hO c).arrAt · 0) ∗ Tb c (tbl (VW W))
          ∗ (dat (VW W) hO c).owesAt () 0 ∗ (∃ r, prngReg c r) ∗ Rs c (VW W c)) := by
  rw [← Pipeline.unscopedBufs_held c (W c), bufs_eq c _ _ (V_pre (VW W) c), arrays_eq]
  iintro ⟨⟨⟨⟨Hl, Hr⟩, Hout⟩, Ht, Hrest⟩, Hp, %Wd, HO⟩
  imodintro
  isplitl [Hl Hr Hout]
  · isplitl [Hl]; · iexact Hl
    isplitl [Hr]; · iexact Hr
    iexact Hout
  iframe
  iexists Wd; isplitr; · ipureintro; exact fun _ _ => .inl trivial
  iexact HO

theorem hin :
    iprop((∃ r, prngReg c r) ∗ Tb c (tbl (VW W)) ∗ Pipeline.scopedRest spec4 c) ⊢ (dat (VW W) hO c).Φ 0 := by
  change _ ⊢ iprop((_ ∗ _) ∗ _)
  iintro ⟨Hp, Ht, Hr⟩
  iframe

theorem hout :
    (dat (VW W) hO c).Φ (Fin.last (cfgM (VW W) hO).N)
      ⊢ iprop(((∃ r, prngReg c r) ∗ Tb c (tbl (VW W))) ∗ Pipeline.scopedRest spec4 c) := by
  change iprop((_ ∗ _) ∗ _) ⊢ _
  iintro ⟨⟨Hr, Hp⟩, Ht⟩
  iframe

-- Off the output array `W'` is `W`, so the region's postcondition reassembles into the buffers held at `W'`.
theorem exit (W' : Valuation τ sig (Elt F))
    (hout' : W' main_v67 = (dat (VW W) hO c).arrAt 2 (cfgM (VW W) hO).N)
    (hrest : ∀ b : Ref sig .tc, b ≠ main_v67 → W' b = W c b) :
    iprop((dat (VW W) hO c).arrays ((dat (VW W) hO c).arrAt · (cfgM (VW W) hO).N) ∗ (dat (VW W) hO c).owesAt () (Fin.last (cfgM (VW W) hO).N)
        ∗ ((∃ r, prngReg c r) ∗ Tb c (tbl (VW W))) ∗ Rs c (VW W c))
      ⊢ |={Set.univ}=> iprop(StableHlo.held (c : Thread nD τ) (Pipeline.ucRefs τ sig) W' ∗ Rst c) := by
  have ei := (hrest main_v52 (by decide)).symm
  have er : (Rs c (VW W c) : sProp 𝕄) = Rs c fun b => W' b :=
    bigSep_congr fun b hb => by simp only [hrest b fun e => absurd (e ▸ hb) (by decide)]
  rw [← Pipeline.unscopedBufs_held c W', bufs_eq c _ _ fun k => (hrest _ (preFacts4.disj k 2)).trans (V_pre (VW W) c k), arrays_eq,
    ((dat (VW W) hO c).arrAt_in 0 rfl _).trans ei, ((dat (VW W) hO c).arrAt_in 1 rfl _).trans ei, ← hout', er]
  unfold Rst
  iintro ⟨⟨Hl, Hr, Hout⟩, ⟨%Wd, -, HO⟩, ⟨Hp, Ht⟩, Hrest⟩
  imodintro
  icombine Hl Hr as Hin
  iframe
  iexists Wd; iexact HO

end Cert.Kernel.R4

end
-- ==== Proof.KB.Run.lean ====
import proofs.«401413_j6932077216080_2_alg».proof.Proof.KB.R0
import proofs.«401413_j6932077216080_2_alg».proof.Proof.KB.S1
import proofs.«401413_j6932077216080_2_alg».proof.Proof.KB.S2
import proofs.«401413_j6932077216080_2_alg».proof.Proof.KB.S3
import proofs.«401413_j6932077216080_2_alg».proof.Proof.KB.S4
import proofs.«401413_j6932077216080_2_alg».proof.Proof.KB.RunCond

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

abbrev X0 : Dev nD → Valuation τ sig (Elt F) := fun c => V0 m c
def o1 (c : Dev nD) : Buf (Elt F) ((c : Thread nD τ).loc main_v0) := (R0.dat (rd (X0 m)) c).arrAt 1 cfg0.N
def X1 (c : Dev nD) : Valuation τ sig (Elt F) := Function.update (X0 m c) main_v0 (o1 m c)
abbrev X2 (c : Dev nD) : Valuation τ sig (Elt F) := StableHlo.after hostOps1 (X1 m c)

variable (h1 : R1.Ok (R1.VW (X2 m)))
def o3 (c : Dev nD) : Buf (Elt F) ((c : Thread nD τ).loc main_v16) :=
  (R1.dat (R1.VW (X2 m)) h1 c).arrAt 2 (R1.cfgM (R1.VW (X2 m)) h1).N
def X3 (c : Dev nD) : Valuation τ sig (Elt F) := Function.update (X2 m c) main_v16 (o3 m h1 c)
abbrev X4 (c : Dev nD) : Valuation τ sig (Elt F) := StableHlo.after hostOps2 (X3 m h1 c)

variable (h2 : R2.Ok (R2.VW (X4 m h1)))
def o5 (c : Dev nD) : Buf (Elt F) ((c : Thread nD τ).loc main_v33) :=
  (R2.dat (R2.VW (X4 m h1)) h2 c).arrAt 2 (R2.cfgM (R2.VW (X4 m h1)) h2).N
def X5 (c : Dev nD) : Valuation τ sig (Elt F) := Function.update (X4 m h1 c) main_v33 (o5 m h1 h2 c)
abbrev X6 (c : Dev nD) : Valuation τ sig (Elt F) := StableHlo.after hostOps3 (X5 m h1 h2 c)

variable (h3 : R3.Ok (R3.VW (X6 m h1 h2)))
def o7 (c : Dev nD) : Buf (Elt F) ((c : Thread nD τ).loc main_v50) :=
  (R3.dat (R3.VW (X6 m h1 h2)) h3 c).arrAt 2 (R3.cfgM (R3.VW (X6 m h1 h2)) h3).N
def X7 (c : Dev nD) : Valuation τ sig (Elt F) := Function.update (X6 m h1 h2 c) main_v50 (o7 m h1 h2 h3 c)
abbrev X8 (c : Dev nD) : Valuation τ sig (Elt F) := StableHlo.after hostOps4 (X7 m h1 h2 h3 c)

variable (h4 : R4.Ok (R4.VW (X8 m h1 h2 h3)))
def o9 (c : Dev nD) : Buf (Elt F) ((c : Thread nD τ).loc main_v67) :=
  (R4.dat (R4.VW (X8 m h1 h2 h3)) h4 c).arrAt 2 (R4.cfgM (R4.VW (X8 m h1 h2 h3)) h4).N
def X9 (c : Dev nD) : Valuation τ sig (Elt F) := Function.update (X8 m h1 h2 h3 c) main_v67 (o9 m h1 h2 h3 h4 c)
abbrev X10 (c : Dev nD) : Valuation τ sig (Elt F) := StableHlo.after hostOps5 (X9 m h1 h2 h3 h4 c)

def outs : Outs (F := F) := fun J r c => match J with
  | 1 => X1 m c r
  | 3 => X3 m h1 c r
  | 5 => X5 m h1 h2 c r
  | 7 => X7 m h1 h2 h3 c r
  | 9 => X9 m h1 h2 h3 h4 c r
  | _ => X0 m c r

theorem V1_eq (c : Dev nD) : V1 m (outs m h1 h2 h3 h4) c = X1 m c := by
  show Function.update (X0 m c) main_v0 (Function.update (X0 m c) main_v0 (o1 m c) main_v0) = _
  rw [Function.update_self]; rfl
theorem V2_eq (c : Dev nD) : V2 m (outs m h1 h2 h3 h4) c = X2 m c :=
  congrArg (StableHlo.after hostOps1) (V1_eq m h1 h2 h3 h4 c)
theorem V3_eq (c : Dev nD) : V3 m (outs m h1 h2 h3 h4) c = X3 m h1 c := by
  show Function.update (V2 m (outs m h1 h2 h3 h4) c) main_v16 (Function.update (X2 m c) main_v16 (o3 m h1 c) main_v16) = _
  rw [V2_eq, Function.update_self]; rfl
theorem V4_eq (c : Dev nD) : V4 m (outs m h1 h2 h3 h4) c = X4 m h1 c :=
  congrArg (StableHlo.after hostOps2) (V3_eq m h1 h2 h3 h4 c)
theorem V5_eq (c : Dev nD) : V5 m (outs m h1 h2 h3 h4) c = X5 m h1 h2 c := by
  show Function.update (V4 m (outs m h1 h2 h3 h4) c) main_v33 (Function.update (X4 m h1 c) main_v33 (o5 m h1 h2 c) main_v33) = _
  rw [V4_eq, Function.update_self]; rfl
theorem V6_eq (c : Dev nD) : V6 m (outs m h1 h2 h3 h4) c = X6 m h1 h2 c :=
  congrArg (StableHlo.after hostOps3) (V5_eq m h1 h2 h3 h4 c)
theorem V7_eq (c : Dev nD) : V7 m (outs m h1 h2 h3 h4) c = X7 m h1 h2 h3 c := by
  show Function.update (V6 m (outs m h1 h2 h3 h4) c) main_v50 (Function.update (X6 m h1 h2 c) main_v50 (o7 m h1 h2 h3 c) main_v50) = _
  rw [V6_eq, Function.update_self]; rfl
theorem V8_eq (c : Dev nD) : V8 m (outs m h1 h2 h3 h4) c = X8 m h1 h2 h3 c :=
  congrArg (StableHlo.after hostOps4) (V7_eq m h1 h2 h3 h4 c)
theorem V9_eq (c : Dev nD) : V9 m (outs m h1 h2 h3 h4) c = X9 m h1 h2 h3 h4 c := by
  show Function.update (V8 m (outs m h1 h2 h3 h4) c) main_v67 (Function.update (X8 m h1 h2 h3 c) main_v67 (o9 m h1 h2 h3 h4 c) main_v67) = _
  rw [V8_eq, Function.update_self]; rfl
theorem V10_eq (c : Dev nD) : V10 m (outs m h1 h2 h3 h4) c = X10 m h1 h2 h3 h4 c :=
  congrArg (StableHlo.after hostOps5) (V9_eq m h1 h2 h3 h4 c)

def adms : (p : Fin 5) → (pcfgs (F := F) p).Adm
  | ⟨0, _⟩ => cfg0.toPCfg_adm
  | ⟨1, _⟩ => R1.adm (R1.VW (X2 m)) h1
  | ⟨2, _⟩ => R2.adm (R2.VW (X4 m h1)) h2
  | ⟨3, _⟩ => R3.adm (R3.VW (X6 m h1 h2)) h3
  | ⟨4, _⟩ => R4.adm (R4.VW (X8 m h1 h2 h3)) h4
  | ⟨_ + 5, h⟩ => absurd h (Nat.not_lt.2 (Nat.le_add_left _ _))

def pdats : (p : Fin 5) → (c : Dev nD) → Dat τ (Elt F) Unit ℕ (UR sig nD τ) ℕ (Pipeline.pin (pcfgs (F := F)) (adms m h1 h2 h3 h4) p) c
  | ⟨0, _⟩ => R0.dat (rd (X0 m))
  | ⟨1, _⟩ => R1.dat (R1.VW (X2 m)) h1
  | ⟨2, _⟩ => R2.dat (R2.VW (X4 m h1)) h2
  | ⟨3, _⟩ => R3.dat (R3.VW (X6 m h1 h2)) h3
  | ⟨4, _⟩ => R4.dat (R4.VW (X8 m h1 h2 h3)) h4
  | ⟨_ + 5, h⟩ => absurd h (Nat.not_lt.2 (Nat.le_add_left _ _))

abbrev L : GSem nD τ sig → Finset Unit := fun _ => ∅
abbrev lv : GSem nD τ sig → Unit → ℕ := fun _ _ => 0

-- The thread state between two items: every buffer held at the valuation `W`.
abbrev heldAt (W : Dev nD → Valuation τ sig (Elt F)) (c : Dev nD) : sProp 𝕄 :=
  iprop(StableHlo.held (c : Thread nD τ) (Pipeline.ucRefs τ sig) (W c) ∗ R1.Rst c)

theorem core_init {A B C : sProp 𝕄} (c : Dev nD) (r : PrngReg) :
    iprop(A ∗ owes (c : Thread nD τ) 0 ∅ ∗ B ∗ prngReg c r ∗ C) ⊢ (R1.Rst c : sProp 𝕄) := by
  iintro ⟨-, HO, -, Hp, -⟩
  isplitl [Hp]; · iexists _; iexact Hp
  iexists ∅; iexact HO

section
set_option backward.isDefEq.respectTransparency.types false

section
variable (a : (p : Fin 5) → (pcfgs (F := F) p).Adm) (d : (p : Fin 5) → (c : Dev nD) → Dat τ (Elt F) Unit ℕ (UR sig nD τ) ℕ (Pipeline.pin (pcfgs (F := F)) a p) c) (p : Fin 5)

abbrev tabs (c : Dev nD) : sProp 𝕄 :=
  Pipeline.prefHeld (pcfgs (F := F) p).pre c (fun _ => fullShare) (a p).1

-- A region as a segment, entered at `W` and left at `W'`, from its entry, invariant and exit entailments.
def layerSeg (win : Pipeline.WinFacts₀ (pcfgs (F := F) p).spec) (bp : ∀ w, 0 < ((Pipeline.pin (pcfgs (F := F)) a p).spec w).block.numel)
    (sw : ∀ w s, (((Pipeline.pin (pcfgs (F := F)) a p).spec w).stage s).IsWhole)
    (hb : ∀ c, BodyObligation (d p c) (defs₀ (F := F)) Variants.none () Set.univ) (hw : ∀ c t, (d p c).owed t = 0)
    (W W' : Dev nD → Valuation τ sig (Elt F)) (Z : Dev nD → sProp 𝕄)
    (he : ∀ c, heldAt W c ⊢ |={Set.univ}=> iprop((d p c).arrays ((d p c).arrAt · 0) ∗ tabs a p c ∗ (d p c).owesAt () 0 ∗ (∃ r, prngReg c r) ∗ Z c))
    (hi : ∀ c, iprop((∃ r, prngReg c r) ∗ tabs a p c ∗ Pipeline.scopedRest (Pipeline.pin (pcfgs (F := F)) a p).spec c) ⊢ (d p c).Φ 0)
    (ho : ∀ c, (d p c).Φ (Fin.last _) ⊢ iprop(((∃ r, prngReg c r) ∗ tabs a p c) ∗ Pipeline.scopedRest (Pipeline.pin (pcfgs (F := F)) a p).spec c))
    (hx : ∀ c, iprop((d p c).arrays ((d p c).arrAt · (Pipeline.pin (pcfgs (F := F)) a p).N) ∗ (d p c).owesAt () (Fin.last _) ∗ ((∃ r, prngReg c r) ∗ tabs a p c) ∗ Z c)
      ⊢ |={Set.univ}=> heldAt W' c) :
    RegionSeg (pcfgs (F := F)) a d () defs₀ Variants.none L lv p where
  win := win
  block_pos := bp
  stage_whole := sw
  K := PEmpty
  osem k := k.elim
  ho := Pipeline.OwnSemFacts.none _
  hbody c := (hb c).loose
  hwaits := Pipeline.hwaits_of_owed_zero _ _ _ _ L lv p hw
  pre := heldAt W
  post := heldAt W'
  X c := iprop(∃ r, prngReg c r)
  Y c := iprop((∃ r, prngReg c r) ∗ tabs a p c)
  Z := Z
  hentry c := by rw [Pipeline.ownSems0_none]; iintro ⟨H, -, -⟩; iapply he c; iexact H
  hin := hi
  hout c := by rw [Pipeline.ownSems0_none]; refine (ho c).trans ?_; iintro ⟨HY, Hs⟩; iframe <;> iempintro
  hexit := hx

end

def reg0 : RegionSeg (pcfgs (F := F)) (adms m h1 h2 h3 h4) (pdats m h1 h2 h3 h4) () defs₀ Variants.none L lv 0 where
  win := winFacts0.to₀
  block_pos := block_pos0
  stage_whole := stage_whole0
  K := PEmpty
  osem k := k.elim
  ho := Pipeline.OwnSemFacts.none _
  hbody c := (R0.body_obligation (rd (X0 m)) c).loose
  hwaits := Pipeline.hwaits_of_owed_zero _ _ _ _ L lv 0 fun _ _ => rfl
  pre := heldAt (X0 m)
  post := heldAt (X1 m)
  X c := iprop(∃ r, prngReg c r)
  Y c := iprop(∃ r, prngReg c r)
  Z c := Pipeline.unscopedRest spec0 c (rd (X0 m) c)
  hentry c := by
    rw [Pipeline.ownSems0_none]
    have hsplit := Pipeline.arrays_of_unscopedBufs (p := 0) (pcfgs (F := F)) (adms m h1 h2 h3 h4) (pdats m h1 h2 h3 h4) winFacts0 arr_whole0 c
      ((pdats m h1 h2 h3 h4 0 c).share_full fun _ => rfl) (rd (X0 m) c) fun _ => rfl
    rw [Pipeline.unscopedBufs_held] at hsplit
    iintro ⟨⟨Hub, Hp, %W, HO⟩, -, -⟩
    ihave H := hsplit $$ Hub
    icases H with ⟨Ha, Hrest⟩
    imodintro; iframe
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := by
    rw [show (pdats m h1 h2 h3 h4 0 c).Φ 0 = Pipeline.ΦA spec0 c from rfl]; unfold Pipeline.ΦA
    iintro ⟨Hp, -, Hr⟩; iframe
  hout c := by
    rw [Pipeline.ownSems0_none, show (pdats m h1 h2 h3 h4 0 c).Φ (Fin.last _) = Pipeline.ΦA spec0 c from rfl]; unfold Pipeline.ΦA
    iintro ⟨Hr, Hp⟩; iframe <;> iempintro
  hexit c := by
    have hjoin := Pipeline.unscopedBufs_of_arrays (p := 0) (pcfgs (F := F)) (adms m h1 h2 h3 h4)
      winFacts0 arr_whole0 c (pdats m h1 h2 h3 h4) ((pdats m h1 h2 h3 h4 0 c).share_full fun _ => rfl)
      (rd (X0 m) c) (rd (X1 m) c) ((pdats m h1 h2 h3 h4 0 c).arrAt · cfg0.N)
      (fun
        | ⟨0, _⟩ => ((R0.dat (rd (X0 m)) c).arrAt_in 0 rfl _).trans ((R0.A_eq (rd (X0 m)) c 0).trans
            (Function.update_of_ne (StableHlo.devRef_ne_of_ne (by decide : (main_arg0 : Ref sig .tc) ≠ main_v0)) ..).symm)
        | ⟨1, _⟩ => by show o1 m c = Function.update (X0 m c) main_v0 (o1 m c) main_v0; rw [Function.update_self])
      (fun b hb => Function.update_of_ne (StableHlo.devRef_ne_of_ne fun e : b = main_v0 => hb (Finset.mem_image.mpr ⟨1, Finset.mem_univ _, e.symm⟩)) ..)
    rw [Pipeline.unscopedBufs_held] at hjoin
    unfold Pipeline.Dat.owesAt Pipeline.owesWithin
    iintro ⟨Ha, ⟨%W, -, HO⟩, HY, Hrest⟩
    imodintro
    isplitl [Ha Hrest]; · iapply hjoin; iframe
    isplitl [HY]; · iexact HY
    iexists W; iexact HO

def reg1 : RegionSeg (pcfgs (F := F)) (adms m h1 h2 h3 h4) (pdats m h1 h2 h3 h4) () defs₀ Variants.none L lv 1 :=
  layerSeg _ _ 1 winFacts₀1 block_pos1 stage_whole1 (R1.body_obligation _ h1) (fun _ _ => rfl) (X2 m) (X3 m h1) _
    (R1.entry (X2 m) h1) (R1.hin (X2 m) h1) (R1.hout (X2 m) h1)
    fun c => R1.exit (X2 m) h1 c (X3 m h1 c) (Function.update_self ..) fun b hb => Function.update_of_ne (StableHlo.devRef_ne_of_ne hb) ..

def reg2 : RegionSeg (pcfgs (F := F)) (adms m h1 h2 h3 h4) (pdats m h1 h2 h3 h4) () defs₀ Variants.none L lv 2 :=
  layerSeg _ _ 2 winFacts₀2 block_pos2 stage_whole2 (R2.body_obligation _ h2) (fun _ _ => rfl) (X4 m h1) (X5 m h1 h2) _
    (R2.entry (X4 m h1) h2) (R2.hin (X4 m h1) h2) (R2.hout (X4 m h1) h2)
    fun c => R2.exit (X4 m h1) h2 c (X5 m h1 h2 c) (Function.update_self ..) fun b hb => Function.update_of_ne (StableHlo.devRef_ne_of_ne hb) ..

def reg3 : RegionSeg (pcfgs (F := F)) (adms m h1 h2 h3 h4) (pdats m h1 h2 h3 h4) () defs₀ Variants.none L lv 3 :=
  layerSeg _ _ 3 winFacts₀3 block_pos3 stage_whole3 (R3.body_obligation _ h3) (fun _ _ => rfl) (X6 m h1 h2) (X7 m h1 h2 h3) _
    (R3.entry (X6 m h1 h2) h3) (R3.hin (X6 m h1 h2) h3) (R3.hout (X6 m h1 h2) h3)
    fun c => R3.exit (X6 m h1 h2) h3 c (X7 m h1 h2 h3 c) (Function.update_self ..) fun b hb => Function.update_of_ne (StableHlo.devRef_ne_of_ne hb) ..

def reg4 : RegionSeg (pcfgs (F := F)) (adms m h1 h2 h3 h4) (pdats m h1 h2 h3 h4) () defs₀ Variants.none L lv 4 :=
  layerSeg _ _ 4 winFacts₀4 block_pos4 stage_whole4 (R4.body_obligation _ h4) (fun _ _ => rfl) (X8 m h1 h2 h3) (X9 m h1 h2 h3 h4) _
    (R4.entry (X8 m h1 h2 h3) h4) (R4.hin (X8 m h1 h2 h3) h4) (R4.hout (X8 m h1 h2 h3) h4)
    fun c => R4.exit (X8 m h1 h2 h3) h4 c (X9 m h1 h2 h3 h4 c) (Function.update_self ..) fun b hb => Function.update_of_ne (StableHlo.devRef_ne_of_ne hb) ..

theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V10 m (outs m h1 h2 h3 h4) c b) :=
  run_cond m emb₁ () Variants.none L lv (fun _ _ => rfl) ρ (outs m h1 h2 h3 h4) (adms m h1 h2 h3 h4) (pdats m h1 h2 h3 h4)
    (O₀ := 0) (G := fun _ => BI.emp) (u₀ := _)
    (hu₀ := by rw [BI.bigSep_emp_const]; exact sep_emp.2.trans fupd_intro)
    (E := fun _ c => R1.Rst c)
    (hE0 := by iintro ⟨H, -⟩; imodintro; istop; exact bigSep_mono fun c _ => core_init c (ρ c))
    (hE5 := fun c => by iintro ⟨-, H⟩; iexact H)
    (reg0 m h1 h2 h3 h4) (fun c => .rfl) (fun c => by rw [V1_eq]; exact .rfl)
    (reg1 m h1 h2 h3 h4) (fun c => by rw [V2_eq]; exact .rfl) (fun c => by rw [V3_eq]; exact .rfl)
    (reg2 m h1 h2 h3 h4) (fun c => by rw [V4_eq]; exact .rfl) (fun c => by rw [V5_eq]; exact .rfl)
    (reg3 m h1 h2 h3 h4) (fun c => by rw [V6_eq]; exact .rfl) (fun c => by rw [V7_eq]; exact .rfl)
    (reg4 m h1 h2 h3 h4) (fun c => by rw [V8_eq]; exact .rfl) (fun c => by rw [V9_eq]; exact .rfl)

end

-- Every argument array holds in `m'` what the launch memory holds.
abbrev argsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)
    ∧ m' ((c.tc : Thread nD τ).loc main_arg9) = m ((c.tc : Thread nD τ).loc main_arg9)
    ∧ m' ((c.tc : Thread nD τ).loc main_arg10) = m ((c.tc : Thread nD τ).loc main_arg10)
    ∧ m' ((c.tc : Thread nD τ).loc main_arg11) = m ((c.tc : Thread nD τ).loc main_arg11)
    ∧ m' ((c.tc : Thread nD τ).loc main_arg12) = m ((c.tc : Thread nD τ).loc main_arg12)

theorem result (ρ : Dev nD → PrngReg) :
    θ_run defs (onTc (τ := τ) (main (F := F))) ⟨m, fun _ => 0, ρ⟩ (fun r => ∀ c : Dev nD,
      r.2.mem ((c.tc : Thread nD τ).loc main_v69) = X10 m h1 h2 h3 h4 c main_v69 ∧ argsKept m r.2.mem c) :=
  (θ_run defs _ _).mono (fun r h c =>
    have g (b : Ref sig .tc) (hb : ¬ (Proc.devRef .tc b : DevRef τ sig).isScoped) := h c _ (Finset.mem_filter.mpr ⟨StableHlo.devRef_mem_tcRefs b, hb⟩)
    ⟨(g main_v69 (by decide)).trans (congrFun (V10_eq m h1 h2 h3 h4 c) _),
      (g main_arg0 (by decide)).trans (V10_main_arg0 m _ c),
      (g main_arg1 (by decide)).trans (V10_main_arg1 m _ c),
      (g main_arg2 (by decide)).trans (V10_main_arg2 m _ c),
      (g main_arg3 (by decide)).trans (V10_main_arg3 m _ c),
      (g main_arg4 (by decide)).trans (V10_main_arg4 m _ c),
      (g main_arg5 (by decide)).trans (V10_main_arg5 m _ c),
      (g main_arg6 (by decide)).trans (V10_main_arg6 m _ c),
      (g main_arg7 (by decide)).trans (V10_main_arg7 m _ c),
      (g main_arg8 (by decide)).trans (V10_main_arg8 m _ c),
      (g main_arg9 (by decide)).trans (V10_main_arg9 m _ c),
      (g main_arg10 (by decide)).trans (V10_main_arg10 m _ c),
      (g main_arg11 (by decide)).trans (V10_main_arg11 m _ c),
      (g main_arg12 (by decide)).trans (V10_main_arg12 m _ c)⟩)
    (run m h1 h2 h3 h4 ρ)

include h1 h2 h3 h4 in
theorem frame (ρ : Dev nD → PrngReg) :
    θ_run defs (onTc (τ := τ) (main (F := F))) ⟨m, fun _ => 0, ρ⟩ (fun r => ∀ c : Dev nD, argsKept m r.2.mem c) :=
  (θ_run defs _ _).mono (fun _ h c => (h c).2) (result m h1 h2 h3 h4 ρ)

end Cert.Kernel.Run

end
-- ==== Proof.KB.Keep.lean ====
import proofs.«401413_j6932077216080_2_alg».proof.Proof.KB.Run

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

abbrev argRefs : List (Ref sig .tc) :=
  [main_arg0, main_arg1, main_arg2, main_arg3, main_arg4, main_arg5, main_arg6, main_arg7, main_arg8, main_arg9, main_arg10, main_arg11, main_arg12]

-- The valuation holds at every argument array what the launch memory holds.
abbrev Kept (c : Dev nD) (V : Valuation τ sig (Elt F)) : Prop := ∀ r ∈ argRefs, V r = m ((c : Thread nD τ).loc r)

variable {m}

-- Kept by an update at a buffer that is no argument array,
theorem Kept.update {c : Dev nD} {V : Valuation τ sig (Elt F)} (h : Kept m c V) (a : Ref sig .tc) (ha : ∀ r ∈ argRefs, r ≠ a) (x) :
    Kept m c (Function.update V a x) := fun r hr =>
  (Function.update_of_ne (StableHlo.devRef_ne_of_ne (ha r hr)) ..).trans (h r hr)

-- and by a host stretch that writes none.
theorem Kept.after {c : Dev nD} {V : Valuation τ sig (Elt F)} (h : Kept m c V) {ops : List (HloOp τ sig (Elt F))} {W : List (Ref sig .tc)}
    (hW : ops.Forall fun op => op.writes ⊆ (W.map (Proc.devRef (τ := τ) .tc)).toFinset) (hd : ∀ r ∈ argRefs, r ∉ W) :
    Kept m c (StableHlo.after ops V) := fun r hr =>
  (StableHlo.after_of_writes_sub ops V hW (hd r hr)).trans (h r hr)

variable (m)

theorem keep1 (c : Dev nD) : Kept m c (X1 m c) := Kept.update (fun _ _ => rfl) main_v0 (by decide) _
theorem keep2 (c : Dev nD) : Kept m c (X2 m c) := (keep1 m c).after hostOps1_writes (by decide)

variable (h1 : R1.Ok (R1.VW (X2 m)))
theorem keep3 (c : Dev nD) : Kept m c (X3 m h1 c) := (keep2 m c).update main_v16 (by decide) _
theorem keep4 (c : Dev nD) : Kept m c (X4 m h1 c) := (keep3 m h1 c).after hostOps2_writes (by decide)

variable (h2 : R2.Ok (R2.VW (X4 m h1)))
theorem keep5 (c : Dev nD) : Kept m c (X5 m h1 h2 c) := (keep4 m h1 c).update main_v33 (by decide) _
theorem keep6 (c : Dev nD) : Kept m c (X6 m h1 h2 c) := (keep5 m h1 h2 c).after hostOps3_writes (by decide)

variable (h3 : R3.Ok (R3.VW (X6 m h1 h2)))
theorem keep7 (c : Dev nD) : Kept m c (X7 m h1 h2 h3 c) := (keep6 m h1 h2 c).update main_v50 (by decide) _
theorem keep8 (c : Dev nD) : Kept m c (X8 m h1 h2 h3 c) := (keep7 m h1 h2 h3 c).after hostOps4_writes (by decide)

theorem X2_main_arg1 (c : Dev nD) : X2 m c main_arg1 = m ((c : Thread nD τ).loc main_arg1) := keep2 m c _ (by decide)
theorem X2_main_arg2 (c : Dev nD) : X2 m c main_arg2 = m ((c : Thread nD τ).loc main_arg2) := keep2 m c _ (by decide)
theorem X1_main_arg3 (c : Dev nD) : X1 m c main_arg3 = m ((c : Thread nD τ).loc main_arg3) := keep1 m c _ (by decide)
theorem X4_main_arg4 (c : Dev nD) : X4 m h1 c main_arg4 = m ((c : Thread nD τ).loc main_arg4) := keep4 m h1 c _ (by decide)
theorem X4_main_arg5 (c : Dev nD) : X4 m h1 c main_arg5 = m ((c : Thread nD τ).loc main_arg5) := keep4 m h1 c _ (by decide)
theorem X3_main_arg6 (c : Dev nD) : X3 m h1 c main_arg6 = m ((c : Thread nD τ).loc main_arg6) := keep3 m h1 c _ (by decide)
theorem X6_main_arg7 (c : Dev nD) : X6 m h1 h2 c main_arg7 = m ((c : Thread nD τ).loc main_arg7) := keep6 m h1 h2 c _ (by decide)
theorem X6_main_arg8 (c : Dev nD) : X6 m h1 h2 c main_arg8 = m ((c : Thread nD τ).loc main_arg8) := keep6 m h1 h2 c _ (by decide)
theorem X5_main_arg9 (c : Dev nD) : X5 m h1 h2 c main_arg9 = m ((c : Thread nD τ).loc main_arg9) := keep5 m h1 h2 c _ (by decide)
theorem X8_main_arg10 (c : Dev nD) : X8 m h1 h2 h3 c main_arg10 = m ((c : Thread nD τ).loc main_arg10) := keep8 m h1 h2 h3 c _ (by decide)
theorem X8_main_arg11 (c : Dev nD) : X8 m h1 h2 h3 c main_arg11 = m ((c : Thread nD τ).loc main_arg11) := keep8 m h1 h2 h3 c _ (by decide)
theorem X7_main_arg12 (c : Dev nD) : X7 m h1 h2 h3 c main_arg12 = m ((c : Thread nD τ).loc main_arg12) := keep7 m h1 h2 h3 c _ (by decide)

end Cert.Kernel.Run

end
-- ==== Proof.Spec.lean ====
import Idealize.ShloMosaic.PureOps.Ideal
import Idealize.ShloMosaic.Lib.ValueIdx
import Mathlib.Data.BitVec
import Mathlib.Algebra.BigOperators.Group.Finset.Basic

noncomputable section

namespace Cert.Spec

open Idealize.ShloMosaic

abbrev SX : Shape := ⟨2, ![2048, 1024]⟩
abbrev ST : Shape := ⟨1, ![16000]⟩
abbrev SO : Shape := ⟨2, ![2048, 10]⟩

def row (n : Nat) (hn : 0 < n) (w : BitVec 32) : Fin n := ⟨w.toNat % n, Nat.mod_lt _ hn⟩

theorem row_val_of_lt (n : Nat) (hn : 0 < n) (w : BitVec 32) (h : w.toNat < n) : (row n hn w).val = w.toNat :=
  Nat.mod_eq_of_lt h

def InRange (n : Nat) (w : BitVec 32) : Prop := 0 ≤ w.toInt ∧ w.toInt < (n : Int)

theorem InRange.toNat_lt {n : Nat} {w : BitVec 32} (h : InRange n w) : w.toNat < n := by
  obtain ⟨h0, h1⟩ := h
  have := w.isLt
  unfold BitVec.toInt at h0 h1
  split at h0 <;> omega

def thr (x : Ideal .f32) : BitVec 32 :=
  (FloatOps.cmpf (F := Ideal) .ogt x (FloatOps.ofBits (F := Ideal) .f32 0x3F000000#32)).setWidth 32

def bit0 (op : BitVec 32) : BitVec 32 := IntOp.andi op 1#32
def bitAt (op k : BitVec 32) : BitVec 32 := IntOp.andi (IntOp.shrsi .host op k) 1#32

-- A gate's output: the bit of its four-entry truth table that its two operand bits select.
def gate (op a b : BitVec 32) : BitVec 32 :=
  Scalar.select (IntOp.cmpi .eq a 1#32)
    (Scalar.select (IntOp.cmpi .eq b 1#32) (bit0 op) (bitAt op 1#32))
    (Scalar.select (IntOp.cmpi .eq b 1#32) (bitAt op 2#32) (bitAt op 3#32))

def sel4 (t0 t1 t2 t3 a b : BitVec 32) : BitVec 32 :=
  Scalar.select (IntOp.cmpi .eq a 1#32)
    (Scalar.select (IntOp.cmpi .eq b 1#32) t0 t1)
    (Scalar.select (IntOp.cmpi .eq b 1#32) t2 t3)

theorem gate_eq_sel4 (op a b : BitVec 32) : gate op a b = sel4 (bit0 op) (bitAt op 1#32) (bitAt op 2#32) (bitAt op 3#32) a b := rfl

def h0 (x : Fin 2048 → Fin 1024 → Ideal .f32) (n : Fin 1024) (b : Fin 2048) : BitVec 32 := thr (x b n)

-- One layer of 16000 gates over the previous layer's rows.
def layer {n : Nat} (hn : 0 < n) (h : Fin n → Fin 2048 → BitVec 32) (ia ib op : Fin 16000 → BitVec 32)
    (i : Fin 16000) (b : Fin 2048) : BitVec 32 :=
  gate (op i) (h (row n hn (ia i)) b) (h (row n hn (ib i)) b)

def inBlock (k : Fin 10) (j : Fin 1600) : Fin 16000 := ⟨1600 * k.val + j.val, by have := k.isLt; have := j.isLt; omega⟩

def blockSum (h : Fin 16000 → Fin 2048 → BitVec 32) (b : Fin 2048) (k : Fin 10) : BitVec 32 :=
  ∑ j : Fin 1600, h (inBlock k j) b

def h1 (x : Fin 2048 → Fin 1024 → Ideal .f32) (a0 b0 o0 : Fin 16000 → BitVec 32) := layer (by decide : 0 < 1024) (h0 x) a0 b0 o0
def h2 (x : Fin 2048 → Fin 1024 → Ideal .f32) (a0 b0 o0 a1 b1 o1 : Fin 16000 → BitVec 32) :=
  layer (by decide : 0 < 16000) (h1 x a0 b0 o0) a1 b1 o1
def h3 (x : Fin 2048 → Fin 1024 → Ideal .f32) (a0 b0 o0 a1 b1 o1 a2 b2 o2 : Fin 16000 → BitVec 32) :=
  layer (by decide : 0 < 16000) (h2 x a0 b0 o0 a1 b1 o1) a2 b2 o2
def h4 (x : Fin 2048 → Fin 1024 → Ideal .f32) (a0 b0 o0 a1 b1 o1 a2 b2 o2 a3 b3 o3 : Fin 16000 → BitVec 32) :=
  layer (by decide : 0 < 16000) (h3 x a0 b0 o0 a1 b1 o1 a2 b2 o2) a3 b3 o3

def out (x : Fin 2048 → Fin 1024 → Ideal .f32) (a0 b0 o0 a1 b1 o1 a2 b2 o2 a3 b3 o3 : Fin 16000 → BitVec 32)
    (b : Fin 2048) (k : Fin 10) : BitVec 32 :=
  blockSum (h4 x a0 b0 o0 a1 b1 o1 a2 b2 o2 a3 b3 o3) b k

-- The network: the input thresholded, four gate layers, and the last layer summed over ten groups of 1600 gates.
def OUT (X : SX.Idx → Ideal .f32) (A0 B0 O0 A1 B1 O1 A2 B2 O2 A3 B3 O3 : ST.Idx → BitVec 32) : SO.Idx → BitVec 32 :=
  fun i => out (fun b n => X (ValueIdx.ix2 b n)) (fun t => A0 (ValueIdx.ix1 t)) (fun t => B0 (ValueIdx.ix1 t)) (fun t => O0 (ValueIdx.ix1 t))
    (fun t => A1 (ValueIdx.ix1 t)) (fun t => B1 (ValueIdx.ix1 t)) (fun t => O1 (ValueIdx.ix1 t))
    (fun t => A2 (ValueIdx.ix1 t)) (fun t => B2 (ValueIdx.ix1 t)) (fun t => O2 (ValueIdx.ix1 t))
    (fun t => A3 (ValueIdx.ix1 t)) (fun t => B3 (ValueIdx.ix1 t)) (fun t => O3 (ValueIdx.ix1 t)) (i 0) (i 1)

end Cert.Spec

end
-- ==== Proof.KB.Ok1.lean ====
import proofs.«401413_j6932077216080_2_alg».proof.Proof.KB.R1
import proofs.«401413_j6932077216080_2_alg».proof.Proof.Spec

namespace Cert.Kernel.R1

open Cert.Kernel Cert.Kernel.Gen Idealize.ShloMosaic Idealize.ShloMosaic.TcCoe

variable {F : FTy → Type} [FloatOps F]
variable (V : (c : Dev nD) → (b : Ref sig .tc) → Buf (Elt F) ((c : Thread nD τ).loc b))

-- The one-row block at a row below the array's row count lies inside the array.
theorem block_inb (w : BitVec 32) (hw : w.toNat < 1024) (a : Fin 3) :
    ((![w.toNat, 0, 0] : Fin 3 → Nat) a + 1) * S1x1x2048.size a ≤ S1024x1x2048.size a := by
  fin_cases a <;> simp [S1x1x2048, S1024x1x2048] <;> omega

-- Each input window's index map names the row one word of its table holds, so in-range words name rows that exist.
theorem ok_of_range (ha : ∀ i : S16000.Idx, Cert.Spec.InRange 1024 (V (0 : Dev nD) main_arg1 i))
    (hb : ∀ i : S16000.Idx, Cert.Spec.InRange 1024 (V (0 : Dev nD) main_arg2 i)) : Ok V :=
  ⟨fun _ => ⟨block_inb _ (ha _).toNat_lt, Or.inl rfl⟩, fun _ => ⟨block_inb _ (hb _).toNat_lt, Or.inl rfl⟩⟩

end Cert.Kernel.R1
-- ==== Proof.KB.Ok2.lean ====
import proofs.«401413_j6932077216080_2_alg».proof.Proof.KB.R2
import proofs.«401413_j6932077216080_2_alg».proof.Proof.Spec

namespace Cert.Kernel.R2

open Cert.Kernel Cert.Kernel.Gen Idealize.ShloMosaic Idealize.ShloMosaic.TcCoe

variable {F : FTy → Type} [FloatOps F]
variable (V : (c : Dev nD) → (b : Ref sig .tc) → Buf (Elt F) ((c : Thread nD τ).loc b))

-- The one-row block at a row below the array's row count lies inside the array.
theorem block_inb (w : BitVec 32) (hw : w.toNat < 16000) (a : Fin 3) :
    ((![w.toNat, 0, 0] : Fin 3 → Nat) a + 1) * S1x1x2048.size a ≤ S16000x1x2048.size a := by
  fin_cases a <;> simp [S1x1x2048, S16000x1x2048] <;> omega

-- Each input window's index map names the row one word of its table holds, so in-range words name rows that exist.
theorem ok_of_range (ha : ∀ i : S16000.Idx, Cert.Spec.InRange 16000 (V (0 : Dev nD) main_arg4 i))
    (hb : ∀ i : S16000.Idx, Cert.Spec.InRange 16000 (V (0 : Dev nD) main_arg5 i)) : Ok V :=
  ⟨fun _ => ⟨block_inb _ (ha _).toNat_lt, Or.inl rfl⟩, fun _ => ⟨block_inb _ (hb _).toNat_lt, Or.inl rfl⟩⟩

end Cert.Kernel.R2
-- ==== Proof.KB.Ok3.lean ====
import proofs.«401413_j6932077216080_2_alg».proof.Proof.KB.R3
import proofs.«401413_j6932077216080_2_alg».proof.Proof.Spec

namespace Cert.Kernel.R3

open Cert.Kernel Cert.Kernel.Gen Idealize.ShloMosaic Idealize.ShloMosaic.TcCoe

variable {F : FTy → Type} [FloatOps F]
variable (V : (c : Dev nD) → (b : Ref sig .tc) → Buf (Elt F) ((c : Thread nD τ).loc b))

-- The one-row block at a row below the array's row count lies inside the array.
theorem block_inb (w : BitVec 32) (hw : w.toNat < 16000) (a : Fin 3) :
    ((![w.toNat, 0, 0] : Fin 3 → Nat) a + 1) * S1x1x2048.size a ≤ S16000x1x2048.size a := by
  fin_cases a <;> simp [S1x1x2048, S16000x1x2048] <;> omega

-- Each input window's index map names the row one word of its table holds, so in-range words name rows that exist.
theorem ok_of_range (ha : ∀ i : S16000.Idx, Cert.Spec.InRange 16000 (V (0 : Dev nD) main_arg7 i))
    (hb : ∀ i : S16000.Idx, Cert.Spec.InRange 16000 (V (0 : Dev nD) main_arg8 i)) : Ok V :=
  ⟨fun _ => ⟨block_inb _ (ha _).toNat_lt, Or.inl rfl⟩, fun _ => ⟨block_inb _ (hb _).toNat_lt, Or.inl rfl⟩⟩

end Cert.Kernel.R3
-- ==== Proof.KB.Ok4.lean ====
import proofs.«401413_j6932077216080_2_alg».proof.Proof.KB.R4
import proofs.«401413_j6932077216080_2_alg».proof.Proof.Spec

namespace Cert.Kernel.R4

open Cert.Kernel Cert.Kernel.Gen Idealize.ShloMosaic Idealize.ShloMosaic.TcCoe

variable {F : FTy → Type} [FloatOps F]
variable (V : (c : Dev nD) → (b : Ref sig .tc) → Buf (Elt F) ((c : Thread nD τ).loc b))

-- The one-row block at a row below the array's row count lies inside the array.
theorem block_inb (w : BitVec 32) (hw : w.toNat < 16000) (a : Fin 3) :
    ((![w.toNat, 0, 0] : Fin 3 → Nat) a + 1) * S1x1x2048.size a ≤ S16000x1x2048.size a := by
  fin_cases a <;> simp [S1x1x2048, S16000x1x2048] <;> omega

-- Each input window's index map names the row one word of its table holds, so in-range words name rows that exist.
theorem ok_of_range (ha : ∀ i : S16000.Idx, Cert.Spec.InRange 16000 (V (0 : Dev nD) main_arg10 i))
    (hb : ∀ i : S16000.Idx, Cert.Spec.InRange 16000 (V (0 : Dev nD) main_arg11 i)) : Ok V :=
  ⟨fun _ => ⟨block_inb _ (ha _).toNat_lt, Or.inl rfl⟩, fun _ => ⟨block_inb _ (hb _).toNat_lt, Or.inl rfl⟩⟩

end Cert.Kernel.R4
-- ==== Proof.PreDecode.lean ====
import proofs.«401413_j6932077216080_2_alg».proof.Pre_finite_inputs
import proofs.«401413_j6932077216080_2_alg».proof.Proof.Gen.Pre_finite_inputs
import proofs.«401413_j6932077216080_2_alg».proof.Proof.Spec
import Idealize.ShloMosaic.Lib.ReduceAll
import Idealize.ShloMosaic.Lib.StableHlo.Predicate

noncomputable section

namespace Cert.PreDecode

open Idealize.ShloMosaic Cert.Pre_finite_inputs Cert.Spec

variable {F : FTy → Type} [FloatOps F]

instance : Subsingleton S_.Idx := ⟨fun a b => funext fun d => d.elim0⟩

theorem andi_apply_eq_one {s : Shape} (p q : IVec s 1) (j : s.Idx) : andi p q j = 1#1 ↔ p j = 1#1 ∧ q j = 1#1 :=
  IntOp.andi_eq_one

theorem table_in_range [Cert.Pre_finite_inputs.Facts] (n : Nat) (hn : n < 2 ^ 31) (a : IVec S16000 32) (init : IVec S_ 1) (j : S_.Idx)
    (e : Host.reduce IntOp.andi
        (andi (cmpi .sge a (broadcastInDim S16000 ![] Facts.bcast_S_S16000 (constantI S_ 32 0#32)))
          (cmpi .slt a (broadcastInDim S16000 ![] Facts.bcast_S_S16000 (constantI S_ 32 (BitVec.ofNat 32 n)))))
        init Facts.reducesTo_S16000_S_d0 Facts.h_S_ j = 1#1) (i : S16000.Idx) : InRange n (a i) := by
  have hi := Host.reduce_andi_all _ _ _ _ j e i

  have hi' : IntOp.andi (IntOp.cmpi .sge (a i) 0#32) (IntOp.cmpi .slt (a i) (BitVec.ofNat 32 n)) = 1#1 := hi
  obtain ⟨h0, h1⟩ := IntOp.andi_eq_one.1 hi'
  rw [IntOp.cmpi_sge] at h0
  rw [IntOp.cmpi_slt, StableHlo.Predicate.toInt_ofNat_small n hn] at h1
  have hz : (0#32 : BitVec 32).toInt = 0 := by decide
  rw [hz] at h0
  exact ⟨h0, h1⟩

-- The printed precondition read back: every index word names a row of the layer it indexes.
theorem in_range [Cert.Pre_finite_inputs.Facts] (x : FVec F S2048x1024 .f32) (a0 b0 o0 a1 b1 o1 a2 b2 o2 a3 b3 o3 : IVec S16000 32)
    (h : Cert.Pre_finite_inputs.fn (F := F) x a0 b0 o0 a1 b1 o1 a2 b2 o2 a3 b3 o3 = fun _ => 1#1) :
    (∀ i, InRange 1024 (a0 i)) ∧ (∀ i, InRange 1024 (b0 i)) ∧ (∀ i, InRange 16000 (a1 i)) ∧ (∀ i, InRange 16000 (b1 i))
      ∧ (∀ i, InRange 16000 (a2 i)) ∧ (∀ i, InRange 16000 (b2 i)) ∧ (∀ i, InRange 16000 (a3 i)) ∧ (∀ i, InRange 16000 (b3 i)) := by
  have e := congrFun h ValueIdx.ix0
  dsimp only [fn, fn_part1, fn_part2, fn_part3] at e

  simp only [andi_apply_eq_one] at e
  obtain ⟨⟨⟨⟨⟨⟨⟨⟨-, e0⟩, e1⟩, e2⟩, e3⟩, e4⟩, e5⟩, e6⟩, e7⟩ := e
  exact ⟨table_in_range 1024 (by decide) a0 _ _ e0, table_in_range 1024 (by decide) b0 _ _ e1,
    table_in_range 16000 (by decide) a1 _ _ e2, table_in_range 16000 (by decide) b1 _ _ e3,
    table_in_range 16000 (by decide) a2 _ _ e4, table_in_range 16000 (by decide) b2 _ _ e5,
    table_in_range 16000 (by decide) a3 _ _ e6, table_in_range 16000 (by decide) b3 _ _ e7⟩

end Cert.PreDecode

end
-- ==== Proof.KB.OkPre.lean ====
import proofs.«401413_j6932077216080_2_alg».proof.Proof.KB.Keep
import proofs.«401413_j6932077216080_2_alg».proof.Proof.KB.Ok1
import proofs.«401413_j6932077216080_2_alg».proof.Proof.KB.Ok2
import proofs.«401413_j6932077216080_2_alg».proof.Proof.KB.Ok3
import proofs.«401413_j6932077216080_2_alg».proof.Proof.KB.Ok4
import proofs.«401413_j6932077216080_2_alg».proof.Proof.PreDecode

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

abbrev PreAt : Prop := ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = fun _ => 1#1

theorem tables_in_range [Cert.Pre_finite_inputs.Facts] (hpre : PreAt m) (c : Dev nD) :
    (∀ i, Cert.Spec.InRange 1024 (m ((c.tc : Thread nD τ).loc main_arg1) i)) ∧ (∀ i, Cert.Spec.InRange 1024 (m ((c.tc : Thread nD τ).loc main_arg2) i))
      ∧ (∀ i, Cert.Spec.InRange 16000 (m ((c.tc : Thread nD τ).loc main_arg4) i)) ∧ (∀ i, Cert.Spec.InRange 16000 (m ((c.tc : Thread nD τ).loc main_arg5) i))
      ∧ (∀ i, Cert.Spec.InRange 16000 (m ((c.tc : Thread nD τ).loc main_arg7) i)) ∧ (∀ i, Cert.Spec.InRange 16000 (m ((c.tc : Thread nD τ).loc main_arg8) i))
      ∧ (∀ i, Cert.Spec.InRange 16000 (m ((c.tc : Thread nD τ).loc main_arg10) i)) ∧ (∀ i, Cert.Spec.InRange 16000 (m ((c.tc : Thread nD τ).loc main_arg11) i)) :=
  Cert.PreDecode.in_range _ _ _ _ _ _ _ _ _ _ _ _ _ (hpre c)

-- Range facts move along an equality of tables.
theorem inRange_of_eq {n : ℕ} {ι : Type} {f g : ι → BitVec 32} (e : f = g) (h : ∀ i, Cert.Spec.InRange n (g i)) (i : ι) :
    Cert.Spec.InRange n (f i) := e ▸ h i

-- A layer's two index tables are at its entry what the launch memory holds, and those words are in range.
theorem ok1 [Cert.Pre_finite_inputs.Facts] (hpre : PreAt m) : R1.Ok (R1.VW (X2 m)) :=
  have t := tables_in_range m hpre 0
  R1.ok_of_range _ (inRange_of_eq (X2_main_arg1 m 0) t.1) (inRange_of_eq (X2_main_arg2 m 0) t.2.1)

theorem ok2 [Cert.Pre_finite_inputs.Facts] (hpre : PreAt m) : R2.Ok (R2.VW (X4 m (ok1 m hpre))) :=
  have t := tables_in_range m hpre 0
  R2.ok_of_range _ (inRange_of_eq (X4_main_arg4 m _ 0) t.2.2.1) (inRange_of_eq (X4_main_arg5 m _ 0) t.2.2.2.1)

theorem ok3 [Cert.Pre_finite_inputs.Facts] (hpre : PreAt m) : R3.Ok (R3.VW (X6 m (ok1 m hpre) (ok2 m hpre))) :=
  have t := tables_in_range m hpre 0
  R3.ok_of_range _ (inRange_of_eq (X6_main_arg7 m _ _ 0) t.2.2.2.2.1) (inRange_of_eq (X6_main_arg8 m _ _ 0) t.2.2.2.2.2.1)

theorem ok4 [Cert.Pre_finite_inputs.Facts] (hpre : PreAt m) : R4.Ok (R4.VW (X8 m (ok1 m hpre) (ok2 m hpre) (ok3 m hpre))) :=
  have t := tables_in_range m hpre 0
  R4.ok_of_range _ (inRange_of_eq (X8_main_arg10 m _ _ _ 0) t.2.2.2.2.2.2.1) (inRange_of_eq (X8_main_arg11 m _ _ _ 0) t.2.2.2.2.2.2.2)

end Cert.Kernel.Run

end
-- ==== Proof.KI.R0.lean ====
import proofs.«401413_j6932077216080_2_alg».proof.Proof.Gen.KernelIdeal.Launch
import proofs.«401413_j6932077216080_2_alg».proof.Proof.Gen.KernelIdeal.Skeleton
import proofs.«401413_j6932077216080_2_alg».proof.Proof.Gen.KernelIdeal.Points
import Idealize.ShloMosaic.Lib.Pipeline.FrameBody
import Idealize.ShloMosaic.Lib.Tactic

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t := by
  have hblock : ∀ t, dat.blockOf 0 t = iblk V c 0 t := fun t => by unfold Dat.blockOf iblk; rw [hA]
  rw [dat.before_in_eq_fetched 0 rfl (fun _ => rfl) (fun _ _ _ => rfl) (fun t => by rw [hafter, hblock]) t d]
  unfold Dat.fetched
  rw [hblock]; rfl

abbrev rin : Rect S2048x128 := Rect.unit (s := S2048x128) ![0, 0] S2048x128.size inb_S2048x128_S2048x128_0_0
abbrev r0 : Rect S128x2048 := Rect.unit (s := S128x2048) ![0, 0] S128x2048.size inb_S128x2048_S128x2048_0_0

-- The output block as a function of the input block.
def out (x0 : Vec F S2048x128 .f32) : Vec F S128x2048 .i32 :=
  View.canon [⟨r0, k0_pay1 (View.ld x0 rin)⟩]

theorem cover (p0 : Vec F S128x2048 .i32) (y : S128x2048.Idx) :
    ∃ pc ∈ ([⟨r0, p0⟩] : List (View.Piece (Elt F) S128x2048 .i32)), y ∈ pc.1.set :=
  View.cover_of_tiled [⟨r0, p0⟩] S128x2048.size (by rfl) y

set_option maxHeartbeats 1000000 in
theorem sound_kernel (c : Dev nD) (E : Set ℕ) (i : grid0.Coords) (arg1 : Memref sig .tc .vmem S2048x128 .f32) (harg1 : arg1.IsWhole)
    (arg2 : Memref sig .tc .vmem S128x2048 .i32) (harg2 : arg2.IsWhole) (x0 : Vec F S2048x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__threshold_transpose_kernel i arg1 harg1 arg2 harg2) K := by
  simp only [cc0__threshold_transpose_kernel_eq_skeleton]; unfold cc0__threshold_transpose_kernel_skel
  unfold owns
  iintro ⟨⟨%f0, %hf0, H0⟩, ⟨%d1, %f1, -, H1⟩, Hk⟩
  subst hf0
  sl_exec
  sl_step
  iapply Hk
  isplitl [H0]
  · iexists f0; iframe; ipureintro; rfl
  iexists _; iframe
  ipureintro
  exact View.read_writes_eq_canon _ _ _ (cover _)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out (iblk V c 0 t)
  Φ _ := Pipeline.ΦA spec0 c
  q _ := fullShare
  owed _ := 0

theorem A_eq (c : Dev nD) (w : Fin cfg0.W) : (dat V c).A w = V c (Pipeline.arrRef spec0 w) := rfl

theorem after_0 (c : Dev nD) (t : Fin cfg0.N) : (dat V c).after 0 t = iblk V c 0 t := by dsimp only [dat]
theorem after_1 (c : Dev nD) (t : Fin cfg0.N) : (dat V c).after 1 t = out (iblk V c 0 t) := by dsimp only [dat]

theorem before_0 (c : Dev nD) (t : Fin cfg0.N) (d) : (dat V c).before 0 t d = iblk V c 0 t :=
  before_0_of V (dat V c) rfl (after_0 V c) t d

theorem sound_body (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d)))
      ⊢ wp frame (wpE (defs₀ (F := F)) Variants.none c none) Set.univ (bodyAt0 t) (fun _ =>
        iprop((dat V c).Φ t.succ ∗ (dat V c).owesAt () t.succ
          ∗ owns (c : Thread nD τ) (st0_0 t) fullShare ((dat V c).after 0 t)
          ∗ owns (c : Thread nD τ) (st0_1 t) fullShare ((dat V c).after 1 t))) := by
  unfold bodyAt0
  simp only [before_0]
  rw [show (dat V c).Φ t.succ = (dat V c).Φ t.castSucc from rfl,
    show (dat V c).owesAt () t.succ = (dat V c).owesAt () t.castSucc from rfl, after_0, after_1]
  iintro ⟨HΦ, Ho, ⟨%d0, H0⟩, ⟨%d1, H1⟩⟩
  iapply (sound_kernel c Set.univ _ _ _ _ _ (iblk V c 0 t) _)
  iframe H0
  isplitl [H1]; · iexists _; iexact H1
  iintro ⟨H0, H1⟩
  iframe

theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.R1.lean ====
import proofs.«401413_j6932077216080_2_alg».proof.Proof.Gen.KernelIdeal.Launch
import proofs.«401413_j6932077216080_2_alg».proof.Proof.Gen.KernelIdeal.Skeleton
import proofs.«401413_j6932077216080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.R1

open Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The six tables' contents at entry: there is one device.
def tbl : pre1.Contents (Elt F) := fun j => V (0 : Dev nD) (pre1.ref j)
theorem V_pre (c : Dev nD) (j : Fin 6) : V c (pre1.ref j) = tbl V j := by
  cases Subsingleton.elim c 0; rfl
-- Every row an index word names exists.
abbrev Ok : Prop := ok1 (F := F) (tbl V)

variable (hO : Ok V) (c : Dev nD)

abbrev adm : (pcfg1 (F := F)).Adm := ⟨tbl V, hO⟩
abbrev cfgM : Pipeline.Cfg sig Λ₀ := cfg1 (adm V hO)

variable (w : Fin (cfgM V hO).W) (t : Fin (cfgM V hO).N)

abbrev TbBuf (M : Memref sig .tc .smem S16000 .i32) : Type := Buf (Elt F) (M.view.loc (c : Thread nD τ))
abbrev tbPt (M : Memref sig .tc .smem S16000 .i32) (f : TbBuf (F := F) c M) : sProp 𝕄 :=
  M.view.loc (c : Thread nD τ) ↦{fullShare} f

abbrev ΦTb : sProp 𝕄 :=
  Pipeline.prefHeld pre1 c (fun _ => fullShare) (tbl V)

-- Window w's block at point t, read off its array at entry.
def iblk : (((cfgM V hO).win w).xblock ((cfgM V hO).grid.coords t)).Idx → Elt F ((cfgM V hO).win w).elt :=
  (((cfgM V hO).win w).blk t).view.read (Elt F) (V c (Pipeline.arrRef spec1 w))

abbrev VO : View sig .tc .vmem S1x1x2048 .i32 := (Memref.whole cc1_stg2_0 : Memref sig .tc .vmem S1x1x2048 .i32).view
abbrev ms_0 : Memref sig .tc .vmem S1x1x2048 .i32 := spec1_0.stage ((cfgM V hO).slots t 0)
abbrev hs_0 : (ms_0 V hO t).IsWhole := hstage1_0 (((cfgM V hO).slots t 0).cast nbuf1_0)
abbrev ms_1 : Memref sig .tc .vmem S1x1x2048 .i32 := spec1_1.stage ((cfgM V hO).slots t 1)
abbrev hs_1 : (ms_1 V hO t).IsWhole := hstage1_1 (((cfgM V hO).slots t 1).cast nbuf1_1)
abbrev ms_2 : Memref sig .tc .vmem S1x1x2048 .i32 := spec1_2.stage ((cfgM V hO).slots t 2)
abbrev hs_2 : (ms_2 V hO t).IsWhole := hstage1_2 (((cfgM V hO).slots t 2).cast nbuf1_2)

variable (i : grid1.Coords) (arg7 : Memref sig .tc .vmem S1x1x2048 .i32) (harg7 : arg7.IsWhole)
  (arg8 : Memref sig .tc .vmem S1x1x2048 .i32) (harg8 : arg8.IsWhole) (arg9 : Memref sig .tc .vmem S1x1x2048 .i32) (harg9 : arg9.IsWhole)
  (x0 x1 : Vec F S1x1x2048 .i32)
  (t0 : TbBuf (F := F) c (Memref.whole main_arg1)) (t1 : TbBuf (F := F) c (Memref.whole main_arg2)) (t2 : TbBuf (F := F) c (Memref.whole main_v3))
  (t3 : TbBuf (F := F) c (Memref.whole main_v7)) (t4 : TbBuf (F := F) c (Memref.whole main_v11)) (t5 : TbBuf (F := F) c (Memref.whole main_v15))

-- The six tables, each held whole.
abbrev Tb6 : sProp 𝕄 :=
  iprop(tbPt c (Memref.whole main_arg1) t0 ∗ tbPt c (Memref.whole main_arg2) t1 ∗ tbPt c (Memref.whole main_v3) t2
    ∗ tbPt c (Memref.whole main_v7) t3 ∗ tbPt c (Memref.whole main_v11) t4 ∗ tbPt c (Memref.whole main_v15) t5)

theorem PhiT_eq : (ΦTb V c : sProp 𝕄) = Tb6 c (tbl V 0) (tbl V 1) (tbl V 2) (tbl V 3) (tbl V 4) (tbl V 5) := by
  unfold ΦTb Pipeline.prefHeld
  rw [bigSep_univ_eq_bigSepL [(0 : Fin 6), 1, 2, 3, 4, 5] (by decide) (by decide)]
  rfl

abbrev bodyOn : Prog (TpuEff nD τ sig (Elt F) Λ₀ .tc) PUnit :=
  cc1_kernel i (Memref.whole main_arg1) (Memref.isWhole_whole _) (Memref.whole main_arg2) (Memref.isWhole_whole _) (Memref.whole main_v3) (Memref.isWhole_whole _)
    (Memref.whole main_v7) (Memref.isWhole_whole _) (Memref.whole main_v11) (Memref.isWhole_whole _) (Memref.whole main_v15) (Memref.isWhole_whole _) arg7 harg7 arg8 harg8 arg9 harg9

set_option maxHeartbeats 1000000 in
-- The pieces the body's one store writes, with the run: inputs and tables come back as they were, the output holds the pieces.
def kernelRun :
    { L1 : List (View.Piece (Elt F) S1x1x2048 .i32) //
      ∀ (E : Set ℕ) (K : PUnit → sProp 𝕄),
        iprop(owns c arg7 fullShare x0 ∗ owns c arg8 fullShare x1 ∗ (∃ d, owns c arg9 fullShare d)
            ∗ Tb6 c t0 t1 t2 t3 t4 t5
            ∗ (iprop(owns c arg7 fullShare x0 ∗ owns c arg8 fullShare x1
                ∗ (∃ f, arg9.view.loc (c : Thread nD τ) ↦[arg9.view.set]{fullShare} arg9.view.writes (Elt F) f L1)
                ∗ Tb6 c t0 t1 t2 t3 t4 t5) -∗ K ⟨⟩))
          ⊢ wp frame (wpE (defs₀ (F := F)) Variants.none c none) E (bodyOn i arg7 harg7 arg8 harg8 arg9 harg9) K } := by
  refine ⟨?_, fun E K => ?run⟩
  case run =>
    unfold bodyOn
    simp only [cc1_kernel_eq_skeleton]; unfold cc1_kernel_skel
    unfold owns Tb6
    iintro ⟨⟨%f0, %hf0, H0⟩, ⟨%f1, %hf1, H1⟩, ⟨%d2, %f2, -, H2⟩, ⟨HT0, HT1, HT2, HT3, HT4, HT5⟩, Hk⟩
    obtain rfl := harg7.eq_unread hf0
    obtain rfl := harg8.eq_unread hf1
    sl_exec
    sl_step
    iapply Hk
    iframe HT0 HT1 HT2 HT3 HT4 HT5
    isplitl [H0]
    · iexists _; isplitr; · ipureintro; exact harg7.read_unread _
      iexact H0
    isplitl [H1]
    · iexists _; isplitr; · ipureintro; exact harg8.read_unread _
      iexact H1
    iexists _; iexact H2

-- What the run leaves in the output buffer: its pieces read back.
def outOn : Vec F S1x1x2048 .i32 :=
  VO.read (Elt F) (VO.writes (Elt F) VO.junk (kernelRun c i arg7 harg7 arg8 harg8 arg9 harg9 x0 x1 t0 t1 t2 t3 t4 t5).1)

-- The gate's row: what the body leaves in the output buffer at point t.
def outAt : Vec F S1x1x2048 .i32 :=
  outOn c (grid1.coords t) _ (hs_0 V hO t) _ (hs_1 V hO t) _ (hs_2 V hO t) (iblk V hO c 0 t) (iblk V hO c 1 t)
    (tbl V 0) (tbl V 1) (tbl V 2) (tbl V 3) (tbl V 4) (tbl V 5)

def dat : Dat τ (Elt F) Unit ℕ (UR sig nD τ) ℕ (cfgM V hO) c where
  A w := V c (Pipeline.arrRef spec1 w)
  after w t := match w with
    | ⟨0, _⟩ => iblk V hO c 0 t
    | ⟨1, _⟩ => iblk V hO c 1 t
    | ⟨2, _⟩ => outAt V hO c t
  Φ _ := iprop(Pipeline.ΦA spec1 c ∗ ΦTb V c)
  q w := match w with
    | ⟨0, _⟩ => fullShare.left
    | ⟨1, _⟩ => fullShare.right
    | ⟨2, _⟩ => fullShare
  owed _ := 0

theorem A_eq : (dat V hO c).A w = V c (Pipeline.arrRef spec1 w) := rfl

theorem before_in (hw : w = 0 ∨ w = 1) (d) : (dat V hO c).before w t d = iblk V hO c w t := by
  rcases hw with rfl | rfl <;>
  exact ((dat V hO c).before_in_eq_fetched _ rfl (fun _ => rfl) (fun _ _ _ => rfl) (fun _ => rfl) t d).trans rfl

theorem after_2 : (dat V hO c).after 2 t = outAt V hO c t := by dsimp only [dat]; try rfl

theorem sound_body :
    iprop((Pipeline.ΦA spec1 c ∗ ΦTb V c) ∗ (dat V hO c).owesAt () t.castSucc
      ∗ (∃ d, owns c (ms_0 V hO t) fullShare ((dat V hO c).before 0 t d))
      ∗ (∃ d, owns c (ms_1 V hO t) fullShare ((dat V hO c).before 1 t d))
      ∗ (∃ d, owns c (ms_2 V hO t) fullShare ((dat V hO c).before 2 t d)))
    ⊢ wp frame (wpE (defs₀ (F := F)) Variants.none c none) Set.univ
        (bodyOn (grid1.coords t) _ (hs_0 V hO t) _ (hs_1 V hO t) _ (hs_2 V hO t)) (fun _ =>
      iprop((Pipeline.ΦA spec1 c ∗ ΦTb V c) ∗ (dat V hO c).owesAt () t.castSucc
        ∗ owns c (ms_0 V hO t) fullShare (iblk V hO c 0 t)
        ∗ owns c (ms_1 V hO t) fullShare (iblk V hO c 1 t)
        ∗ owns c (ms_2 V hO t) fullShare ((dat V hO c).after 2 t))) := by
  simp only [before_in V hO c _ t (.inl rfl), before_in V hO c _ t (.inr rfl)]
  rw [after_2, PhiT_eq]
  unfold outAt outOn
  iintro ⟨⟨HΦ, HT⟩, Ho, ⟨%d0, H0⟩, ⟨%d1, H1⟩, ⟨%d2, H2⟩⟩
  iapply ((kernelRun c (grid1.coords t) _ _ _ _ _ _ (iblk V hO c 0 t) (iblk V hO c 1 t) (tbl V 0) (tbl V 1) (tbl V 2) (tbl V 3) (tbl V 4) (tbl V 5)).2 Set.univ _)
  iframe H0 H1 HT
  isplitl [H2]; · iexists _; iexact H2
  iintro ⟨H0, H1, ⟨%e2, H2⟩, HT⟩
  iframe
  ihave H' := (Ring.owns_of_writes_tiledL VO S1x1x2048.size) $$ H2; iapply H'; ipureintro; sl_kernel_rfl

theorem body_obligation : BodyObligation (dat (F := F) V hO c) (defs₀ (F := F)) Variants.none () Set.univ := fun t => by
  rw [bigSep_W1, bigSep_W1]
  exact sound_body V hO c t

end Cert.KernelIdeal.R1

end
-- ==== Proof.KI.S1.lean ====
import proofs.«401413_j6932077216080_2_alg».proof.Proof.Gen.KernelIdeal.Launch
import proofs.«401413_j6932077216080_2_alg».proof.Proof.KI.R1

noncomputable section

namespace Cert.KernelIdeal.R1

open Gen Idealize.ShloMosaic Idealize.ShloMosaic.TcCoe Idealize.SL.RA Idealize.SL.BI Idealize.SL.BI.BIBase Idealize.SL.ProofMode

variable {F : FTy → Type} [FloatOps F]

local notation "𝕄" => MT nD τ sig Unit (Elt F) ℕ (UR sig nD τ) ℕ

variable (W : Dev nD → Valuation τ sig (Elt F))

-- A valuation read at the core's references.
abbrev VW : (c : Dev nD) → (b : Ref sig .tc) → Buf (Elt F) ((c : Thread nD τ).loc b) := fun c b => W c b

variable (hO : Ok (VW W)) (c : Dev nD)

-- The resources a core carries from one region to the next beside its buffers.
abbrev Rst : sProp 𝕄 :=
  iprop((∃ r, prngReg c r) ∗ ∃ Wd, owes (c : Thread nD τ) 0 Wd)

-- The six tables, held whole at contents `T`.
abbrev Tb (T : pre1.Contents (Elt F)) : sProp 𝕄 := Pipeline.prefHeld pre1 c (fun _ => fullShare) T

-- The unscoped buffers that are neither a window's array nor a table, at contents `B`.
abbrev Rs (B : (b : Ref sig .tc) → Buf (Elt F) ((c : Thread nD τ).loc b)) : sProp 𝕄 := Pipeline.unscopedRestP pre1 spec1 c B

-- The index set splits into the two arrays, the tables and the rest, and the conjunction with it.
theorem bufs_eq (B T) (hT : ∀ k, B (pre1.ref k) = T k) :
    (unscopedBufs c B : sProp 𝕄)
      = iprop(((((c : Thread nD τ).loc main_v1) ↦{fullShare} B main_v1) ∗ (((c : Thread nD τ).loc main_v16) ↦{fullShare} B main_v16))
          ∗ Tb c T ∗ Rs c B) := by
  obtain rfl := funext hT
  rw [← Pipeline.unscopedRest_split preFacts1 c B]
  unfold unscopedBufs Pipeline.unscopedRest
  rw [bigSep_sdiff_split (by decide : Finset.univ.image (Pipeline.arrRef spec1) ⊆ _),
    show Finset.univ.image (Pipeline.arrRef spec1) = ({main_v1, main_v16} : Finset (Ref sig .tc)) by decide, bigSep_insert (by decide), bigSep_singleton]
  rfl

-- A conjunction over three windows, each over the whole of its array.
theorem arrays_eq (G) :
    ((dat (VW W) hO c).arrays G : sProp 𝕄)
      = iprop((((c : Thread nD τ).loc main_v1) ↦{fullShare.left} G 0) ∗ (((c : Thread nD τ).loc main_v1) ↦{fullShare.right} G 1)
          ∗ (((c : Thread nD τ).loc main_v16) ↦{fullShare} G 2)) := by
  unfold Pipeline.Dat.arrays
  rw [bigSep_W1, (arr_whole1 0).set_eq_univ, (arr_whole1 2).set_eq_univ]
  rfl

-- The buffers held at `W`, split, are the region's precondition.
theorem entry :
    iprop(StableHlo.held (c : Thread nD τ) (Pipeline.ucRefs τ sig) (W c) ∗ Rst c)
      ⊢ |={Set.univ}=> iprop((dat (VW W) hO c).arrays ((dat (VW W) hO c).arrAt · 0) ∗ Tb c (tbl (VW W))
          ∗ (dat (VW W) hO c).owesAt () 0 ∗ (∃ r, prngReg c r) ∗ Rs c (VW W c)) := by
  rw [← Pipeline.unscopedBufs_held c (W c), bufs_eq c _ _ (V_pre (VW W) c), arrays_eq]
  iintro ⟨⟨⟨⟨Hl, Hr⟩, Hout⟩, Ht, Hrest⟩, Hp, %Wd, HO⟩
  imodintro
  isplitl [Hl Hr Hout]
  · isplitl [Hl]; · iexact Hl
    isplitl [Hr]; · iexact Hr
    iexact Hout
  iframe
  iexists Wd; isplitr; · ipureintro; exact fun _ _ => .inl trivial
  iexact HO

theorem hin :
    iprop((∃ r, prngReg c r) ∗ Tb c (tbl (VW W)) ∗ Pipeline.scopedRest spec1 c) ⊢ (dat (VW W) hO c).Φ 0 := by
  change _ ⊢ iprop((_ ∗ _) ∗ _)
  iintro ⟨Hp, Ht, Hr⟩
  iframe

theorem hout :
    (dat (VW W) hO c).Φ (Fin.last (cfgM (VW W) hO).N)
      ⊢ iprop(((∃ r, prngReg c r) ∗ Tb c (tbl (VW W))) ∗ Pipeline.scopedRest spec1 c) := by
  change iprop((_ ∗ _) ∗ _) ⊢ _
  iintro ⟨⟨Hr, Hp⟩, Ht⟩
  iframe

-- Off the output array `W'` is `W`, so the region's postcondition reassembles into the buffers held at `W'`.
theorem exit (W' : Valuation τ sig (Elt F))
    (hout' : W' main_v16 = (dat (VW W) hO c).arrAt 2 (cfgM (VW W) hO).N)
    (hrest : ∀ b : Ref sig .tc, b ≠ main_v16 → W' b = W c b) :
    iprop((dat (VW W) hO c).arrays ((dat (VW W) hO c).arrAt · (cfgM (VW W) hO).N) ∗ (dat (VW W) hO c).owesAt () (Fin.last (cfgM (VW W) hO).N)
        ∗ ((∃ r, prngReg c r) ∗ Tb c (tbl (VW W))) ∗ Rs c (VW W c))
      ⊢ |={Set.univ}=> iprop(StableHlo.held (c : Thread nD τ) (Pipeline.ucRefs τ sig) W' ∗ Rst c) := by
  have ei := (hrest main_v1 (by decide)).symm
  have er : (Rs c (VW W c) : sProp 𝕄) = Rs c fun b => W' b :=
    bigSep_congr fun b hb => by simp only [hrest b fun e => absurd (e ▸ hb) (by decide)]
  rw [← Pipeline.unscopedBufs_held c W', bufs_eq c _ _ fun k => (hrest _ (preFacts1.disj k 2)).trans (V_pre (VW W) c k), arrays_eq,
    ((dat (VW W) hO c).arrAt_in 0 rfl _).trans ei, ((dat (VW W) hO c).arrAt_in 1 rfl _).trans ei, ← hout', er]
  unfold Rst
  iintro ⟨⟨Hl, Hr, Hout⟩, ⟨%Wd, -, HO⟩, ⟨Hp, Ht⟩, Hrest⟩
  imodintro
  icombine Hl Hr as Hin
  iframe
  iexists Wd; iexact HO

end Cert.KernelIdeal.R1

end
-- ==== Proof.KI.R2.lean ====
import proofs.«401413_j6932077216080_2_alg».proof.Proof.Gen.KernelIdeal.Launch
import proofs.«401413_j6932077216080_2_alg».proof.Proof.Gen.KernelIdeal.Skeleton
import proofs.«401413_j6932077216080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.R2

open Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The six tables' contents at entry: there is one device.
def tbl : pre2.Contents (Elt F) := fun j => V (0 : Dev nD) (pre2.ref j)
theorem V_pre (c : Dev nD) (j : Fin 6) : V c (pre2.ref j) = tbl V j := by
  cases Subsingleton.elim c 0; rfl
-- Every row an index word names exists.
abbrev Ok : Prop := ok2 (F := F) (tbl V)

variable (hO : Ok V) (c : Dev nD)

abbrev adm : (pcfg2 (F := F)).Adm := ⟨tbl V, hO⟩
abbrev cfgM : Pipeline.Cfg sig Λ₀ := cfg2 (adm V hO)

variable (w : Fin (cfgM V hO).W) (t : Fin (cfgM V hO).N)

abbrev TbBuf (M : Memref sig .tc .smem S16000 .i32) : Type := Buf (Elt F) (M.view.loc (c : Thread nD τ))
abbrev tbPt (M : Memref sig .tc .smem S16000 .i32) (f : TbBuf (F := F) c M) : sProp 𝕄 :=
  M.view.loc (c : Thread nD τ) ↦{fullShare} f

abbrev ΦTb : sProp 𝕄 :=
  Pipeline.prefHeld pre2 c (fun _ => fullShare) (tbl V)

-- Window w's block at point t, read off its array at entry.
def iblk : (((cfgM V hO).win w).xblock ((cfgM V hO).grid.coords t)).Idx → Elt F ((cfgM V hO).win w).elt :=
  (((cfgM V hO).win w).blk t).view.read (Elt F) (V c (Pipeline.arrRef spec2 w))

abbrev VO : View sig .tc .vmem S1x1x2048 .i32 := (Memref.whole cc2_stg2_0 : Memref sig .tc .vmem S1x1x2048 .i32).view
abbrev ms_0 : Memref sig .tc .vmem S1x1x2048 .i32 := spec2_0.stage ((cfgM V hO).slots t 0)
abbrev hs_0 : (ms_0 V hO t).IsWhole := hstage2_0 (((cfgM V hO).slots t 0).cast nbuf2_0)
abbrev ms_1 : Memref sig .tc .vmem S1x1x2048 .i32 := spec2_1.stage ((cfgM V hO).slots t 1)
abbrev hs_1 : (ms_1 V hO t).IsWhole := hstage2_1 (((cfgM V hO).slots t 1).cast nbuf2_1)
abbrev ms_2 : Memref sig .tc .vmem S1x1x2048 .i32 := spec2_2.stage ((cfgM V hO).slots t 2)
abbrev hs_2 : (ms_2 V hO t).IsWhole := hstage2_2 (((cfgM V hO).slots t 2).cast nbuf2_2)

variable (i : grid2.Coords) (arg7 : Memref sig .tc .vmem S1x1x2048 .i32) (harg7 : arg7.IsWhole)
  (arg8 : Memref sig .tc .vmem S1x1x2048 .i32) (harg8 : arg8.IsWhole) (arg9 : Memref sig .tc .vmem S1x1x2048 .i32) (harg9 : arg9.IsWhole)
  (x0 x1 : Vec F S1x1x2048 .i32)
  (t0 : TbBuf (F := F) c (Memref.whole main_arg4)) (t1 : TbBuf (F := F) c (Memref.whole main_arg5)) (t2 : TbBuf (F := F) c (Memref.whole main_v20))
  (t3 : TbBuf (F := F) c (Memref.whole main_v24)) (t4 : TbBuf (F := F) c (Memref.whole main_v28)) (t5 : TbBuf (F := F) c (Memref.whole main_v32))

-- The six tables, each held whole.
abbrev Tb6 : sProp 𝕄 :=
  iprop(tbPt c (Memref.whole main_arg4) t0 ∗ tbPt c (Memref.whole main_arg5) t1 ∗ tbPt c (Memref.whole main_v20) t2
    ∗ tbPt c (Memref.whole main_v24) t3 ∗ tbPt c (Memref.whole main_v28) t4 ∗ tbPt c (Memref.whole main_v32) t5)

theorem PhiT_eq : (ΦTb V c : sProp 𝕄) = Tb6 c (tbl V 0) (tbl V 1) (tbl V 2) (tbl V 3) (tbl V 4) (tbl V 5) := by
  unfold ΦTb Pipeline.prefHeld
  rw [bigSep_univ_eq_bigSepL [(0 : Fin 6), 1, 2, 3, 4, 5] (by decide) (by decide)]
  rfl

abbrev bodyOn : Prog (TpuEff nD τ sig (Elt F) Λ₀ .tc) PUnit :=
  cc2_kernel i (Memref.whole main_arg4) (Memref.isWhole_whole _) (Memref.whole main_arg5) (Memref.isWhole_whole _) (Memref.whole main_v20) (Memref.isWhole_whole _)
    (Memref.whole main_v24) (Memref.isWhole_whole _) (Memref.whole main_v28) (Memref.isWhole_whole _) (Memref.whole main_v32) (Memref.isWhole_whole _) arg7 harg7 arg8 harg8 arg9 harg9

set_option maxHeartbeats 1000000 in
-- The pieces the body's one store writes, with the run: inputs and tables come back as they were, the output holds the pieces.
def kernelRun :
    { L1 : List (View.Piece (Elt F) S1x1x2048 .i32) //
      ∀ (E : Set ℕ) (K : PUnit → sProp 𝕄),
        iprop(owns c arg7 fullShare x0 ∗ owns c arg8 fullShare x1 ∗ (∃ d, owns c arg9 fullShare d)
            ∗ Tb6 c t0 t1 t2 t3 t4 t5
            ∗ (iprop(owns c arg7 fullShare x0 ∗ owns c arg8 fullShare x1
                ∗ (∃ f, arg9.view.loc (c : Thread nD τ) ↦[arg9.view.set]{fullShare} arg9.view.writes (Elt F) f L1)
                ∗ Tb6 c t0 t1 t2 t3 t4 t5) -∗ K ⟨⟩))
          ⊢ wp frame (wpE (defs₀ (F := F)) Variants.none c none) E (bodyOn i arg7 harg7 arg8 harg8 arg9 harg9) K } := by
  refine ⟨?_, fun E K => ?run⟩
  case run =>
    unfold bodyOn
    simp only [cc2_kernel_eq_skeleton]; unfold cc2_kernel_skel
    unfold owns Tb6
    iintro ⟨⟨%f0, %hf0, H0⟩, ⟨%f1, %hf1, H1⟩, ⟨%d2, %f2, -, H2⟩, ⟨HT0, HT1, HT2, HT3, HT4, HT5⟩, Hk⟩
    obtain rfl := harg7.eq_unread hf0
    obtain rfl := harg8.eq_unread hf1
    sl_exec
    sl_step
    iapply Hk
    iframe HT0 HT1 HT2 HT3 HT4 HT5
    isplitl [H0]
    · iexists _; isplitr; · ipureintro; exact harg7.read_unread _
      iexact H0
    isplitl [H1]
    · iexists _; isplitr; · ipureintro; exact harg8.read_unread _
      iexact H1
    iexists _; iexact H2

-- What the run leaves in the output buffer: its pieces read back.
def outOn : Vec F S1x1x2048 .i32 :=
  VO.read (Elt F) (VO.writes (Elt F) VO.junk (kernelRun c i arg7 harg7 arg8 harg8 arg9 harg9 x0 x1 t0 t1 t2 t3 t4 t5).1)

-- The gate's row: what the body leaves in the output buffer at point t.
def outAt : Vec F S1x1x2048 .i32 :=
  outOn c (grid2.coords t) _ (hs_0 V hO t) _ (hs_1 V hO t) _ (hs_2 V hO t) (iblk V hO c 0 t) (iblk V hO c 1 t)
    (tbl V 0) (tbl V 1) (tbl V 2) (tbl V 3) (tbl V 4) (tbl V 5)

def dat : Dat τ (Elt F) Unit ℕ (UR sig nD τ) ℕ (cfgM V hO) c where
  A w := V c (Pipeline.arrRef spec2 w)
  after w t := match w with
    | ⟨0, _⟩ => iblk V hO c 0 t
    | ⟨1, _⟩ => iblk V hO c 1 t
    | ⟨2, _⟩ => outAt V hO c t
  Φ _ := iprop(Pipeline.ΦA spec2 c ∗ ΦTb V c)
  q w := match w with
    | ⟨0, _⟩ => fullShare.left
    | ⟨1, _⟩ => fullShare.right
    | ⟨2, _⟩ => fullShare
  owed _ := 0

theorem A_eq : (dat V hO c).A w = V c (Pipeline.arrRef spec2 w) := rfl

theorem before_in (hw : w = 0 ∨ w = 1) (d) : (dat V hO c).before w t d = iblk V hO c w t := by
  rcases hw with rfl | rfl <;>
  exact ((dat V hO c).before_in_eq_fetched _ rfl (fun _ => rfl) (fun _ _ _ => rfl) (fun _ => rfl) t d).trans rfl

theorem after_2 : (dat V hO c).after 2 t = outAt V hO c t := by dsimp only [dat]; try rfl

theorem sound_body :
    iprop((Pipeline.ΦA spec2 c ∗ ΦTb V c) ∗ (dat V hO c).owesAt () t.castSucc
      ∗ (∃ d, owns c (ms_0 V hO t) fullShare ((dat V hO c).before 0 t d))
      ∗ (∃ d, owns c (ms_1 V hO t) fullShare ((dat V hO c).before 1 t d))
      ∗ (∃ d, owns c (ms_2 V hO t) fullShare ((dat V hO c).before 2 t d)))
    ⊢ wp frame (wpE (defs₀ (F := F)) Variants.none c none) Set.univ
        (bodyOn (grid2.coords t) _ (hs_0 V hO t) _ (hs_1 V hO t) _ (hs_2 V hO t)) (fun _ =>
      iprop((Pipeline.ΦA spec2 c ∗ ΦTb V c) ∗ (dat V hO c).owesAt () t.castSucc
        ∗ owns c (ms_0 V hO t) fullShare (iblk V hO c 0 t)
        ∗ owns c (ms_1 V hO t) fullShare (iblk V hO c 1 t)
        ∗ owns c (ms_2 V hO t) fullShare ((dat V hO c).after 2 t))) := by
  simp only [before_in V hO c _ t (.inl rfl), before_in V hO c _ t (.inr rfl)]
  rw [after_2, PhiT_eq]
  unfold outAt outOn
  iintro ⟨⟨HΦ, HT⟩, Ho, ⟨%d0, H0⟩, ⟨%d1, H1⟩, ⟨%d2, H2⟩⟩
  iapply ((kernelRun c (grid2.coords t) _ _ _ _ _ _ (iblk V hO c 0 t) (iblk V hO c 1 t) (tbl V 0) (tbl V 1) (tbl V 2) (tbl V 3) (tbl V 4) (tbl V 5)).2 Set.univ _)
  iframe H0 H1 HT
  isplitl [H2]; · iexists _; iexact H2
  iintro ⟨H0, H1, ⟨%e2, H2⟩, HT⟩
  iframe
  ihave H' := (Ring.owns_of_writes_tiledL VO S1x1x2048.size) $$ H2; iapply H'; ipureintro; sl_kernel_rfl

theorem body_obligation : BodyObligation (dat (F := F) V hO c) (defs₀ (F := F)) Variants.none () Set.univ := fun t => by
  rw [bigSep_W2, bigSep_W2]
  exact sound_body V hO c t

end Cert.KernelIdeal.R2

end
-- ==== Proof.KI.S2.lean ====
import proofs.«401413_j6932077216080_2_alg».proof.Proof.Gen.KernelIdeal.Launch
import proofs.«401413_j6932077216080_2_alg».proof.Proof.KI.R2

noncomputable section

namespace Cert.KernelIdeal.R2

open Gen Idealize.ShloMosaic Idealize.ShloMosaic.TcCoe Idealize.SL.RA Idealize.SL.BI Idealize.SL.BI.BIBase Idealize.SL.ProofMode

variable {F : FTy → Type} [FloatOps F]

local notation "𝕄" => MT nD τ sig Unit (Elt F) ℕ (UR sig nD τ) ℕ

variable (W : Dev nD → Valuation τ sig (Elt F))

-- A valuation read at the core's references.
abbrev VW : (c : Dev nD) → (b : Ref sig .tc) → Buf (Elt F) ((c : Thread nD τ).loc b) := fun c b => W c b

variable (hO : Ok (VW W)) (c : Dev nD)

-- The resources a core carries from one region to the next beside its buffers.
abbrev Rst : sProp 𝕄 :=
  iprop((∃ r, prngReg c r) ∗ ∃ Wd, owes (c : Thread nD τ) 0 Wd)

-- The six tables, held whole at contents `T`.
abbrev Tb (T : pre2.Contents (Elt F)) : sProp 𝕄 := Pipeline.prefHeld pre2 c (fun _ => fullShare) T

-- The unscoped buffers that are neither a window's array nor a table, at contents `B`.
abbrev Rs (B : (b : Ref sig .tc) → Buf (Elt F) ((c : Thread nD τ).loc b)) : sProp 𝕄 := Pipeline.unscopedRestP pre2 spec2 c B

-- The index set splits into the two arrays, the tables and the rest, and the conjunction with it.
theorem bufs_eq (B T) (hT : ∀ k, B (pre2.ref k) = T k) :
    (unscopedBufs c B : sProp 𝕄)
      = iprop(((((c : Thread nD τ).loc main_v18) ↦{fullShare} B main_v18) ∗ (((c : Thread nD τ).loc main_v33) ↦{fullShare} B main_v33))
          ∗ Tb c T ∗ Rs c B) := by
  obtain rfl := funext hT
  rw [← Pipeline.unscopedRest_split preFacts2 c B]
  unfold unscopedBufs Pipeline.unscopedRest
  rw [bigSep_sdiff_split (by decide : Finset.univ.image (Pipeline.arrRef spec2) ⊆ _),
    show Finset.univ.image (Pipeline.arrRef spec2) = ({main_v18, main_v33} : Finset (Ref sig .tc)) by decide, bigSep_insert (by decide), bigSep_singleton]
  rfl

-- A conjunction over three windows, each over the whole of its array.
theorem arrays_eq (G) :
    ((dat (VW W) hO c).arrays G : sProp 𝕄)
      = iprop((((c : Thread nD τ).loc main_v18) ↦{fullShare.left} G 0) ∗ (((c : Thread nD τ).loc main_v18) ↦{fullShare.right} G 1)
          ∗ (((c : Thread nD τ).loc main_v33) ↦{fullShare} G 2)) := by
  unfold Pipeline.Dat.arrays
  rw [bigSep_W2, (arr_whole2 0).set_eq_univ, (arr_whole2 2).set_eq_univ]
  rfl

-- The buffers held at `W`, split, are the region's precondition.
theorem entry :
    iprop(StableHlo.held (c : Thread nD τ) (Pipeline.ucRefs τ sig) (W c) ∗ Rst c)
      ⊢ |={Set.univ}=> iprop((dat (VW W) hO c).arrays ((dat (VW W) hO c).arrAt · 0) ∗ Tb c (tbl (VW W))
          ∗ (dat (VW W) hO c).owesAt () 0 ∗ (∃ r, prngReg c r) ∗ Rs c (VW W c)) := by
  rw [← Pipeline.unscopedBufs_held c (W c), bufs_eq c _ _ (V_pre (VW W) c), arrays_eq]
  iintro ⟨⟨⟨⟨Hl, Hr⟩, Hout⟩, Ht, Hrest⟩, Hp, %Wd, HO⟩
  imodintro
  isplitl [Hl Hr Hout]
  · isplitl [Hl]; · iexact Hl
    isplitl [Hr]; · iexact Hr
    iexact Hout
  iframe
  iexists Wd; isplitr; · ipureintro; exact fun _ _ => .inl trivial
  iexact HO

theorem hin :
    iprop((∃ r, prngReg c r) ∗ Tb c (tbl (VW W)) ∗ Pipeline.scopedRest spec2 c) ⊢ (dat (VW W) hO c).Φ 0 := by
  change _ ⊢ iprop((_ ∗ _) ∗ _)
  iintro ⟨Hp, Ht, Hr⟩
  iframe

theorem hout :
    (dat (VW W) hO c).Φ (Fin.last (cfgM (VW W) hO).N)
      ⊢ iprop(((∃ r, prngReg c r) ∗ Tb c (tbl (VW W))) ∗ Pipeline.scopedRest spec2 c) := by
  change iprop((_ ∗ _) ∗ _) ⊢ _
  iintro ⟨⟨Hr, Hp⟩, Ht⟩
  iframe

-- Off the output array `W'` is `W`, so the region's postcondition reassembles into the buffers held at `W'`.
theorem exit (W' : Valuation τ sig (Elt F))
    (hout' : W' main_v33 = (dat (VW W) hO c).arrAt 2 (cfgM (VW W) hO).N)
    (hrest : ∀ b : Ref sig .tc, b ≠ main_v33 → W' b = W c b) :
    iprop((dat (VW W) hO c).arrays ((dat (VW W) hO c).arrAt · (cfgM (VW W) hO).N) ∗ (dat (VW W) hO c).owesAt () (Fin.last (cfgM (VW W) hO).N)
        ∗ ((∃ r, prngReg c r) ∗ Tb c (tbl (VW W))) ∗ Rs c (VW W c))
      ⊢ |={Set.univ}=> iprop(StableHlo.held (c : Thread nD τ) (Pipeline.ucRefs τ sig) W' ∗ Rst c) := by
  have ei := (hrest main_v18 (by decide)).symm
  have er : (Rs c (VW W c) : sProp 𝕄) = Rs c fun b => W' b :=
    bigSep_congr fun b hb => by simp only [hrest b fun e => absurd (e ▸ hb) (by decide)]
  rw [← Pipeline.unscopedBufs_held c W', bufs_eq c _ _ fun k => (hrest _ (preFacts2.disj k 2)).trans (V_pre (VW W) c k), arrays_eq,
    ((dat (VW W) hO c).arrAt_in 0 rfl _).trans ei, ((dat (VW W) hO c).arrAt_in 1 rfl _).trans ei, ← hout', er]
  unfold Rst
  iintro ⟨⟨Hl, Hr, Hout⟩, ⟨%Wd, -, HO⟩, ⟨Hp, Ht⟩, Hrest⟩
  imodintro
  icombine Hl Hr as Hin
  iframe
  iexists Wd; iexact HO

end Cert.KernelIdeal.R2

end
-- ==== Proof.KI.R3.lean ====
import proofs.«401413_j6932077216080_2_alg».proof.Proof.Gen.KernelIdeal.Launch
import proofs.«401413_j6932077216080_2_alg».proof.Proof.Gen.KernelIdeal.Skeleton
import proofs.«401413_j6932077216080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.R3

open Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The six tables' contents at entry: there is one device.
def tbl : pre3.Contents (Elt F) := fun j => V (0 : Dev nD) (pre3.ref j)
theorem V_pre (c : Dev nD) (j : Fin 6) : V c (pre3.ref j) = tbl V j := by
  cases Subsingleton.elim c 0; rfl
-- Every row an index word names exists.
abbrev Ok : Prop := ok3 (F := F) (tbl V)

variable (hO : Ok V) (c : Dev nD)

abbrev adm : (pcfg3 (F := F)).Adm := ⟨tbl V, hO⟩
abbrev cfgM : Pipeline.Cfg sig Λ₀ := cfg3 (adm V hO)

variable (w : Fin (cfgM V hO).W) (t : Fin (cfgM V hO).N)

abbrev TbBuf (M : Memref sig .tc .smem S16000 .i32) : Type := Buf (Elt F) (M.view.loc (c : Thread nD τ))
abbrev tbPt (M : Memref sig .tc .smem S16000 .i32) (f : TbBuf (F := F) c M) : sProp 𝕄 :=
  M.view.loc (c : Thread nD τ) ↦{fullShare} f

abbrev ΦTb : sProp 𝕄 :=
  Pipeline.prefHeld pre3 c (fun _ => fullShare) (tbl V)

-- Window w's block at point t, read off its array at entry.
def iblk : (((cfgM V hO).win w).xblock ((cfgM V hO).grid.coords t)).Idx → Elt F ((cfgM V hO).win w).elt :=
  (((cfgM V hO).win w).blk t).view.read (Elt F) (V c (Pipeline.arrRef spec3 w))

abbrev VO : View sig .tc .vmem S1x1x2048 .i32 := (Memref.whole cc3_stg2_0 : Memref sig .tc .vmem S1x1x2048 .i32).view
abbrev ms_0 : Memref sig .tc .vmem S1x1x2048 .i32 := spec3_0.stage ((cfgM V hO).slots t 0)
abbrev hs_0 : (ms_0 V hO t).IsWhole := hstage3_0 (((cfgM V hO).slots t 0).cast nbuf3_0)
abbrev ms_1 : Memref sig .tc .vmem S1x1x2048 .i32 := spec3_1.stage ((cfgM V hO).slots t 1)
abbrev hs_1 : (ms_1 V hO t).IsWhole := hstage3_1 (((cfgM V hO).slots t 1).cast nbuf3_1)
abbrev ms_2 : Memref sig .tc .vmem S1x1x2048 .i32 := spec3_2.stage ((cfgM V hO).slots t 2)
abbrev hs_2 : (ms_2 V hO t).IsWhole := hstage3_2 (((cfgM V hO).slots t 2).cast nbuf3_2)

variable (i : grid3.Coords) (arg7 : Memref sig .tc .vmem S1x1x2048 .i32) (harg7 : arg7.IsWhole)
  (arg8 : Memref sig .tc .vmem S1x1x2048 .i32) (harg8 : arg8.IsWhole) (arg9 : Memref sig .tc .vmem S1x1x2048 .i32) (harg9 : arg9.IsWhole)
  (x0 x1 : Vec F S1x1x2048 .i32)
  (t0 : TbBuf (F := F) c (Memref.whole main_arg7)) (t1 : TbBuf (F := F) c (Memref.whole main_arg8)) (t2 : TbBuf (F := F) c (Memref.whole main_v37))
  (t3 : TbBuf (F := F) c (Memref.whole main_v41)) (t4 : TbBuf (F := F) c (Memref.whole main_v45)) (t5 : TbBuf (F := F) c (Memref.whole main_v49))

-- The six tables, each held whole.
abbrev Tb6 : sProp 𝕄 :=
  iprop(tbPt c (Memref.whole main_arg7) t0 ∗ tbPt c (Memref.whole main_arg8) t1 ∗ tbPt c (Memref.whole main_v37) t2
    ∗ tbPt c (Memref.whole main_v41) t3 ∗ tbPt c (Memref.whole main_v45) t4 ∗ tbPt c (Memref.whole main_v49) t5)

theorem PhiT_eq : (ΦTb V c : sProp 𝕄) = Tb6 c (tbl V 0) (tbl V 1) (tbl V 2) (tbl V 3) (tbl V 4) (tbl V 5) := by
  unfold ΦTb Pipeline.prefHeld
  rw [bigSep_univ_eq_bigSepL [(0 : Fin 6), 1, 2, 3, 4, 5] (by decide) (by decide)]
  rfl

abbrev bodyOn : Prog (TpuEff nD τ sig (Elt F) Λ₀ .tc) PUnit :=
  cc3_kernel i (Memref.whole main_arg7) (Memref.isWhole_whole _) (Memref.whole main_arg8) (Memref.isWhole_whole _) (Memref.whole main_v37) (Memref.isWhole_whole _)
    (Memref.whole main_v41) (Memref.isWhole_whole _) (Memref.whole main_v45) (Memref.isWhole_whole _) (Memref.whole main_v49) (Memref.isWhole_whole _) arg7 harg7 arg8 harg8 arg9 harg9

set_option maxHeartbeats 1000000 in
-- The pieces the body's one store writes, with the run: inputs and tables come back as they were, the output holds the pieces.
def kernelRun :
    { L1 : List (View.Piece (Elt F) S1x1x2048 .i32) //
      ∀ (E : Set ℕ) (K : PUnit → sProp 𝕄),
        iprop(owns c arg7 fullShare x0 ∗ owns c arg8 fullShare x1 ∗ (∃ d, owns c arg9 fullShare d)
            ∗ Tb6 c t0 t1 t2 t3 t4 t5
            ∗ (iprop(owns c arg7 fullShare x0 ∗ owns c arg8 fullShare x1
                ∗ (∃ f, arg9.view.loc (c : Thread nD τ) ↦[arg9.view.set]{fullShare} arg9.view.writes (Elt F) f L1)
                ∗ Tb6 c t0 t1 t2 t3 t4 t5) -∗ K ⟨⟩))
          ⊢ wp frame (wpE (defs₀ (F := F)) Variants.none c none) E (bodyOn i arg7 harg7 arg8 harg8 arg9 harg9) K } := by
  refine ⟨?_, fun E K => ?run⟩
  case run =>
    unfold bodyOn
    simp only [cc3_kernel_eq_skeleton]; unfold cc3_kernel_skel
    unfold owns Tb6
    iintro ⟨⟨%f0, %hf0, H0⟩, ⟨%f1, %hf1, H1⟩, ⟨%d2, %f2, -, H2⟩, ⟨HT0, HT1, HT2, HT3, HT4, HT5⟩, Hk⟩
    obtain rfl := harg7.eq_unread hf0
    obtain rfl := harg8.eq_unread hf1
    sl_exec
    sl_step
    iapply Hk
    iframe HT0 HT1 HT2 HT3 HT4 HT5
    isplitl [H0]
    · iexists _; isplitr; · ipureintro; exact harg7.read_unread _
      iexact H0
    isplitl [H1]
    · iexists _; isplitr; · ipureintro; exact harg8.read_unread _
      iexact H1
    iexists _; iexact H2

-- What the run leaves in the output buffer: its pieces read back.
def outOn : Vec F S1x1x2048 .i32 :=
  VO.read (Elt F) (VO.writes (Elt F) VO.junk (kernelRun c i arg7 harg7 arg8 harg8 arg9 harg9 x0 x1 t0 t1 t2 t3 t4 t5).1)

-- The gate's row: what the body leaves in the output buffer at point t.
def outAt : Vec F S1x1x2048 .i32 :=
  outOn c (grid3.coords t) _ (hs_0 V hO t) _ (hs_1 V hO t) _ (hs_2 V hO t) (iblk V hO c 0 t) (iblk V hO c 1 t)
    (tbl V 0) (tbl V 1) (tbl V 2) (tbl V 3) (tbl V 4) (tbl V 5)

def dat : Dat τ (Elt F) Unit ℕ (UR sig nD τ) ℕ (cfgM V hO) c where
  A w := V c (Pipeline.arrRef spec3 w)
  after w t := match w with
    | ⟨0, _⟩ => iblk V hO c 0 t
    | ⟨1, _⟩ => iblk V hO c 1 t
    | ⟨2, _⟩ => outAt V hO c t
  Φ _ := iprop(Pipeline.ΦA spec3 c ∗ ΦTb V c)
  q w := match w with
    | ⟨0, _⟩ => fullShare.left
    | ⟨1, _⟩ => fullShare.right
    | ⟨2, _⟩ => fullShare
  owed _ := 0

theorem A_eq : (dat V hO c).A w = V c (Pipeline.arrRef spec3 w) := rfl

theorem before_in (hw : w = 0 ∨ w = 1) (d) : (dat V hO c).before w t d = iblk V hO c w t := by
  rcases hw with rfl | rfl <;>
  exact ((dat V hO c).before_in_eq_fetched _ rfl (fun _ => rfl) (fun _ _ _ => rfl) (fun _ => rfl) t d).trans rfl

theorem after_2 : (dat V hO c).after 2 t = outAt V hO c t := by dsimp only [dat]; try rfl

theorem sound_body :
    iprop((Pipeline.ΦA spec3 c ∗ ΦTb V c) ∗ (dat V hO c).owesAt () t.castSucc
      ∗ (∃ d, owns c (ms_0 V hO t) fullShare ((dat V hO c).before 0 t d))
      ∗ (∃ d, owns c (ms_1 V hO t) fullShare ((dat V hO c).before 1 t d))
      ∗ (∃ d, owns c (ms_2 V hO t) fullShare ((dat V hO c).before 2 t d)))
    ⊢ wp frame (wpE (defs₀ (F := F)) Variants.none c none) Set.univ
        (bodyOn (grid3.coords t) _ (hs_0 V hO t) _ (hs_1 V hO t) _ (hs_2 V hO t)) (fun _ =>
      iprop((Pipeline.ΦA spec3 c ∗ ΦTb V c) ∗ (dat V hO c).owesAt () t.castSucc
        ∗ owns c (ms_0 V hO t) fullShare (iblk V hO c 0 t)
        ∗ owns c (ms_1 V hO t) fullShare (iblk V hO c 1 t)
        ∗ owns c (ms_2 V hO t) fullShare ((dat V hO c).after 2 t))) := by
  simp only [before_in V hO c _ t (.inl rfl), before_in V hO c _ t (.inr rfl)]
  rw [after_2, PhiT_eq]
  unfold outAt outOn
  iintro ⟨⟨HΦ, HT⟩, Ho, ⟨%d0, H0⟩, ⟨%d1, H1⟩, ⟨%d2, H2⟩⟩
  iapply ((kernelRun c (grid3.coords t) _ _ _ _ _ _ (iblk V hO c 0 t) (iblk V hO c 1 t) (tbl V 0) (tbl V 1) (tbl V 2) (tbl V 3) (tbl V 4) (tbl V 5)).2 Set.univ _)
  iframe H0 H1 HT
  isplitl [H2]; · iexists _; iexact H2
  iintro ⟨H0, H1, ⟨%e2, H2⟩, HT⟩
  iframe
  ihave H' := (Ring.owns_of_writes_tiledL VO S1x1x2048.size) $$ H2; iapply H'; ipureintro; sl_kernel_rfl

theorem body_obligation : BodyObligation (dat (F := F) V hO c) (defs₀ (F := F)) Variants.none () Set.univ := fun t => by
  rw [bigSep_W3, bigSep_W3]
  exact sound_body V hO c t

end Cert.KernelIdeal.R3

end
-- ==== Proof.KI.S3.lean ====
import proofs.«401413_j6932077216080_2_alg».proof.Proof.Gen.KernelIdeal.Launch
import proofs.«401413_j6932077216080_2_alg».proof.Proof.KI.R3

noncomputable section

namespace Cert.KernelIdeal.R3

open Gen Idealize.ShloMosaic Idealize.ShloMosaic.TcCoe Idealize.SL.RA Idealize.SL.BI Idealize.SL.BI.BIBase Idealize.SL.ProofMode

variable {F : FTy → Type} [FloatOps F]

local notation "𝕄" => MT nD τ sig Unit (Elt F) ℕ (UR sig nD τ) ℕ

variable (W : Dev nD → Valuation τ sig (Elt F))

-- A valuation read at the core's references.
abbrev VW : (c : Dev nD) → (b : Ref sig .tc) → Buf (Elt F) ((c : Thread nD τ).loc b) := fun c b => W c b

variable (hO : Ok (VW W)) (c : Dev nD)

-- The resources a core carries from one region to the next beside its buffers.
abbrev Rst : sProp 𝕄 :=
  iprop((∃ r, prngReg c r) ∗ ∃ Wd, owes (c : Thread nD τ) 0 Wd)

-- The six tables, held whole at contents `T`.
abbrev Tb (T : pre3.Contents (Elt F)) : sProp 𝕄 := Pipeline.prefHeld pre3 c (fun _ => fullShare) T

-- The unscoped buffers that are neither a window's array nor a table, at contents `B`.
abbrev Rs (B : (b : Ref sig .tc) → Buf (Elt F) ((c : Thread nD τ).loc b)) : sProp 𝕄 := Pipeline.unscopedRestP pre3 spec3 c B

-- The index set splits into the two arrays, the tables and the rest, and the conjunction with it.
theorem bufs_eq (B T) (hT : ∀ k, B (pre3.ref k) = T k) :
    (unscopedBufs c B : sProp 𝕄)
      = iprop(((((c : Thread nD τ).loc main_v35) ↦{fullShare} B main_v35) ∗ (((c : Thread nD τ).loc main_v50) ↦{fullShare} B main_v50))
          ∗ Tb c T ∗ Rs c B) := by
  obtain rfl := funext hT
  rw [← Pipeline.unscopedRest_split preFacts3 c B]
  unfold unscopedBufs Pipeline.unscopedRest
  rw [bigSep_sdiff_split (by decide : Finset.univ.image (Pipeline.arrRef spec3) ⊆ _),
    show Finset.univ.image (Pipeline.arrRef spec3) = ({main_v35, main_v50} : Finset (Ref sig .tc)) by decide, bigSep_insert (by decide), bigSep_singleton]
  rfl

-- A conjunction over three windows, each over the whole of its array.
theorem arrays_eq (G) :
    ((dat (VW W) hO c).arrays G : sProp 𝕄)
      = iprop((((c : Thread nD τ).loc main_v35) ↦{fullShare.left} G 0) ∗ (((c : Thread nD τ).loc main_v35) ↦{fullShare.right} G 1)
          ∗ (((c : Thread nD τ).loc main_v50) ↦{fullShare} G 2)) := by
  unfold Pipeline.Dat.arrays
  rw [bigSep_W3, (arr_whole3 0).set_eq_univ, (arr_whole3 2).set_eq_univ]
  rfl

-- The buffers held at `W`, split, are the region's precondition.
theorem entry :
    iprop(StableHlo.held (c : Thread nD τ) (Pipeline.ucRefs τ sig) (W c) ∗ Rst c)
      ⊢ |={Set.univ}=> iprop((dat (VW W) hO c).arrays ((dat (VW W) hO c).arrAt · 0) ∗ Tb c (tbl (VW W))
          ∗ (dat (VW W) hO c).owesAt () 0 ∗ (∃ r, prngReg c r) ∗ Rs c (VW W c)) := by
  rw [← Pipeline.unscopedBufs_held c (W c), bufs_eq c _ _ (V_pre (VW W) c), arrays_eq]
  iintro ⟨⟨⟨⟨Hl, Hr⟩, Hout⟩, Ht, Hrest⟩, Hp, %Wd, HO⟩
  imodintro
  isplitl [Hl Hr Hout]
  · isplitl [Hl]; · iexact Hl
    isplitl [Hr]; · iexact Hr
    iexact Hout
  iframe
  iexists Wd; isplitr; · ipureintro; exact fun _ _ => .inl trivial
  iexact HO

theorem hin :
    iprop((∃ r, prngReg c r) ∗ Tb c (tbl (VW W)) ∗ Pipeline.scopedRest spec3 c) ⊢ (dat (VW W) hO c).Φ 0 := by
  change _ ⊢ iprop((_ ∗ _) ∗ _)
  iintro ⟨Hp, Ht, Hr⟩
  iframe

theorem hout :
    (dat (VW W) hO c).Φ (Fin.last (cfgM (VW W) hO).N)
      ⊢ iprop(((∃ r, prngReg c r) ∗ Tb c (tbl (VW W))) ∗ Pipeline.scopedRest spec3 c) := by
  change iprop((_ ∗ _) ∗ _) ⊢ _
  iintro ⟨⟨Hr, Hp⟩, Ht⟩
  iframe

-- Off the output array `W'` is `W`, so the region's postcondition reassembles into the buffers held at `W'`.
theorem exit (W' : Valuation τ sig (Elt F))
    (hout' : W' main_v50 = (dat (VW W) hO c).arrAt 2 (cfgM (VW W) hO).N)
    (hrest : ∀ b : Ref sig .tc, b ≠ main_v50 → W' b = W c b) :
    iprop((dat (VW W) hO c).arrays ((dat (VW W) hO c).arrAt · (cfgM (VW W) hO).N) ∗ (dat (VW W) hO c).owesAt () (Fin.last (cfgM (VW W) hO).N)
        ∗ ((∃ r, prngReg c r) ∗ Tb c (tbl (VW W))) ∗ Rs c (VW W c))
      ⊢ |={Set.univ}=> iprop(StableHlo.held (c : Thread nD τ) (Pipeline.ucRefs τ sig) W' ∗ Rst c) := by
  have ei := (hrest main_v35 (by decide)).symm
  have er : (Rs c (VW W c) : sProp 𝕄) = Rs c fun b => W' b :=
    bigSep_congr fun b hb => by simp only [hrest b fun e => absurd (e ▸ hb) (by decide)]
  rw [← Pipeline.unscopedBufs_held c W', bufs_eq c _ _ fun k => (hrest _ (preFacts3.disj k 2)).trans (V_pre (VW W) c k), arrays_eq,
    ((dat (VW W) hO c).arrAt_in 0 rfl _).trans ei, ((dat (VW W) hO c).arrAt_in 1 rfl _).trans ei, ← hout', er]
  unfold Rst
  iintro ⟨⟨Hl, Hr, Hout⟩, ⟨%Wd, -, HO⟩, ⟨Hp, Ht⟩, Hrest⟩
  imodintro
  icombine Hl Hr as Hin
  iframe
  iexists Wd; iexact HO

end Cert.KernelIdeal.R3

end
-- ==== Proof.KI.R4.lean ====
import proofs.«401413_j6932077216080_2_alg».proof.Proof.Gen.KernelIdeal.Launch
import proofs.«401413_j6932077216080_2_alg».proof.Proof.Gen.KernelIdeal.Skeleton
import Idealize.ShloMosaic.Lib.Pipeline.Value
import Idealize.ShloMosaic.Lib.Tactic

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev condW (x : BitVec 32) : Prop :=
  let v0 := Scalar.cmpi .eq 1600#32 0#32
  let v1 := Scalar.select v0 1#32 1600#32
  let v2 := Scalar.remsi x v1
  let v3 := Scalar.cmpi .ne v2 0#32
  let v4 := Scalar.cmpi .slt v2 0#32
  let v5 := Scalar.cmpi .slt v1 0#32
  let v6 := Scalar.xori v4 v5
  let v7 := Scalar.andi v6 v3
  let v8 := Scalar.addi v2 v1
  let v9 := Scalar.select v7 v8 v2
  let v10 := Scalar.cmpi .eq v9 0#32
  let v11 := Scalar.extui v10
  let v12 := Scalar.cmpi .ne v11 0#32
  v12 = 1#1

abbrev cond4 (i : grid4.Coords) : Prop := condW (BitVec.ofNat 32 (i 0).val)

private theorem bit_eq_zero_of_ne_one : ∀ b : BitVec 1, b ≠ 1#1 → b = 0#1 := by decide
private theorem andi_zero_left : ∀ b : BitVec 1, Scalar.andi 0#1 b = 0#1 := by decide
private theorem select_zero {α : Type} (a b : α) : Scalar.select 0#1 a b = b := by
  unfold Scalar.select; exact if_neg (by decide)

-- A nonnegative word is not below zero.
private theorem slt_zero (x : BitVec 32) (hx : 2 * x.toNat < 2 ^ 32) : Scalar.cmpi .slt x 0#32 = 0#1 :=
  bit_eq_zero_of_ne_one _ fun h => by
    rw [Scalar.cmpi, IntOp.cmpi_slt, show (0#32 : BitVec 32).toInt = 0 from by decide,
      BitVec.toInt_eq_toNat_of_lt hx] at h
    omega

-- The reset condition holds of a nonnegative word exactly when 1600 divides it.
theorem condW_iff (x : BitVec 32) (hx : 2 * x.toNat < 2 ^ 32) : condW x ↔ x.toNat % 1600 = 0 := by
  have hv1 : Scalar.select (Scalar.cmpi .eq 1600#32 0#32) 1#32 (1600#32 : BitVec 32) = 1600#32 := by decide
  have hv5 : Scalar.cmpi .slt (1600#32 : BitVec 32) 0#32 = 0#1 := by decide
  have hx6 : Scalar.xori 0#1 0#1 = (0#1 : BitVec 1) := by decide
  have hr : (Scalar.remsi x 1600#32).toNat = x.toNat % 1600 := IntOp.toNat_remsi .scalar hx 1600 (by omega) (by omega)
  unfold condW
  dsimp only
  rw [hv1, hv5, slt_zero _ (by rw [hr]; omega), hx6, andi_zero_left, select_zero, Scalar.guard_iff, Scalar.cmpi,
    IntOp.cmpi_eq, ← BitVec.toNat_inj, hr]
  rfl

abbrev fdivW (x : BitVec 32) : BitVec 32 :=
  let v0 := Scalar.divsi x 1600#32
  let v1 := Scalar.cmpi .sgt x 0#32
  let v2 := Scalar.extui v1
  let v3 := Scalar.cmpi .slt x 0#32
  let v4 := Scalar.extui v3
  let v5 := Scalar.subi v2 v4
  let v6 := Scalar.cmpi .sgt 1600#32 0#32
  let v7 := Scalar.extui v6
  let v8 := Scalar.cmpi .slt 1600#32 0#32
  let v9 := Scalar.extui v8
  let v10 := Scalar.subi v7 v9
  let v11 := Scalar.cmpi .ne v5 v10
  let v12 := Scalar.remsi x 1600#32
  let v13 := Scalar.cmpi .ne v12 0#32
  let v14 := Scalar.andi v11 v13
  let v15 := Scalar.subi v0 1#32
  let v16 := Scalar.select v14 v15 v0
  v16

theorem transform_2_eq (i : grid4.Coords) :
    cc4_transform_2 i = ![(fdivW (BitVec.ofNat 32 (i 0).val)).toNat, 0, 0] := rfl

private theorem toNat_divsi_1600 (x : BitVec 32) (hx : 2 * x.toNat < 2 ^ 32) :
    (Scalar.divsi x 1600#32).toNat = x.toNat / 1600 := by
  have hm : x.msb = false := by rw [BitVec.msb_eq_false_iff_two_mul_lt]; exact hx
  have hkm : (1600#32 : BitVec 32).msb = false := by decide
  rw [Scalar.divsi, IntOp.divsi, if_neg (IntOp.not_corner_of_pos (by decide)), BitVec.sdiv_eq, hm, hkm]
  show (x / 1600#32).toNat = _
  rw [BitVec.toNat_udiv]; rfl

-- Of a nonnegative word the block index is the natural quotient by 1600.
theorem toNat_fdivW (x : BitVec 32) (hx : 2 * x.toNat < 2 ^ 32) : (fdivW x).toNat = x.toNat / 1600 := by
  have hv10 : Scalar.subi (Scalar.extui (Scalar.cmpi .sgt (1600#32 : BitVec 32) 0#32))
      (Scalar.extui (Scalar.cmpi .slt (1600#32 : BitVec 32) 0#32)) = 1#32 := by decide
  unfold fdivW
  dsimp only
  rw [hv10]
  by_cases h0 : x = 0#32
  · subst h0; decide
  · have hsgt : Scalar.cmpi .sgt x 0#32 = 1#1 := by
      rw [Scalar.cmpi, IntOp.cmpi_sgt, show (0#32 : BitVec 32).toInt = 0 from by decide,
        BitVec.toInt_eq_toNat_of_lt hx]
      have : x.toNat ≠ 0 := fun h => h0 (BitVec.eq_of_toNat_eq (h.trans rfl))
      omega
    have h11 : Scalar.cmpi .ne (Scalar.subi (Scalar.extui 1#1) (Scalar.extui 0#1)) (1#32 : BitVec 32) = 0#1 := by decide
    rw [hsgt, slt_zero x hx, h11, andi_zero_left, select_zero]
    exact toNat_divsi_1600 x hx

private theorem t_lt (t : Fin grid4.N) : t.val < 16000 := lt_of_lt_of_eq t.isLt N_4

theorem coords_val (t : Fin grid4.N) : (grid4.coords t 0).val = t.val := by
  have := t_lt t
  show t.val / 1 % 16000 = t.val
  omega

private theorem toNat_coord (t : Fin grid4.N) : (BitVec.ofNat 32 (grid4.coords t 0).val).toNat = t.val := by
  have := t_lt t
  rw [coords_val, BitVec.toNat_ofNat]; omega

theorem hcond4 (t : Fin grid4.N) : cond4 (grid4.coords t) ↔ t.val % 1600 = 0 := by
  have := t_lt t
  rw [cond4, condW_iff _ (by rw [toNat_coord]; omega), toNat_coord]

abbrev tbM0 : Memref sig .tc .smem S16000 .i32 := Memref.whole main_arg10
abbrev tbM1 : Memref sig .tc .smem S16000 .i32 := Memref.whole main_arg11
abbrev tbM2 : Memref sig .tc .smem S16000 .i32 := Memref.whole main_v54
abbrev tbM3 : Memref sig .tc .smem S16000 .i32 := Memref.whole main_v58
abbrev tbM4 : Memref sig .tc .smem S16000 .i32 := Memref.whole main_v62
abbrev tbM5 : Memref sig .tc .smem S16000 .i32 := Memref.whole main_v66

abbrev TbBuf (c : Dev nD) (M : Memref sig .tc .smem S16000 .i32) : Type := Buf (Elt F) (M.view.loc (c : Thread nD τ))
abbrev tbPt (c : Dev nD) (M : Memref sig .tc .smem S16000 .i32) (f : TbBuf (F := F) c M) : sProp 𝕄 :=
  M.view.loc (c : Thread nD τ) ↦{fullShare} f

def wordAt (c : Dev nD) (M : Memref sig .tc .smem S16000 .i32) (f : TbBuf (F := F) c M) (i : grid4.Coords) : Elt F .i32 :=
  View.readAt (Elt F) M.view (Rect.unit (s := S16000) (k4_off1 i) S1.size (k4_off1_inb i)).toLoadRect f
    (Shape.Idx.first (numel1_S1.symm ▸ Nat.one_pos))

def rowOf (c : Dev nD) (i : grid4.Coords) (x0 x1 : Vec F S1x1x2048 .i32)
    (xt2 : TbBuf (F := F) c tbM2) (xt3 : TbBuf (F := F) c tbM3) (xt4 : TbBuf (F := F) c tbM4) (xt5 : TbBuf (F := F) c tbM5) :
    Vec F S1x1x2048 .i32 :=
  k4_pay3 x0 x1 (wordAt c tbM2 xt2 i) (wordAt c tbM3 xt3 i) (wordAt c tbM4 xt4 i) (wordAt c tbM5 xt5 i)

private theorem off3_zero : ∀ a : Fin 3, (![0, 0, 0] : Fin 3 → ℕ) a = 0 := by decide

abbrev rAll : Rect S1x1x2048 := Rect.unit (s := S1x1x2048) ![0, 0, 0] S1x1x2048.size inb_S1x1x2048_S1x1x2048_0_0_0

-- The whole block's rectangle places every index at itself.
private theorem emb0 (y : S1x1x2048.Idx) : rAll.emb y = y :=
  funext fun a => Fin.ext (by
    show (![0, 0, 0] : Fin 3 → ℕ) a + 1 * (y a).val = (y a).val
    rw [off3_zero a, Nat.zero_add, Nat.one_mul])

-- A store of the whole block, made last, leaves its payload.
theorem read_store_whole {κ : Kind} {sp : Space} (v : View sig κ sp S1x1x2048 .i32) (f : v.ty.Contents (Elt F))
    (w : S1x1x2048.Idx → Elt F .i32) (L : List (View.Piece (Elt F) S1x1x2048 .i32)) :
    v.read (Elt F) (v.writes (Elt F) f (⟨rAll, w⟩ :: L)) = w :=
  funext fun y => by
    have h := View.read_writes_cons_emb v f rAll w L y
    rwa [emb0] at h

-- A load of the whole block of a whole memref holding X reads X.
theorem load_whole (m : Memref sig .tc .vmem S1x1x2048 .i32) (h : m.IsWhole) (X : Vec F S1x1x2048 .i32) :
    View.readAt (Elt F) m.view rAll.toLoadRect (h.unread X) = X := by
  funext x
  rw [View.readAt_apply, h.read_unread]
  exact congrArg X (emb0 x)

section Body
variable (c : Dev nD) (i : grid4.Coords) (a7 a8 a9 : Memref sig .tc .vmem S1x1x2048 .i32) (x0 x1 : Vec F S1x1x2048 .i32)
  (xt0 : TbBuf (F := F) c tbM0) (xt1 : TbBuf (F := F) c tbM1) (xt2 : TbBuf (F := F) c tbM2)
  (xt3 : TbBuf (F := F) c tbM3) (xt4 : TbBuf (F := F) c tbM4) (xt5 : TbBuf (F := F) c tbM5)

-- What the body holds: the two inputs at their blocks, the output at xo, the six tables.
abbrev held (xo : Vec F S1x1x2048 .i32) : sProp 𝕄 :=
  iprop(owns (c : Thread nD τ) a7 fullShare x0 ∗ owns (c : Thread nD τ) a8 fullShare x1 ∗ owns (c : Thread nD τ) a9 fullShare xo
    ∗ tbPt c tbM0 xt0 ∗ tbPt c tbM1 xt1 ∗ tbPt c tbM2 xt2 ∗ tbPt c tbM3 xt3 ∗ tbPt c tbM4 xt4 ∗ tbPt c tbM5 xt5)

abbrev run (h7 : a7.IsWhole) (h8 : a8.IsWhole) (h9 : a9.IsWhole) : Prog (TpuEff nD τ sig (Elt F) Λ₀ .tc) PUnit :=
  cc4_kernel i tbM0 (Memref.isWhole_whole _) tbM1 (Memref.isWhole_whole _) tbM2 (Memref.isWhole_whole _)
    tbM3 (Memref.isWhole_whole _) tbM4 (Memref.isWhole_whole _) tbM5 (Memref.isWhole_whole _) a7 h7 a8 h8 a9 h9

variable (h7 : a7.IsWhole) (h8 : a8.IsWhole) (h9 : a9.IsWhole) (xo : Vec F S1x1x2048 .i32) (E : Set ℕ)

set_option maxHeartbeats 1000000 in
-- At a reset point the body leaves the gate row added to the zero block, whatever the output held; elsewhere added to what it held.
theorem kernel_run (out : Vec F S1x1x2048 .i32)
    (h : cond4 i ∧ out = k4_pay1 (F := F) (rowOf c i x0 x1 xt2 xt3 xt4 xt5) k4_pay2
      ∨ ¬cond4 i ∧ out = k4_pay1 (rowOf c i x0 x1 xt2 xt3 xt4 xt5) xo) (K : PUnit → sProp 𝕄) :
    iprop(held c a7 a8 a9 x0 x1 xt0 xt1 xt2 xt3 xt4 xt5 xo ∗ (held c a7 a8 a9 x0 x1 xt0 xt1 xt2 xt3 xt4 xt5 out -∗ K ⟨⟩))
      ⊢ wp frame (wpE (defs₀ (F := F)) Variants.none c none) E (run i a7 a8 a9 h7 h8 h9) K := by
  unfold held run
  simp only [cc4_kernel_eq_skeleton]; unfold cc4_kernel_skel
  simp only [k4_part1_eq_skeleton]; unfold k4_part1_skel
  unfold owns
  iintro ⟨⟨⟨%f0, %hf0, H0⟩, ⟨%f1, %hf1, H1⟩, ⟨%f2, %hf2, H2⟩, HT0, HT1, HT2, HT3, HT4, HT5⟩, Hk⟩
  obtain rfl := h7.eq_unread hf0; obtain rfl := h8.eq_unread hf1
  obtain ⟨hc, rfl⟩ | ⟨hc, rfl⟩ := h
  on_goal 2 => obtain rfl := h9.eq_unread hf2
  all_goals
    sl_exec (disch := exact hc)
    sl_step
    iapply Hk
    iframe HT0 HT1 HT2 HT3 HT4 HT5
    isplitl [H0]
    · iexists _; isplitr; · ipureintro; exact h7.read_unread _
      iexact H0
    isplitl [H1]
    · iexists _; isplitr; · ipureintro; exact h8.read_unread _
      iexact H1
    iexists _; isplitr
    swap; · iexact H2
    ipureintro
    rw [read_store_whole]
    sl_unfold_run_names
    first | rw [View.readCov_cons_toLoadRect, load_whole, load_whole] | rw [load_whole, load_whole, load_whole]
    rfl

end Body

def tbl : pre4.Contents (Elt F) := fun j => V (0 : Dev nD) (pre4.ref j)
-- There is one device.
theorem V_pre (c : Dev nD) (j : Fin 6) : V c (pre4.ref j) = tbl V j := by
  obtain rfl : c = 0 := Subsingleton.elim _ _; rfl
abbrev Ok : Prop := ok4 (F := F) (tbl V)
abbrev adm (hO : Ok V) : (pcfg4 (F := F)).Adm := ⟨tbl V, hO⟩
abbrev cfgM (hO : Ok V) : Pipeline.Cfg sig Λ₀ := cfg4 (adm V hO)

variable (hO : Ok V) (c : Dev nD)

def iblk (w : Fin (cfgM V hO).W) (t : Fin (cfgM V hO).N) : (((cfgM V hO).win w).xblock ((cfgM V hO).grid.coords t)).Idx → Elt F ((cfgM V hO).win w).elt :=
  (((cfgM V hO).win w).blk t).view.read (Elt F) (V c (Pipeline.arrRef spec4 w))

variable (t : Fin (cfgM V hO).N)

abbrev ms_0 : Memref sig .tc .vmem S1x1x2048 .i32 := spec4_0.stage ((cfgM V hO).slots t 0)
abbrev hs_0 : (ms_0 V hO t).IsWhole := hstage4_0 (((cfgM V hO).slots t 0).cast nbuf4_0)
abbrev ms_1 : Memref sig .tc .vmem S1x1x2048 .i32 := spec4_1.stage ((cfgM V hO).slots t 1)
abbrev hs_1 : (ms_1 V hO t).IsWhole := hstage4_1 (((cfgM V hO).slots t 1).cast nbuf4_1)
abbrev ms_2 : Memref sig .tc .vmem S1x1x2048 .i32 := spec4_2.stage ((cfgM V hO).slots t 2)
abbrev hs_2 : (ms_2 V hO t).IsWhole := hstage4_2 (((cfgM V hO).slots t 2).cast nbuf4_2)

abbrev tabs : sProp 𝕄 := Pipeline.prefHeld (Ix := Unit) (Name := ℕ) (U := UR sig nD τ) (Lvl := ℕ) pre4 c (fun _ => fullShare) (tbl V)

-- The tables the region hands the body, table by table.
theorem PhiT_eq :
    tabs V c
      = iprop(tbPt c tbM0 (tbl V 0) ∗ tbPt c tbM1 (tbl V 1) ∗ tbPt c tbM2 (tbl V 2) ∗ tbPt c tbM3 (tbl V 3)
          ∗ tbPt c tbM4 (tbl V 4) ∗ tbPt c tbM5 (tbl V 5)) := by
  unfold tabs Pipeline.prefHeld
  rw [bigSep_univ_eq_bigSepL [(0 : Fin 6), 1, 2, 3, 4, 5] (by decide) (by decide)]
  rfl

section Schedule
variable (a : (pcfg4 (F := F)).Adm)

theorem N_a : (cfg4 a).N = 16000 := N_4

-- The output's block index at point t is t / 1600.
theorem index_2 (t : Fin (cfg4 a).N) : ((cfg4 a).win 2).index t = ![t.val / 1600, 0, 0] := by
  have := t_lt t
  show cc4_transform_2 (grid4.coords t) = _
  rw [transform_2_eq, toNat_fdivW _ (by rw [toNat_coord]; omega), toNat_coord]

theorem flush_2 (t : Fin (cfg4 a).N) : ((cfg4 a).win 2).flush t = true ↔ (t.val + 1) % 1600 = 0 := by
  have hN : t.val < 16000 := lt_of_lt_of_eq t.isLt (N_a a)
  have hG : (cfg4 a).grid.N = 16000 := N_a a
  unfold Window.flush
  rw [show ((cfg4 a).win 2).isOut = true from rfl, Bool.true_and, Bool.or_eq_true, decide_eq_true_eq, decide_eq_true_eq]
  constructor
  · rintro (h | ⟨h, hne⟩)
    · omega
    · rw [index_2, index_2] at hne
      have : (t.val + 1) / 1600 ≠ t.val / 1600 := fun e => hne (by show ![_, _, _] = ![_, _, _]; rw [e])
      omega
  · intro h
    by_cases hl : t.val + 1 = 16000
    · exact .inl (by omega)
    · refine .inr ⟨by omega, fun e => ?_⟩
      rw [index_2, index_2] at e
      have : (t.val + 1) / 1600 = t.val / 1600 := congrFun e 0
      omega

end Schedule

def row : Vec F S1x1x2048 .i32 :=
  rowOf c (grid4.coords t) (iblk V hO c 0 t) (iblk V hO c 1 t) (tbl V 2) (tbl V 3) (tbl V 4) (tbl V 5)

-- The running sum: the gate row added to the zero block at the first point of a group of 1600, to what the point before left elsewhere.
def acc : (n : ℕ) → (hn : n < (cfgM V hO).N) → Vec F S1x1x2048 .i32
  | 0, hn => k4_pay1 (F := F) (row V hO c ⟨0, hn⟩) k4_pay2
  | n + 1, hn =>
    if (n + 1) % 1600 = 0 then k4_pay1 (F := F) (row V hO c ⟨n + 1, hn⟩) k4_pay2
    else k4_pay1 (row V hO c ⟨n + 1, hn⟩) (acc n (Nat.lt_of_succ_lt hn))

theorem acc_zero_mod (n : ℕ) (hn : n < (cfgM V hO).N) (h : n % 1600 = 0) :
    acc V hO c n hn = k4_pay1 (F := F) (row V hO c ⟨n, hn⟩) k4_pay2 := by
  cases n with
  | zero => rfl
  | succ n => exact (if_pos h).trans rfl

theorem acc_succ (n : ℕ) (hn : n < (cfgM V hO).N) (h : n % 1600 ≠ 0) :
    acc V hO c n hn = k4_pay1 (row V hO c ⟨n, hn⟩) (acc V hO c (n - 1) (Nat.lt_of_le_of_lt (Nat.sub_le _ _) hn)) := by
  cases n with
  | zero => exact absurd (Nat.zero_mod _) h
  | succ n => exact (if_neg h).trans rfl

def dat : Dat τ (Elt F) Unit ℕ (UR sig nD τ) ℕ (cfgM V hO) c where
  A w := V c (Pipeline.arrRef spec4 w)
  after w t := match w with
    | ⟨0, _⟩ => iblk V hO c 0 t
    | ⟨1, _⟩ => iblk V hO c 1 t
    | ⟨2, _⟩ => acc V hO c t.val t.isLt
  Φ _ := iprop(Pipeline.ΦA spec4 c ∗ Pipeline.prefHeld (Ix := Unit) (Name := ℕ) (U := UR sig nD τ) (Lvl := ℕ) pre4 c (fun _ => fullShare) (tbl V))
  q := fun | ⟨0, _⟩ => fullShare.left | ⟨1, _⟩ => fullShare.right | _ => fullShare
  owed _ := 0

theorem A_eq (w : Fin (cfgM V hO).W) : (dat V hO c).A w = V c (Pipeline.arrRef spec4 w) := rfl

theorem after_2 : (dat V hO c).after 2 t = acc V hO c t.val t.isLt := rfl

theorem before_0 (d) : (dat V hO c).before 0 t d = iblk V hO c 0 t :=
  (dat V hO c).before_in_eq_fetched 0 rfl (fun _ => rfl) (fun _ _ _ => rfl) (fun _ => rfl) t d
theorem before_1 (d) : (dat V hO c).before 1 t d = iblk V hO c 1 t :=
  (dat V hO c).before_in_eq_fetched 1 rfl (fun _ => rfl) (fun _ _ _ => rfl) (fun _ => rfl) t d

-- Away from a group's first point the running sum carries over from the point before.
theorem before_2_acc (h : t.val % 1600 ≠ 0) (d) :
    (dat V hO c).before 2 t d = acc V hO c (t.val - 1) (Nat.lt_of_le_of_lt (Nat.sub_le _ _) t.isLt) := by
  have ht : t.val ≠ 0 := fun e => h (by rw [e])
  rw [Dat.before_out_kept _ 2 rfl t ht
    (Bool.eq_false_iff.mpr fun hf => by have := (flush_2 (adm V hO) _).mp hf; dsimp only at this; omega)
    (fun _ => rfl) (fun _ _ => rfl)]
  exact after_2 V hO c _

abbrev bodyAt : Prog (TpuEff nD τ sig (Elt F) Λ₀ .tc) PUnit :=
  run (grid4.coords t) (ms_0 V hO t) (ms_1 V hO t) (ms_2 V hO t) (hs_0 V hO t) (hs_1 V hO t) (hs_2 V hO t)

-- At a group's first point the body starts the sum afresh; elsewhere it adds to the sum so far.
theorem sound_body :
    iprop((Pipeline.ΦA spec4 c ∗ tabs V c) ∗ (dat V hO c).owesAt () t.castSucc
      ∗ (∃ d, owns (c : Thread nD τ) (ms_0 V hO t) fullShare ((dat V hO c).before 0 t d))
      ∗ (∃ d, owns (c : Thread nD τ) (ms_1 V hO t) fullShare ((dat V hO c).before 1 t d))
      ∗ (∃ d, owns (c : Thread nD τ) (ms_2 V hO t) fullShare ((dat V hO c).before 2 t d)))
      ⊢ wp frame (wpE (defs₀ (F := F)) Variants.none c none) Set.univ (bodyAt V hO t)
        (fun _ => iprop((Pipeline.ΦA spec4 c ∗ tabs V c) ∗ (dat V hO c).owesAt () t.castSucc
          ∗ owns (c : Thread nD τ) (ms_0 V hO t) fullShare (iblk V hO c 0 t)
          ∗ owns (c : Thread nD τ) (ms_1 V hO t) fullShare (iblk V hO c 1 t)
          ∗ owns (c : Thread nD τ) (ms_2 V hO t) fullShare (acc V hO c t.val t.isLt))) := by
  simp only [before_0, before_1]
  rw [PhiT_eq]
  iintro ⟨⟨HΦ, HT0, HT1, HT2, HT3, HT4, HT5⟩, Ho, ⟨%d0, H0⟩, ⟨%d1, H1⟩, ⟨%d2, H2⟩⟩
  have h : cond4 (grid4.coords t) ∧ acc V hO c t.val t.isLt = k4_pay1 (F := F) (row V hO c t) k4_pay2
      ∨ ¬cond4 (grid4.coords t) ∧ acc V hO c t.val t.isLt = k4_pay1 (row V hO c t) ((dat V hO c).before 2 t d2) := by
    by_cases h0 : t.val % 1600 = 0
    · exact .inl ⟨(hcond4 t).mpr h0, acc_zero_mod V hO c _ _ h0⟩
    · exact .inr ⟨mt (hcond4 t).mp h0, by rw [before_2_acc V hO c t h0]; exact acc_succ V hO c _ _ h0⟩
  iapply (kernel_run c (grid4.coords t) _ _ _ (iblk V hO c 0 t) (iblk V hO c 1 t) (tbl V 0) (tbl V 1) (tbl V 2) (tbl V 3) (tbl V 4) (tbl V 5)
    (hs_0 V hO t) (hs_1 V hO t) (hs_2 V hO t) _ Set.univ _ h)
  unfold held
  iframe H0 H1 H2 HT0 HT1 HT2 HT3 HT4 HT5
  iintro ⟨H0, H1, H2, HT0, HT1, HT2, HT3, HT4, HT5⟩
  iframe

theorem body_obligation : BodyObligation (dat (F := F) V hO c) (defs₀ (F := F)) Variants.none () Set.univ := fun t => by
  rw [bigSep_W4, bigSep_W4]
  exact sound_body V hO c t

end Cert.KernelIdeal.R4

end
-- ==== Proof.KI.S4.lean ====
import proofs.«401413_j6932077216080_2_alg».proof.Proof.Gen.KernelIdeal.Launch
import proofs.«401413_j6932077216080_2_alg».proof.Proof.KI.R4

noncomputable section

namespace Cert.KernelIdeal.R4

open Gen Idealize.ShloMosaic Idealize.ShloMosaic.TcCoe Idealize.SL.RA Idealize.SL.BI Idealize.SL.BI.BIBase Idealize.SL.ProofMode

variable {F : FTy → Type} [FloatOps F]

local notation "𝕄" => MT nD τ sig Unit (Elt F) ℕ (UR sig nD τ) ℕ

variable (W : Dev nD → Valuation τ sig (Elt F))

-- A valuation read at the core's references.
abbrev VW : (c : Dev nD) → (b : Ref sig .tc) → Buf (Elt F) ((c : Thread nD τ).loc b) := fun c b => W c b

variable (hO : Ok (VW W)) (c : Dev nD)

-- The resources a core carries from one region to the next beside its buffers.
abbrev Rst : sProp 𝕄 :=
  iprop((∃ r, prngReg c r) ∗ ∃ Wd, owes (c : Thread nD τ) 0 Wd)

-- The six tables, held whole at contents `T`.
abbrev Tb (T : pre4.Contents (Elt F)) : sProp 𝕄 := Pipeline.prefHeld pre4 c (fun _ => fullShare) T

-- The unscoped buffers that are neither a window's array nor a table, at contents `B`.
abbrev Rs (B : (b : Ref sig .tc) → Buf (Elt F) ((c : Thread nD τ).loc b)) : sProp 𝕄 := Pipeline.unscopedRestP pre4 spec4 c B

-- The index set splits into the two arrays, the tables and the rest, and the conjunction with it.
theorem bufs_eq (B T) (hT : ∀ k, B (pre4.ref k) = T k) :
    (unscopedBufs c B : sProp 𝕄)
      = iprop(((((c : Thread nD τ).loc main_v52) ↦{fullShare} B main_v52) ∗ (((c : Thread nD τ).loc main_v67) ↦{fullShare} B main_v67))
          ∗ Tb c T ∗ Rs c B) := by
  obtain rfl := funext hT
  rw [← Pipeline.unscopedRest_split preFacts4 c B]
  unfold unscopedBufs Pipeline.unscopedRest
  rw [bigSep_sdiff_split (by decide : Finset.univ.image (Pipeline.arrRef spec4) ⊆ _),
    show Finset.univ.image (Pipeline.arrRef spec4) = ({main_v52, main_v67} : Finset (Ref sig .tc)) by decide, bigSep_insert (by decide), bigSep_singleton]
  rfl

-- A conjunction over three windows, each over the whole of its array.
theorem arrays_eq (G) :
    ((dat (VW W) hO c).arrays G : sProp 𝕄)
      = iprop((((c : Thread nD τ).loc main_v52) ↦{fullShare.left} G 0) ∗ (((c : Thread nD τ).loc main_v52) ↦{fullShare.right} G 1)
          ∗ (((c : Thread nD τ).loc main_v67) ↦{fullShare} G 2)) := by
  unfold Pipeline.Dat.arrays
  rw [bigSep_W4, (arr_whole4 0).set_eq_univ, (arr_whole4 2).set_eq_univ]
  rfl

-- The buffers held at `W`, split, are the region's precondition.
theorem entry :
    iprop(StableHlo.held (c : Thread nD τ) (Pipeline.ucRefs τ sig) (W c) ∗ Rst c)
      ⊢ |={Set.univ}=> iprop((dat (VW W) hO c).arrays ((dat (VW W) hO c).arrAt · 0) ∗ Tb c (tbl (VW W))
          ∗ (dat (VW W) hO c).owesAt () 0 ∗ (∃ r, prngReg c r) ∗ Rs c (VW W c)) := by
  rw [← Pipeline.unscopedBufs_held c (W c), bufs_eq c _ _ (V_pre (VW W) c), arrays_eq]
  iintro ⟨⟨⟨⟨Hl, Hr⟩, Hout⟩, Ht, Hrest⟩, Hp, %Wd, HO⟩
  imodintro
  isplitl [Hl Hr Hout]
  · isplitl [Hl]; · iexact Hl
    isplitl [Hr]; · iexact Hr
    iexact Hout
  iframe
  iexists Wd; isplitr; · ipureintro; exact fun _ _ => .inl trivial
  iexact HO

theorem hin :
    iprop((∃ r, prngReg c r) ∗ Tb c (tbl (VW W)) ∗ Pipeline.scopedRest spec4 c) ⊢ (dat (VW W) hO c).Φ 0 := by
  change _ ⊢ iprop((_ ∗ _) ∗ _)
  iintro ⟨Hp, Ht, Hr⟩
  iframe

theorem hout :
    (dat (VW W) hO c).Φ (Fin.last (cfgM (VW W) hO).N)
      ⊢ iprop(((∃ r, prngReg c r) ∗ Tb c (tbl (VW W))) ∗ Pipeline.scopedRest spec4 c) := by
  change iprop((_ ∗ _) ∗ _) ⊢ _
  iintro ⟨⟨Hr, Hp⟩, Ht⟩
  iframe

-- Off the output array `W'` is `W`, so the region's postcondition reassembles into the buffers held at `W'`.
theorem exit (W' : Valuation τ sig (Elt F))
    (hout' : W' main_v67 = (dat (VW W) hO c).arrAt 2 (cfgM (VW W) hO).N)
    (hrest : ∀ b : Ref sig .tc, b ≠ main_v67 → W' b = W c b) :
    iprop((dat (VW W) hO c).arrays ((dat (VW W) hO c).arrAt · (cfgM (VW W) hO).N) ∗ (dat (VW W) hO c).owesAt () (Fin.last (cfgM (VW W) hO).N)
        ∗ ((∃ r, prngReg c r) ∗ Tb c (tbl (VW W))) ∗ Rs c (VW W c))
      ⊢ |={Set.univ}=> iprop(StableHlo.held (c : Thread nD τ) (Pipeline.ucRefs τ sig) W' ∗ Rst c) := by
  have ei := (hrest main_v52 (by decide)).symm
  have er : (Rs c (VW W c) : sProp 𝕄) = Rs c fun b => W' b :=
    bigSep_congr fun b hb => by simp only [hrest b fun e => absurd (e ▸ hb) (by decide)]
  rw [← Pipeline.unscopedBufs_held c W', bufs_eq c _ _ fun k => (hrest _ (preFacts4.disj k 2)).trans (V_pre (VW W) c k), arrays_eq,
    ((dat (VW W) hO c).arrAt_in 0 rfl _).trans ei, ((dat (VW W) hO c).arrAt_in 1 rfl _).trans ei, ← hout', er]
  unfold Rst
  iintro ⟨⟨Hl, Hr, Hout⟩, ⟨%Wd, -, HO⟩, ⟨Hp, Ht⟩, Hrest⟩
  imodintro
  icombine Hl Hr as Hin
  iframe
  iexists Wd; iexact HO

end Cert.KernelIdeal.R4

end
-- ==== Proof.KI.Run.lean ====
import proofs.«401413_j6932077216080_2_alg».proof.Proof.KI.R0
import proofs.«401413_j6932077216080_2_alg».proof.Proof.KI.S1
import proofs.«401413_j6932077216080_2_alg».proof.Proof.KI.S2
import proofs.«401413_j6932077216080_2_alg».proof.Proof.KI.S3
import proofs.«401413_j6932077216080_2_alg».proof.Proof.KI.S4
import proofs.«401413_j6932077216080_2_alg».proof.Proof.KI.RunCond

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg)

variable {F : FTy → Type} [FloatOps F]

local notation "𝕄" => MT nD τ sig Unit (Elt F) ℕ (UR sig nD τ) ℕ

variable (m : (ℓ : Loc nD τ sig) → Buf (Elt F) ℓ)

abbrev rd (W : Dev nD → Valuation τ sig (Elt F)) : (c : Dev nD) → (b : Ref sig .tc) → Buf (Elt F) ((c : Thread nD τ).loc b) := fun c b => W c b

abbrev X0 : Dev nD → Valuation τ sig (Elt F) := fun c => V0 m c
def o1 (c : Dev nD) : Buf (Elt F) ((c : Thread nD τ).loc main_v0) := (R0.dat (rd (X0 m)) c).arrAt 1 cfg0.N
def X1 (c : Dev nD) : Valuation τ sig (Elt F) := Function.update (X0 m c) main_v0 (o1 m c)
abbrev X2 (c : Dev nD) : Valuation τ sig (Elt F) := StableHlo.after hostOps1 (X1 m c)

variable (h1 : R1.Ok (R1.VW (X2 m)))
def o3 (c : Dev nD) : Buf (Elt F) ((c : Thread nD τ).loc main_v16) :=
  (R1.dat (R1.VW (X2 m)) h1 c).arrAt 2 (R1.cfgM (R1.VW (X2 m)) h1).N
def X3 (c : Dev nD) : Valuation τ sig (Elt F) := Function.update (X2 m c) main_v16 (o3 m h1 c)
abbrev X4 (c : Dev nD) : Valuation τ sig (Elt F) := StableHlo.after hostOps2 (X3 m h1 c)

variable (h2 : R2.Ok (R2.VW (X4 m h1)))
def o5 (c : Dev nD) : Buf (Elt F) ((c : Thread nD τ).loc main_v33) :=
  (R2.dat (R2.VW (X4 m h1)) h2 c).arrAt 2 (R2.cfgM (R2.VW (X4 m h1)) h2).N
def X5 (c : Dev nD) : Valuation τ sig (Elt F) := Function.update (X4 m h1 c) main_v33 (o5 m h1 h2 c)
abbrev X6 (c : Dev nD) : Valuation τ sig (Elt F) := StableHlo.after hostOps3 (X5 m h1 h2 c)

variable (h3 : R3.Ok (R3.VW (X6 m h1 h2)))
def o7 (c : Dev nD) : Buf (Elt F) ((c : Thread nD τ).loc main_v50) :=
  (R3.dat (R3.VW (X6 m h1 h2)) h3 c).arrAt 2 (R3.cfgM (R3.VW (X6 m h1 h2)) h3).N
def X7 (c : Dev nD) : Valuation τ sig (Elt F) := Function.update (X6 m h1 h2 c) main_v50 (o7 m h1 h2 h3 c)
abbrev X8 (c : Dev nD) : Valuation τ sig (Elt F) := StableHlo.after hostOps4 (X7 m h1 h2 h3 c)

variable (h4 : R4.Ok (R4.VW (X8 m h1 h2 h3)))
def o9 (c : Dev nD) : Buf (Elt F) ((c : Thread nD τ).loc main_v67) :=
  (R4.dat (R4.VW (X8 m h1 h2 h3)) h4 c).arrAt 2 (R4.cfgM (R4.VW (X8 m h1 h2 h3)) h4).N
def X9 (c : Dev nD) : Valuation τ sig (Elt F) := Function.update (X8 m h1 h2 h3 c) main_v67 (o9 m h1 h2 h3 h4 c)
abbrev X10 (c : Dev nD) : Valuation τ sig (Elt F) := StableHlo.after hostOps5 (X9 m h1 h2 h3 h4 c)

def outs : Outs (F := F) := fun J r c => match J with
  | 1 => X1 m c r
  | 3 => X3 m h1 c r
  | 5 => X5 m h1 h2 c r
  | 7 => X7 m h1 h2 h3 c r
  | 9 => X9 m h1 h2 h3 h4 c r
  | _ => X0 m c r

theorem V1_eq (c : Dev nD) : V1 m (outs m h1 h2 h3 h4) c = X1 m c := by
  show Function.update (X0 m c) main_v0 (Function.update (X0 m c) main_v0 (o1 m c) main_v0) = _
  rw [Function.update_self]; rfl
theorem V2_eq (c : Dev nD) : V2 m (outs m h1 h2 h3 h4) c = X2 m c :=
  congrArg (StableHlo.after hostOps1) (V1_eq m h1 h2 h3 h4 c)
theorem V3_eq (c : Dev nD) : V3 m (outs m h1 h2 h3 h4) c = X3 m h1 c := by
  show Function.update (V2 m (outs m h1 h2 h3 h4) c) main_v16 (Function.update (X2 m c) main_v16 (o3 m h1 c) main_v16) = _
  rw [V2_eq, Function.update_self]; rfl
theorem V4_eq (c : Dev nD) : V4 m (outs m h1 h2 h3 h4) c = X4 m h1 c :=
  congrArg (StableHlo.after hostOps2) (V3_eq m h1 h2 h3 h4 c)
theorem V5_eq (c : Dev nD) : V5 m (outs m h1 h2 h3 h4) c = X5 m h1 h2 c := by
  show Function.update (V4 m (outs m h1 h2 h3 h4) c) main_v33 (Function.update (X4 m h1 c) main_v33 (o5 m h1 h2 c) main_v33) = _
  rw [V4_eq, Function.update_self]; rfl
theorem V6_eq (c : Dev nD) : V6 m (outs m h1 h2 h3 h4) c = X6 m h1 h2 c :=
  congrArg (StableHlo.after hostOps3) (V5_eq m h1 h2 h3 h4 c)
theorem V7_eq (c : Dev nD) : V7 m (outs m h1 h2 h3 h4) c = X7 m h1 h2 h3 c := by
  show Function.update (V6 m (outs m h1 h2 h3 h4) c) main_v50 (Function.update (X6 m h1 h2 c) main_v50 (o7 m h1 h2 h3 c) main_v50) = _
  rw [V6_eq, Function.update_self]; rfl
theorem V8_eq (c : Dev nD) : V8 m (outs m h1 h2 h3 h4) c = X8 m h1 h2 h3 c :=
  congrArg (StableHlo.after hostOps4) (V7_eq m h1 h2 h3 h4 c)
theorem V9_eq (c : Dev nD) : V9 m (outs m h1 h2 h3 h4) c = X9 m h1 h2 h3 h4 c := by
  show Function.update (V8 m (outs m h1 h2 h3 h4) c) main_v67 (Function.update (X8 m h1 h2 h3 c) main_v67 (o9 m h1 h2 h3 h4 c) main_v67) = _
  rw [V8_eq, Function.update_self]; rfl
theorem V10_eq (c : Dev nD) : V10 m (outs m h1 h2 h3 h4) c = X10 m h1 h2 h3 h4 c :=
  congrArg (StableHlo.after hostOps5) (V9_eq m h1 h2 h3 h4 c)

def adms : (p : Fin 5) → (pcfgs (F := F) p).Adm
  | ⟨0, _⟩ => cfg0.toPCfg_adm
  | ⟨1, _⟩ => R1.adm (R1.VW (X2 m)) h1
  | ⟨2, _⟩ => R2.adm (R2.VW (X4 m h1)) h2
  | ⟨3, _⟩ => R3.adm (R3.VW (X6 m h1 h2)) h3
  | ⟨4, _⟩ => R4.adm (R4.VW (X8 m h1 h2 h3)) h4
  | ⟨_ + 5, h⟩ => absurd h (Nat.not_lt.2 (Nat.le_add_left _ _))

def pdats : (p : Fin 5) → (c : Dev nD) → Dat τ (Elt F) Unit ℕ (UR sig nD τ) ℕ (Pipeline.pin (pcfgs (F := F)) (adms m h1 h2 h3 h4) p) c
  | ⟨0, _⟩ => R0.dat (rd (X0 m))
  | ⟨1, _⟩ => R1.dat (R1.VW (X2 m)) h1
  | ⟨2, _⟩ => R2.dat (R2.VW (X4 m h1)) h2
  | ⟨3, _⟩ => R3.dat (R3.VW (X6 m h1 h2)) h3
  | ⟨4, _⟩ => R4.dat (R4.VW (X8 m h1 h2 h3)) h4
  | ⟨_ + 5, h⟩ => absurd h (Nat.not_lt.2 (Nat.le_add_left _ _))

abbrev L : GSem nD τ sig → Finset Unit := fun _ => ∅
abbrev lv : GSem nD τ sig → Unit → ℕ := fun _ _ => 0

-- The thread state between two items: every buffer held at the valuation `W`.
abbrev heldAt (W : Dev nD → Valuation τ sig (Elt F)) (c : Dev nD) : sProp 𝕄 :=
  iprop(StableHlo.held (c : Thread nD τ) (Pipeline.ucRefs τ sig) (W c) ∗ R1.Rst c)

theorem core_init {A B C : sProp 𝕄} (c : Dev nD) (r : PrngReg) :
    iprop(A ∗ owes (c : Thread nD τ) 0 ∅ ∗ B ∗ prngReg c r ∗ C) ⊢ (R1.Rst c : sProp 𝕄) := by
  iintro ⟨-, HO, -, Hp, -⟩
  isplitl [Hp]; · iexists _; iexact Hp
  iexists ∅; iexact HO

section
set_option backward.isDefEq.respectTransparency.types false

section
variable (a : (p : Fin 5) → (pcfgs (F := F) p).Adm) (d : (p : Fin 5) → (c : Dev nD) → Dat τ (Elt F) Unit ℕ (UR sig nD τ) ℕ (Pipeline.pin (pcfgs (F := F)) a p) c) (p : Fin 5)

abbrev tabs (c : Dev nD) : sProp 𝕄 :=
  Pipeline.prefHeld (pcfgs (F := F) p).pre c (fun _ => fullShare) (a p).1

-- A region as a segment, entered at `W` and left at `W'`, from its entry, invariant and exit entailments.
def layerSeg (win : Pipeline.WinFacts₀ (pcfgs (F := F) p).spec) (bp : ∀ w, 0 < ((Pipeline.pin (pcfgs (F := F)) a p).spec w).block.numel)
    (sw : ∀ w s, (((Pipeline.pin (pcfgs (F := F)) a p).spec w).stage s).IsWhole)
    (hb : ∀ c, BodyObligation (d p c) (defs₀ (F := F)) Variants.none () Set.univ) (hw : ∀ c t, (d p c).owed t = 0)
    (W W' : Dev nD → Valuation τ sig (Elt F)) (Z : Dev nD → sProp 𝕄)
    (he : ∀ c, heldAt W c ⊢ |={Set.univ}=> iprop((d p c).arrays ((d p c).arrAt · 0) ∗ tabs a p c ∗ (d p c).owesAt () 0 ∗ (∃ r, prngReg c r) ∗ Z c))
    (hi : ∀ c, iprop((∃ r, prngReg c r) ∗ tabs a p c ∗ Pipeline.scopedRest (Pipeline.pin (pcfgs (F := F)) a p).spec c) ⊢ (d p c).Φ 0)
    (ho : ∀ c, (d p c).Φ (Fin.last _) ⊢ iprop(((∃ r, prngReg c r) ∗ tabs a p c) ∗ Pipeline.scopedRest (Pipeline.pin (pcfgs (F := F)) a p).spec c))
    (hx : ∀ c, iprop((d p c).arrays ((d p c).arrAt · (Pipeline.pin (pcfgs (F := F)) a p).N) ∗ (d p c).owesAt () (Fin.last _) ∗ ((∃ r, prngReg c r) ∗ tabs a p c) ∗ Z c)
      ⊢ |={Set.univ}=> heldAt W' c) :
    RegionSeg (pcfgs (F := F)) a d () defs₀ Variants.none L lv p where
  win := win
  block_pos := bp
  stage_whole := sw
  K := PEmpty
  osem k := k.elim
  ho := Pipeline.OwnSemFacts.none _
  hbody c := (hb c).loose
  hwaits := Pipeline.hwaits_of_owed_zero _ _ _ _ L lv p hw
  pre := heldAt W
  post := heldAt W'
  X c := iprop(∃ r, prngReg c r)
  Y c := iprop((∃ r, prngReg c r) ∗ tabs a p c)
  Z := Z
  hentry c := by rw [Pipeline.ownSems0_none]; iintro ⟨H, -, -⟩; iapply he c; iexact H
  hin := hi
  hout c := by rw [Pipeline.ownSems0_none]; refine (ho c).trans ?_; iintro ⟨HY, Hs⟩; iframe <;> iempintro
  hexit := hx

end

def reg0 : RegionSeg (pcfgs (F := F)) (adms m h1 h2 h3 h4) (pdats m h1 h2 h3 h4) () defs₀ Variants.none L lv 0 where
  win := winFacts0.to₀
  block_pos := block_pos0
  stage_whole := stage_whole0
  K := PEmpty
  osem k := k.elim
  ho := Pipeline.OwnSemFacts.none _
  hbody c := (R0.body_obligation (rd (X0 m)) c).loose
  hwaits := Pipeline.hwaits_of_owed_zero _ _ _ _ L lv 0 fun _ _ => rfl
  pre := heldAt (X0 m)
  post := heldAt (X1 m)
  X c := iprop(∃ r, prngReg c r)
  Y c := iprop(∃ r, prngReg c r)
  Z c := Pipeline.unscopedRest spec0 c (rd (X0 m) c)
  hentry c := by
    rw [Pipeline.ownSems0_none]
    have hsplit := Pipeline.arrays_of_unscopedBufs (p := 0) (pcfgs (F := F)) (adms m h1 h2 h3 h4) (pdats m h1 h2 h3 h4) winFacts0 arr_whole0 c
      ((pdats m h1 h2 h3 h4 0 c).share_full fun _ => rfl) (rd (X0 m) c) fun _ => rfl
    rw [Pipeline.unscopedBufs_held] at hsplit
    iintro ⟨⟨Hub, Hp, %W, HO⟩, -, -⟩
    ihave H := hsplit $$ Hub
    icases H with ⟨Ha, Hrest⟩
    imodintro; iframe
    isplitr; · unfold Pipeline.prefHeld; rw [show (Finset.univ : Finset (Fin 0)) = ∅ from rfl, BI.bigSep_empty]; iempintro
    unfold Pipeline.Dat.owesAt Pipeline.owesWithin
    iexists W; isplitr; · ipureintro; exact fun _ _ => Or.inl trivial
    iexact HO
  hin c := by
    rw [show (pdats m h1 h2 h3 h4 0 c).Φ 0 = Pipeline.ΦA spec0 c from rfl]; unfold Pipeline.ΦA
    iintro ⟨Hp, -, Hr⟩; iframe
  hout c := by
    rw [Pipeline.ownSems0_none, show (pdats m h1 h2 h3 h4 0 c).Φ (Fin.last _) = Pipeline.ΦA spec0 c from rfl]; unfold Pipeline.ΦA
    iintro ⟨Hr, Hp⟩; iframe <;> iempintro
  hexit c := by
    have hjoin := Pipeline.unscopedBufs_of_arrays (p := 0) (pcfgs (F := F)) (adms m h1 h2 h3 h4)
      winFacts0 arr_whole0 c (pdats m h1 h2 h3 h4) ((pdats m h1 h2 h3 h4 0 c).share_full fun _ => rfl)
      (rd (X0 m) c) (rd (X1 m) c) ((pdats m h1 h2 h3 h4 0 c).arrAt · cfg0.N)
      (fun
        | ⟨0, _⟩ => ((R0.dat (rd (X0 m)) c).arrAt_in 0 rfl _).trans ((R0.A_eq (rd (X0 m)) c 0).trans
            (Function.update_of_ne (StableHlo.devRef_ne_of_ne (by decide : (main_arg0 : Ref sig .tc) ≠ main_v0)) ..).symm)
        | ⟨1, _⟩ => by show o1 m c = Function.update (X0 m c) main_v0 (o1 m c) main_v0; rw [Function.update_self])
      (fun b hb => Function.update_of_ne (StableHlo.devRef_ne_of_ne fun e : b = main_v0 => hb (Finset.mem_image.mpr ⟨1, Finset.mem_univ _, e.symm⟩)) ..)
    rw [Pipeline.unscopedBufs_held] at hjoin
    unfold Pipeline.Dat.owesAt Pipeline.owesWithin
    iintro ⟨Ha, ⟨%W, -, HO⟩, HY, Hrest⟩
    imodintro
    isplitl [Ha Hrest]; · iapply hjoin; iframe
    isplitl [HY]; · iexact HY
    iexists W; iexact HO

def reg1 : RegionSeg (pcfgs (F := F)) (adms m h1 h2 h3 h4) (pdats m h1 h2 h3 h4) () defs₀ Variants.none L lv 1 :=
  layerSeg _ _ 1 winFacts₀1 block_pos1 stage_whole1 (R1.body_obligation _ h1) (fun _ _ => rfl) (X2 m) (X3 m h1) _
    (R1.entry (X2 m) h1) (R1.hin (X2 m) h1) (R1.hout (X2 m) h1)
    fun c => R1.exit (X2 m) h1 c (X3 m h1 c) (Function.update_self ..) fun b hb => Function.update_of_ne (StableHlo.devRef_ne_of_ne hb) ..

def reg2 : RegionSeg (pcfgs (F := F)) (adms m h1 h2 h3 h4) (pdats m h1 h2 h3 h4) () defs₀ Variants.none L lv 2 :=
  layerSeg _ _ 2 winFacts₀2 block_pos2 stage_whole2 (R2.body_obligation _ h2) (fun _ _ => rfl) (X4 m h1) (X5 m h1 h2) _
    (R2.entry (X4 m h1) h2) (R2.hin (X4 m h1) h2) (R2.hout (X4 m h1) h2)
    fun c => R2.exit (X4 m h1) h2 c (X5 m h1 h2 c) (Function.update_self ..) fun b hb => Function.update_of_ne (StableHlo.devRef_ne_of_ne hb) ..

def reg3 : RegionSeg (pcfgs (F := F)) (adms m h1 h2 h3 h4) (pdats m h1 h2 h3 h4) () defs₀ Variants.none L lv 3 :=
  layerSeg _ _ 3 winFacts₀3 block_pos3 stage_whole3 (R3.body_obligation _ h3) (fun _ _ => rfl) (X6 m h1 h2) (X7 m h1 h2 h3) _
    (R3.entry (X6 m h1 h2) h3) (R3.hin (X6 m h1 h2) h3) (R3.hout (X6 m h1 h2) h3)
    fun c => R3.exit (X6 m h1 h2) h3 c (X7 m h1 h2 h3 c) (Function.update_self ..) fun b hb => Function.update_of_ne (StableHlo.devRef_ne_of_ne hb) ..

def reg4 : RegionSeg (pcfgs (F := F)) (adms m h1 h2 h3 h4) (pdats m h1 h2 h3 h4) () defs₀ Variants.none L lv 4 :=
  layerSeg _ _ 4 winFacts₀4 block_pos4 stage_whole4 (R4.body_obligation _ h4) (fun _ _ => rfl) (X8 m h1 h2 h3) (X9 m h1 h2 h3 h4) _
    (R4.entry (X8 m h1 h2 h3) h4) (R4.hin (X8 m h1 h2 h3) h4) (R4.hout (X8 m h1 h2 h3) h4)
    fun c => R4.exit (X8 m h1 h2 h3) h4 c (X9 m h1 h2 h3 h4 c) (Function.update_self ..) fun b hb => Function.update_of_ne (StableHlo.devRef_ne_of_ne hb) ..

theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V10 m (outs m h1 h2 h3 h4) c b) :=
  run_cond m emb₁ () Variants.none L lv (fun _ _ => rfl) ρ (outs m h1 h2 h3 h4) (adms m h1 h2 h3 h4) (pdats m h1 h2 h3 h4)
    (O₀ := 0) (G := fun _ => BI.emp) (u₀ := _)
    (hu₀ := by rw [BI.bigSep_emp_const]; exact sep_emp.2.trans fupd_intro)
    (E := fun _ c => R1.Rst c)
    (hE0 := by iintro ⟨H, -⟩; imodintro; istop; exact bigSep_mono fun c _ => core_init c (ρ c))
    (hE5 := fun c => by iintro ⟨-, H⟩; iexact H)
    (reg0 m h1 h2 h3 h4) (fun c => .rfl) (fun c => by rw [V1_eq]; exact .rfl)
    (reg1 m h1 h2 h3 h4) (fun c => by rw [V2_eq]; exact .rfl) (fun c => by rw [V3_eq]; exact .rfl)
    (reg2 m h1 h2 h3 h4) (fun c => by rw [V4_eq]; exact .rfl) (fun c => by rw [V5_eq]; exact .rfl)
    (reg3 m h1 h2 h3 h4) (fun c => by rw [V6_eq]; exact .rfl) (fun c => by rw [V7_eq]; exact .rfl)
    (reg4 m h1 h2 h3 h4) (fun c => by rw [V8_eq]; exact .rfl) (fun c => by rw [V9_eq]; exact .rfl)

end

-- Every argument array holds in `m'` what the launch memory holds.
abbrev argsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)
    ∧ m' ((c.tc : Thread nD τ).loc main_arg9) = m ((c.tc : Thread nD τ).loc main_arg9)
    ∧ m' ((c.tc : Thread nD τ).loc main_arg10) = m ((c.tc : Thread nD τ).loc main_arg10)
    ∧ m' ((c.tc : Thread nD τ).loc main_arg11) = m ((c.tc : Thread nD τ).loc main_arg11)
    ∧ m' ((c.tc : Thread nD τ).loc main_arg12) = m ((c.tc : Thread nD τ).loc main_arg12)

theorem result (ρ : Dev nD → PrngReg) :
    θ_run defs (onTc (τ := τ) (main (F := F))) ⟨m, fun _ => 0, ρ⟩ (fun r => ∀ c : Dev nD,
      r.2.mem ((c.tc : Thread nD τ).loc main_v69) = X10 m h1 h2 h3 h4 c main_v69 ∧ argsKept m r.2.mem c) :=
  (θ_run defs _ _).mono (fun r h c =>
    have g (b : Ref sig .tc) (hb : ¬ (Proc.devRef .tc b : DevRef τ sig).isScoped) := h c _ (Finset.mem_filter.mpr ⟨StableHlo.devRef_mem_tcRefs b, hb⟩)
    ⟨(g main_v69 (by decide)).trans (congrFun (V10_eq m h1 h2 h3 h4 c) _),
      (g main_arg0 (by decide)).trans (V10_main_arg0 m _ c),
      (g main_arg1 (by decide)).trans (V10_main_arg1 m _ c),
      (g main_arg2 (by decide)).trans (V10_main_arg2 m _ c),
      (g main_arg3 (by decide)).trans (V10_main_arg3 m _ c),
      (g main_arg4 (by decide)).trans (V10_main_arg4 m _ c),
      (g main_arg5 (by decide)).trans (V10_main_arg5 m _ c),
      (g main_arg6 (by decide)).trans (V10_main_arg6 m _ c),
      (g main_arg7 (by decide)).trans (V10_main_arg7 m _ c),
      (g main_arg8 (by decide)).trans (V10_main_arg8 m _ c),
      (g main_arg9 (by decide)).trans (V10_main_arg9 m _ c),
      (g main_arg10 (by decide)).trans (V10_main_arg10 m _ c),
      (g main_arg11 (by decide)).trans (V10_main_arg11 m _ c),
      (g main_arg12 (by decide)).trans (V10_main_arg12 m _ c)⟩)
    (run m h1 h2 h3 h4 ρ)

include h1 h2 h3 h4 in
theorem frame (ρ : Dev nD → PrngReg) :
    θ_run defs (onTc (τ := τ) (main (F := F))) ⟨m, fun _ => 0, ρ⟩ (fun r => ∀ c : Dev nD, argsKept m r.2.mem c) :=
  (θ_run defs _ _).mono (fun _ h c => (h c).2) (result m h1 h2 h3 h4 ρ)

end Cert.KernelIdeal.Run

end
-- ==== Proof.KI.Keep.lean ====
import proofs.«401413_j6932077216080_2_alg».proof.Proof.KI.Run

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

abbrev argRefs : List (Ref sig .tc) :=
  [main_arg0, main_arg1, main_arg2, main_arg3, main_arg4, main_arg5, main_arg6, main_arg7, main_arg8, main_arg9, main_arg10, main_arg11, main_arg12]

-- The valuation holds at every argument array what the launch memory holds.
abbrev Kept (c : Dev nD) (V : Valuation τ sig (Elt F)) : Prop := ∀ r ∈ argRefs, V r = m ((c : Thread nD τ).loc r)

variable {m}

-- Kept by an update at a buffer that is no argument array,
theorem Kept.update {c : Dev nD} {V : Valuation τ sig (Elt F)} (h : Kept m c V) (a : Ref sig .tc) (ha : ∀ r ∈ argRefs, r ≠ a) (x) :
    Kept m c (Function.update V a x) := fun r hr =>
  (Function.update_of_ne (StableHlo.devRef_ne_of_ne (ha r hr)) ..).trans (h r hr)

-- and by a host stretch that writes none.
theorem Kept.after {c : Dev nD} {V : Valuation τ sig (Elt F)} (h : Kept m c V) {ops : List (HloOp τ sig (Elt F))} {W : List (Ref sig .tc)}
    (hW : ops.Forall fun op => op.writes ⊆ (W.map (Proc.devRef (τ := τ) .tc)).toFinset) (hd : ∀ r ∈ argRefs, r ∉ W) :
    Kept m c (StableHlo.after ops V) := fun r hr =>
  (StableHlo.after_of_writes_sub ops V hW (hd r hr)).trans (h r hr)

variable (m)

theorem keep1 (c : Dev nD) : Kept m c (X1 m c) := Kept.update (fun _ _ => rfl) main_v0 (by decide) _
theorem keep2 (c : Dev nD) : Kept m c (X2 m c) := (keep1 m c).after hostOps1_writes (by decide)

variable (h1 : R1.Ok (R1.VW (X2 m)))
theorem keep3 (c : Dev nD) : Kept m c (X3 m h1 c) := (keep2 m c).update main_v16 (by decide) _
theorem keep4 (c : Dev nD) : Kept m c (X4 m h1 c) := (keep3 m h1 c).after hostOps2_writes (by decide)

variable (h2 : R2.Ok (R2.VW (X4 m h1)))
theorem keep5 (c : Dev nD) : Kept m c (X5 m h1 h2 c) := (keep4 m h1 c).update main_v33 (by decide) _
theorem keep6 (c : Dev nD) : Kept m c (X6 m h1 h2 c) := (keep5 m h1 h2 c).after hostOps3_writes (by decide)

variable (h3 : R3.Ok (R3.VW (X6 m h1 h2)))
theorem keep7 (c : Dev nD) : Kept m c (X7 m h1 h2 h3 c) := (keep6 m h1 h2 c).update main_v50 (by decide) _
theorem keep8 (c : Dev nD) : Kept m c (X8 m h1 h2 h3 c) := (keep7 m h1 h2 h3 c).after hostOps4_writes (by decide)

theorem X2_main_arg1 (c : Dev nD) : X2 m c main_arg1 = m ((c : Thread nD τ).loc main_arg1) := keep2 m c _ (by decide)
theorem X2_main_arg2 (c : Dev nD) : X2 m c main_arg2 = m ((c : Thread nD τ).loc main_arg2) := keep2 m c _ (by decide)
theorem X1_main_arg3 (c : Dev nD) : X1 m c main_arg3 = m ((c : Thread nD τ).loc main_arg3) := keep1 m c _ (by decide)
theorem X4_main_arg4 (c : Dev nD) : X4 m h1 c main_arg4 = m ((c : Thread nD τ).loc main_arg4) := keep4 m h1 c _ (by decide)
theorem X4_main_arg5 (c : Dev nD) : X4 m h1 c main_arg5 = m ((c : Thread nD τ).loc main_arg5) := keep4 m h1 c _ (by decide)
theorem X3_main_arg6 (c : Dev nD) : X3 m h1 c main_arg6 = m ((c : Thread nD τ).loc main_arg6) := keep3 m h1 c _ (by decide)
theorem X6_main_arg7 (c : Dev nD) : X6 m h1 h2 c main_arg7 = m ((c : Thread nD τ).loc main_arg7) := keep6 m h1 h2 c _ (by decide)
theorem X6_main_arg8 (c : Dev nD) : X6 m h1 h2 c main_arg8 = m ((c : Thread nD τ).loc main_arg8) := keep6 m h1 h2 c _ (by decide)
theorem X5_main_arg9 (c : Dev nD) : X5 m h1 h2 c main_arg9 = m ((c : Thread nD τ).loc main_arg9) := keep5 m h1 h2 c _ (by decide)
theorem X8_main_arg10 (c : Dev nD) : X8 m h1 h2 h3 c main_arg10 = m ((c : Thread nD τ).loc main_arg10) := keep8 m h1 h2 h3 c _ (by decide)
theorem X8_main_arg11 (c : Dev nD) : X8 m h1 h2 h3 c main_arg11 = m ((c : Thread nD τ).loc main_arg11) := keep8 m h1 h2 h3 c _ (by decide)
theorem X7_main_arg12 (c : Dev nD) : X7 m h1 h2 h3 c main_arg12 = m ((c : Thread nD τ).loc main_arg12) := keep7 m h1 h2 h3 c _ (by decide)

end Cert.KernelIdeal.Run

end
-- ==== Proof.KI.Ok1.lean ====
import proofs.«401413_j6932077216080_2_alg».proof.Proof.KI.R1
import proofs.«401413_j6932077216080_2_alg».proof.Proof.Spec

namespace Cert.KernelIdeal.R1

open Cert.KernelIdeal Cert.KernelIdeal.Gen Idealize.ShloMosaic Idealize.ShloMosaic.TcCoe

variable {F : FTy → Type} [FloatOps F]
variable (V : (c : Dev nD) → (b : Ref sig .tc) → Buf (Elt F) ((c : Thread nD τ).loc b))

-- The one-row block at a row below the array's row count lies inside the array.
theorem block_inb (w : BitVec 32) (hw : w.toNat < 1024) (a : Fin 3) :
    ((![w.toNat, 0, 0] : Fin 3 → Nat) a + 1) * S1x1x2048.size a ≤ S1024x1x2048.size a := by
  fin_cases a <;> simp [S1x1x2048, S1024x1x2048] <;> omega

-- Each input window's index map names the row one word of its table holds, so in-range words name rows that exist.
theorem ok_of_range (ha : ∀ i : S16000.Idx, Cert.Spec.InRange 1024 (V (0 : Dev nD) main_arg1 i))
    (hb : ∀ i : S16000.Idx, Cert.Spec.InRange 1024 (V (0 : Dev nD) main_arg2 i)) : Ok V :=
  ⟨fun _ => ⟨block_inb _ (ha _).toNat_lt, Or.inl rfl⟩, fun _ => ⟨block_inb _ (hb _).toNat_lt, Or.inl rfl⟩⟩

end Cert.KernelIdeal.R1
-- ==== Proof.KI.Ok2.lean ====
import proofs.«401413_j6932077216080_2_alg».proof.Proof.KI.R2
import proofs.«401413_j6932077216080_2_alg».proof.Proof.Spec

namespace Cert.KernelIdeal.R2

open Cert.KernelIdeal Cert.KernelIdeal.Gen Idealize.ShloMosaic Idealize.ShloMosaic.TcCoe

variable {F : FTy → Type} [FloatOps F]
variable (V : (c : Dev nD) → (b : Ref sig .tc) → Buf (Elt F) ((c : Thread nD τ).loc b))

-- The one-row block at a row below the array's row count lies inside the array.
theorem block_inb (w : BitVec 32) (hw : w.toNat < 16000) (a : Fin 3) :
    ((![w.toNat, 0, 0] : Fin 3 → Nat) a + 1) * S1x1x2048.size a ≤ S16000x1x2048.size a := by
  fin_cases a <;> simp [S1x1x2048, S16000x1x2048] <;> omega

-- Each input window's index map names the row one word of its table holds, so in-range words name rows that exist.
theorem ok_of_range (ha : ∀ i : S16000.Idx, Cert.Spec.InRange 16000 (V (0 : Dev nD) main_arg4 i))
    (hb : ∀ i : S16000.Idx, Cert.Spec.InRange 16000 (V (0 : Dev nD) main_arg5 i)) : Ok V :=
  ⟨fun _ => ⟨block_inb _ (ha _).toNat_lt, Or.inl rfl⟩, fun _ => ⟨block_inb _ (hb _).toNat_lt, Or.inl rfl⟩⟩

end Cert.KernelIdeal.R2
-- ==== Proof.KI.Ok3.lean ====
import proofs.«401413_j6932077216080_2_alg».proof.Proof.KI.R3
import proofs.«401413_j6932077216080_2_alg».proof.Proof.Spec

namespace Cert.KernelIdeal.R3

open Cert.KernelIdeal Cert.KernelIdeal.Gen Idealize.ShloMosaic Idealize.ShloMosaic.TcCoe

variable {F : FTy → Type} [FloatOps F]
variable (V : (c : Dev nD) → (b : Ref sig .tc) → Buf (Elt F) ((c : Thread nD τ).loc b))

-- The one-row block at a row below the array's row count lies inside the array.
theorem block_inb (w : BitVec 32) (hw : w.toNat < 16000) (a : Fin 3) :
    ((![w.toNat, 0, 0] : Fin 3 → Nat) a + 1) * S1x1x2048.size a ≤ S16000x1x2048.size a := by
  fin_cases a <;> simp [S1x1x2048, S16000x1x2048] <;> omega

-- Each input window's index map names the row one word of its table holds, so in-range words name rows that exist.
theorem ok_of_range (ha : ∀ i : S16000.Idx, Cert.Spec.InRange 16000 (V (0 : Dev nD) main_arg7 i))
    (hb : ∀ i : S16000.Idx, Cert.Spec.InRange 16000 (V (0 : Dev nD) main_arg8 i)) : Ok V :=
  ⟨fun _ => ⟨block_inb _ (ha _).toNat_lt, Or.inl rfl⟩, fun _ => ⟨block_inb _ (hb _).toNat_lt, Or.inl rfl⟩⟩

end Cert.KernelIdeal.R3
-- ==== Proof.KI.Ok4.lean ====
import proofs.«401413_j6932077216080_2_alg».proof.Proof.KI.R4
import proofs.«401413_j6932077216080_2_alg».proof.Proof.Spec

namespace Cert.KernelIdeal.R4

open Cert.KernelIdeal Cert.KernelIdeal.Gen Idealize.ShloMosaic Idealize.ShloMosaic.TcCoe

variable {F : FTy → Type} [FloatOps F]
variable (V : (c : Dev nD) → (b : Ref sig .tc) → Buf (Elt F) ((c : Thread nD τ).loc b))

-- The one-row block at a row below the array's row count lies inside the array.
theorem block_inb (w : BitVec 32) (hw : w.toNat < 16000) (a : Fin 3) :
    ((![w.toNat, 0, 0] : Fin 3 → Nat) a + 1) * S1x1x2048.size a ≤ S16000x1x2048.size a := by
  fin_cases a <;> simp [S1x1x2048, S16000x1x2048] <;> omega

-- Each input window's index map names the row one word of its table holds, so in-range words name rows that exist.
theorem ok_of_range (ha : ∀ i : S16000.Idx, Cert.Spec.InRange 16000 (V (0 : Dev nD) main_arg10 i))
    (hb : ∀ i : S16000.Idx, Cert.Spec.InRange 16000 (V (0 : Dev nD) main_arg11 i)) : Ok V :=
  ⟨fun _ => ⟨block_inb _ (ha _).toNat_lt, Or.inl rfl⟩, fun _ => ⟨block_inb _ (hb _).toNat_lt, Or.inl rfl⟩⟩

end Cert.KernelIdeal.R4
-- ==== Proof.KI.OkPre.lean ====
import proofs.«401413_j6932077216080_2_alg».proof.Proof.KI.Keep
import proofs.«401413_j6932077216080_2_alg».proof.Proof.KI.Ok1
import proofs.«401413_j6932077216080_2_alg».proof.Proof.KI.Ok2
import proofs.«401413_j6932077216080_2_alg».proof.Proof.KI.Ok3
import proofs.«401413_j6932077216080_2_alg».proof.Proof.KI.Ok4
import proofs.«401413_j6932077216080_2_alg».proof.Proof.PreDecode

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

abbrev PreAt : Prop := ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) = fun _ => 1#1

theorem tables_in_range [Cert.Pre_finite_inputs.Facts] (hpre : PreAt m) (c : Dev nD) :
    (∀ i, Cert.Spec.InRange 1024 (m ((c.tc : Thread nD τ).loc main_arg1) i)) ∧ (∀ i, Cert.Spec.InRange 1024 (m ((c.tc : Thread nD τ).loc main_arg2) i))
      ∧ (∀ i, Cert.Spec.InRange 16000 (m ((c.tc : Thread nD τ).loc main_arg4) i)) ∧ (∀ i, Cert.Spec.InRange 16000 (m ((c.tc : Thread nD τ).loc main_arg5) i))
      ∧ (∀ i, Cert.Spec.InRange 16000 (m ((c.tc : Thread nD τ).loc main_arg7) i)) ∧ (∀ i, Cert.Spec.InRange 16000 (m ((c.tc : Thread nD τ).loc main_arg8) i))
      ∧ (∀ i, Cert.Spec.InRange 16000 (m ((c.tc : Thread nD τ).loc main_arg10) i)) ∧ (∀ i, Cert.Spec.InRange 16000 (m ((c.tc : Thread nD τ).loc main_arg11) i)) :=
  Cert.PreDecode.in_range _ _ _ _ _ _ _ _ _ _ _ _ _ (hpre c)

-- Range facts move along an equality of tables.
theorem inRange_of_eq {n : ℕ} {ι : Type} {f g : ι → BitVec 32} (e : f = g) (h : ∀ i, Cert.Spec.InRange n (g i)) (i : ι) :
    Cert.Spec.InRange n (f i) := e ▸ h i

-- A layer's two index tables are at its entry what the launch memory holds, and those words are in range.
theorem ok1 [Cert.Pre_finite_inputs.Facts] (hpre : PreAt m) : R1.Ok (R1.VW (X2 m)) :=
  have t := tables_in_range m hpre 0
  R1.ok_of_range _ (inRange_of_eq (X2_main_arg1 m 0) t.1) (inRange_of_eq (X2_main_arg2 m 0) t.2.1)

theorem ok2 [Cert.Pre_finite_inputs.Facts] (hpre : PreAt m) : R2.Ok (R2.VW (X4 m (ok1 m hpre))) :=
  have t := tables_in_range m hpre 0
  R2.ok_of_range _ (inRange_of_eq (X4_main_arg4 m _ 0) t.2.2.1) (inRange_of_eq (X4_main_arg5 m _ 0) t.2.2.2.1)

theorem ok3 [Cert.Pre_finite_inputs.Facts] (hpre : PreAt m) : R3.Ok (R3.VW (X6 m (ok1 m hpre) (ok2 m hpre))) :=
  have t := tables_in_range m hpre 0
  R3.ok_of_range _ (inRange_of_eq (X6_main_arg7 m _ _ 0) t.2.2.2.2.1) (inRange_of_eq (X6_main_arg8 m _ _ 0) t.2.2.2.2.2.1)

theorem ok4 [Cert.Pre_finite_inputs.Facts] (hpre : PreAt m) : R4.Ok (R4.VW (X8 m (ok1 m hpre) (ok2 m hpre) (ok3 m hpre))) :=
  have t := tables_in_range m hpre 0
  R4.ok_of_range _ (inRange_of_eq (X8_main_arg10 m _ _ _ 0) t.2.2.2.2.2.2.1) (inRange_of_eq (X8_main_arg11 m _ _ _ 0) t.2.2.2.2.2.2.2)

end Cert.KernelIdeal.Run

end
-- ==== Proof.KI.Val0.lean ====
import proofs.«401413_j6932077216080_2_alg».proof.Proof.KI.R0
import proofs.«401413_j6932077216080_2_alg».proof.Proof.Spec
import Idealize.ShloMosaic.Lib.Pipeline.Value
import Idealize.ShloMosaic.Lib.ValueIdx

noncomputable section

namespace Cert.KernelIdeal.R0

open Cert.KernelIdeal Cert.KernelIdeal.Gen
open Idealize.ShloMosaic Idealize.ShloMosaic.TcCoe
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

-- The input thresholded at 1/2 and transposed: entry (n, b) is the threshold word of the input's entry (b, n).
def thrT (X : S2048x1024.Idx → Elt Ideal .f32) : S1024x2048.Idx → BitVec 32 :=
  fun i => Cert.Spec.thr (X (ValueIdx.ix2 (n0 := 2048) (n1 := 1024) ⟨(i 1).val, (i 1).isLt⟩ ⟨(i 0).val, (i 0).isLt⟩))

theorem pay_apply (x0 : Vec Ideal S2048x128 .f32) (p : Fin 128) (q : Fin 2048) :
    k0_pay1 x0 (ValueIdx.ix2 p q) = Cert.Spec.thr (x0 (ValueIdx.ix2 q p)) := by
  unfold k0_pay1
  refine (transpose_apply _ _ _ (ValueIdx.ix2 p q) (ValueIdx.ix2 q p) ?_).trans ?_
  · intro b
    match b with
    | ⟨0, _⟩ => rfl
    | ⟨1, _⟩ => rfl
  · rfl

theorem idx_facts : ∀ t : Fin cfg0.N, win0_0.index t (0 : Fin 2) = 0 ∧ win0_0.index t (1 : Fin 2) = win0_1.index t (0 : Fin 2)
    ∧ win0_1.index t (1 : Fin 2) = 0 ∧ win0_1.index t (0 : Fin 2) ≤ 7 :=
  (by decide +kernel : ∀ t : Fin grid0.N, _)

theorem idx_onto : ∀ q0 : Fin 8, ∃ t : Fin cfg0.N, win0_1.index t = ![q0.val, 0] :=
  (by decide +kernel : ∀ q0 : Fin 8, ∃ t : Fin grid0.N, win0_1.index t = ![q0.val, 0])

-- Each point writes back its block of that one array function, because the body's payload at (p, q) reads the input block at (q, p).
theorem flushed_eq (c : Dev nD) (t : Fin cfg0.N) :
    (dat (F := Ideal) V c).flushed 1 t = ((cfg0.win 1).blk t).view.read (Elt Ideal) (thrT (V c main_arg0)) := by
  show (cfg0.win 1).cut (grid0.coords t) ((dat (F := Ideal) V c).after 1 t) = _
  rw [after_1]
  unfold out
  rw [View.canon_unit_zero hz]
  simp only [View.ld_unit_zero (S := S2048x128) hz]
  obtain ⟨e0, e1, e2, e3⟩ := idx_facts t
  funext j
  obtain ⟨p, q, rfl⟩ : ∃ (p : Fin 128) (q : Fin 2048), j = ValueIdx.ix2 p q := ⟨j 0, j 1, ValueIdx.eq_ix2 j⟩
  show k0_pay1 (iblk V c 0 t) (ValueIdx.ix2 p q) = thrT (V c main_arg0) (((cfg0.win 1).blk t).view.emb (ValueIdx.ix2 p q))
  refine (pay_apply (iblk V c 0 t) p q).trans ?_
  show Cert.Spec.thr (V c main_arg0 (((cfg0.win 0).blk t).view.emb (ValueIdx.ix2 q p))) = _
  unfold thrT
  refine congrArg (fun k => Cert.Spec.thr (V c main_arg0 k)) ?_
  funext a
  apply Fin.ext
  match a with
  | ⟨0, _⟩ =>
    show win0_0.index t (0 : Fin 2) * 2048 + 1 * q.val = win0_1.index t (1 : Fin 2) * 2048 + 1 * q.val
    omega
  | ⟨1, _⟩ =>
    show win0_0.index t (1 : Fin 2) * 128 + 1 * p.val = win0_1.index t (0 : Fin 2) * 128 + 1 * p.val
    omega

theorem mem_blk (t : Fin cfg0.N) (i : S1024x2048.Idx) :
    i ∈ ((cfg0.win 1).blk t).view.set ↔ ∀ a : Fin 2, win0_1.index t a * S128x2048.size a ≤ (i a).val ∧ (i a).val < win0_1.index t a * S128x2048.size a + S128x2048.size a := by
  show i ∈ ((View.whole main_v0).slice (win0_1.rect t)).set ↔ _
  rw [View.set_slice_whole, Rect.mem_set_unit]
  exact Iff.rfl

-- The eight row blocks tile the array: row r lies in block r / 128.
theorem covered (i : S1024x2048.Idx) : ∃ t : Fin cfg0.N, (cfg0.win 1).flush t = true ∧ i ∈ ((cfg0.win 1).blk t).view.set := by
  have hi0 : (i 0).val < 1024 := (i 0).isLt
  have hi1 : (i 1).val < 2048 := (i 1).isLt
  obtain ⟨t, ht⟩ := idx_onto ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 128 ≤ (i 0).val ∧ (i 0).val < win0_1.index t (0 : Fin 2) * 128 + 128
    omega
  | ⟨1, _⟩ =>
    show win0_1.index t (1 : Fin 2) * 2048 ≤ (i 1).val ∧ (i 1).val < win0_1.index t (1 : Fin 2) * 2048 + 2048
    omega

theorem arr_eq (c : Dev nD) : (dat (F := Ideal) V c).arrAt 1 cfg0.N = thrT (V c main_arg0) :=
  (dat (F := Ideal) V c).arrAt_eq_of_cover 1 (thrT (V c main_arg0)) (fun t _ => flushed_eq V c t) covered

theorem arr_out (c : Dev nD) (n : Fin 1024) (b : Fin 2048) :
    (dat (F := Ideal) V c).arrAt 1 cfg0.N (ValueIdx.ix2 n b) = Cert.Spec.thr (V c main_arg0 (ValueIdx.ix2 b n)) := by
  rw [arr_eq]
  rfl

end Cert.KernelIdeal.R0

end
-- ==== Proof.KI.Val1.lean ====
import proofs.«401413_j6932077216080_2_alg».proof.Proof.KI.R1
import proofs.«401413_j6932077216080_2_alg».proof.Proof.Spec
import Idealize.ShloMosaic.Lib.Pipeline.Value

noncomputable section

namespace Cert.KernelIdeal.R1

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable (V : (c : Dev nD) → (b : Ref sig .tc) → Buf (Elt Ideal) ((c : Thread nD τ).loc b))

-- Batch entry q of a one-row block.
abbrev col (q : Fin 2048) : S1x1x2048.Idx := ValueIdx.ix3 (0 : Fin 1) (0 : Fin 1) q

-- The grid point's coordinate, as an index into the tables and the rows of the output.
def gi (i : grid1.Coords) : Fin 16000 := ⟨(i 0).val, (i 0).isLt⟩

variable (a : (pcfg1 (F := Ideal)).Adm) (t : Fin (cfg1 a).N)

theorem N_eq : (cfg1 a).N = 16000 := N_1

-- On the one-axis grid a point's coordinate is its number.
theorem coords_val : (((cfg1 a).grid.coords t) 0).val = t.val := by
  show t.val / 1 % 16000 = t.val
  rw [Nat.div_one]
  exact Nat.mod_eq_of_lt ((N_eq a) ▸ t.isLt)

theorem ofNat_toNat_small (n : Nat) (h : n < 16000) : (BitVec.ofNat 32 n).toNat = n := by
  rw [BitVec.toNat_ofNat]; exact Nat.mod_eq_of_lt (by omega)

-- The output window's block index at a point starts with the point's number.
theorem index2 : ((cfg1 a).win 2).index t (0 : Fin 3) = t.val := by
  show (BitVec.ofNat 32 (((cfg1 a).grid.coords t) 0).val).toNat = t.val
  rw [coords_val, ofNat_toNat_small _ ((N_eq a) ▸ t.isLt)]

theorem flush2 : ((cfg1 a).win 2).flush t = true := by
  have ht : t.val < 16000 := (N_eq a) ▸ t.isLt
  unfold Pipeline.Window.flush
  rw [show ((cfg1 a).win 2).isOut = true from rfl, Bool.true_and, Bool.or_eq_true, decide_eq_true_eq, decide_eq_true_eq]
  by_cases h : t.val + 1 = (cfg1 a).grid.N
  · exact Or.inl h
  · have hN : (cfg1 a).grid.N = 16000 := N_1
    refine Or.inr ⟨by omega, fun e => ?_⟩
    have e0 := congrFun e (0 : Fin 3)
    rw [index2 a _, index2 a t] at e0
    simp at e0

theorem hz3 : (![0, 0, 0] : Fin 3 → Nat) = fun _ => 0 := funext fun a => by fin_cases a <;> rfl

-- The one-entry rectangle at the grid point's offset holds the table entry at the point's coordinate.
theorem unit_emb (i : grid1.Coords) (h : 0 < (Rect.unit (s := S16000) (k1_off1 i) S1.size (k1_off1_inb i)).shape.numel) :
    (Rect.unit (s := S16000) (k1_off1 i) S1.size (k1_off1_inb i)).emb (Shape.Idx.first h) = ValueIdx.ix1 (gi i) := by
  funext d
  apply Fin.ext
  match d with
  | ⟨0, _⟩ =>
    show (BitVec.ofNat 32 (i 0).val).toNat + 1 * 0 = (i 0).val
    rw [ofNat_toNat_small _ (i 0).isLt]; omega

theorem word_at (v : View sig .tc .smem S16000 .i32) (f : v.ty.Contents (Elt Ideal)) (i : grid1.Coords)
    (h : 0 < (Rect.unit (s := S16000) (k1_off1 i) S1.size (k1_off1_inb i)).toLoadRect.shape.numel) :
    View.readAt (Elt Ideal) v (Rect.unit (s := S16000) (k1_off1 i) S1.size (k1_off1_inb i)).toLoadRect f (Shape.Idx.first h)
      = v.read (Elt Ideal) f (ValueIdx.ix1 (gi i)) :=
  congrArg (v.read (Elt Ideal) f) (unit_emb i h)

-- What the body leaves in the output buffer, at a batch entry.
theorem outOn_apply (c : Dev nD) (i : grid1.Coords) (arg7 : Memref sig .tc .vmem S1x1x2048 .i32) (harg7 : arg7.IsWhole)
    (arg8 : Memref sig .tc .vmem S1x1x2048 .i32) (harg8 : arg8.IsWhole) (arg9 : Memref sig .tc .vmem S1x1x2048 .i32) (harg9 : arg9.IsWhole)
    (x0 x1 : Vec Ideal S1x1x2048 .i32)
    (t0 : TbBuf (F := Ideal) c (Memref.whole main_arg1)) (t1 : TbBuf (F := Ideal) c (Memref.whole main_arg2)) (t2 : TbBuf (F := Ideal) c (Memref.whole main_v3))
    (t3 : TbBuf (F := Ideal) c (Memref.whole main_v7)) (t4 : TbBuf (F := Ideal) c (Memref.whole main_v11)) (t5 : TbBuf (F := Ideal) c (Memref.whole main_v15))
    (q : Fin 2048) :
    outOn c i arg7 harg7 arg8 harg8 arg9 harg9 x0 x1 t0 t1 t2 t3 t4 t5 (col q)
      = Cert.Spec.sel4 (t2 (ValueIdx.ix1 (gi i))) (t3 (ValueIdx.ix1 (gi i))) (t4 (ValueIdx.ix1 (gi i))) (t5 (ValueIdx.ix1 (gi i)))
          (x0 (col q)) (x1 (col q)) := by
  unfold outOn
  rw [View.read_writes_eq_canon]
  swap; · exact View.cover_of_tiledL _ S1x1x2048.size (by sl_kernel_rfl)
  unfold kernelRun
  dsimp only
  sl_unfold_run_names
  rw [View.canon_unit_zero hz3, word_at, word_at, word_at, word_at]
  simp only [View.readAt_eq_ld, harg7.read_unread, harg8.read_unread, View.ld_unit_zero (S := S1x1x2048) hz3]
  unfold k1_pay1
  simp only [shapeCast_self]
  rfl

-- The first coordinate of an input window's block index at a grid point is the row its table word names.
theorem idx0_eq (pf : pre1.Contents (Elt Ideal)) (i : grid1.Coords) :
    cc1_transform_0 k1_off1_inb numel1_S1 pf i (0 : Fin 3) = (pf 0 (ValueIdx.ix1 (gi i)) : BitVec 32).toNat :=
  congrArg BitVec.toNat (congrArg (pf 0) (unit_emb i _))
theorem idx1_eq (pf : pre1.Contents (Elt Ideal)) (i : grid1.Coords) :
    cc1_transform_1 k1_off1_inb numel1_S1 pf i (0 : Fin 3) = (pf 1 (ValueIdx.ix1 (gi i)) : BitVec 32).toNat :=
  congrArg BitVec.toNat (congrArg (pf 1) (unit_emb i _))

-- An admissible table word names a row of the 1024-row layer.
theorem row_lt (i : grid1.Coords) :
    (a.1 0 (ValueIdx.ix1 (gi i)) : BitVec 32).toNat < 1024 ∧ (a.1 1 (ValueIdx.ix1 (gi i)) : BitVec 32).toNat < 1024 := by
  obtain ⟨h0, -⟩ := a.2.1 i
  obtain ⟨h1, -⟩ := a.2.2 i
  have e0 := h0 (0 : Fin 3)
  have e1 := h1 (0 : Fin 3)
  rw [idx0_eq] at e0
  rw [idx1_eq] at e1
  change (_ + 1) * 1 ≤ 1024 at e0
  change (_ + 1) * 1 ≤ 1024 at e1
  exact ⟨by omega, by omega⟩

-- Where the elements of the three windows' blocks at a point sit in their arrays.
theorem emb0 (q : Fin 2048) :
    (((cfg1 a).win 0).blk t).view.emb (col q)
      = ValueIdx.ix3 (Cert.Spec.row 1024 (by decide) (a.1 0 (ValueIdx.ix1 (gi ((cfg1 a).grid.coords t))))) (0 : Fin 1) q := by
  have hr := Cert.Spec.row_val_of_lt 1024 (by decide) _ (row_lt a ((cfg1 a).grid.coords t)).1
  funext d
  apply Fin.ext
  match d with
  | ⟨0, _⟩ =>
    exact (Nat.mul_one _).trans ((idx0_eq a.1 _).trans hr.symm)
  | ⟨1, _⟩ => rfl
  | ⟨2, _⟩ => show 0 * 2048 + 1 * q.val = q.val; omega

theorem emb1 (q : Fin 2048) :
    (((cfg1 a).win 1).blk t).view.emb (col q)
      = ValueIdx.ix3 (Cert.Spec.row 1024 (by decide) (a.1 1 (ValueIdx.ix1 (gi ((cfg1 a).grid.coords t))))) (0 : Fin 1) q := by
  have hr := Cert.Spec.row_val_of_lt 1024 (by decide) _ (row_lt a ((cfg1 a).grid.coords t)).2
  funext d
  apply Fin.ext
  match d with
  | ⟨0, _⟩ =>
    exact (Nat.mul_one _).trans ((idx1_eq a.1 _).trans hr.symm)
  | ⟨1, _⟩ => rfl
  | ⟨2, _⟩ => show 0 * 2048 + 1 * q.val = q.val; omega

theorem emb2 (q : Fin 2048) :
    (((cfg1 a).win 2).blk t).view.emb (col q)
      = ValueIdx.ix3 (gi ((cfg1 a).grid.coords t)) (0 : Fin 1) q := by
  funext d
  apply Fin.ext
  match d with
  | ⟨0, _⟩ =>
    exact (Nat.mul_one _).trans ((index2 a t).trans (coords_val a t).symm)
  | ⟨1, _⟩ => rfl
  | ⟨2, _⟩ => show 0 * 2048 + 1 * q.val = q.val; omega

-- Gate i at batch entry b: the selection, by the two operand bits read at the rows gate i's index words name, among its four table words.
def gate (c : Dev nD) (i : Fin 16000) (b : Fin 2048) : BitVec 32 :=
  Cert.Spec.sel4 (tbl V 2 (ValueIdx.ix1 i)) (tbl V 3 (ValueIdx.ix1 i)) (tbl V 4 (ValueIdx.ix1 i)) (tbl V 5 (ValueIdx.ix1 i))
    (V c main_v1 (ValueIdx.ix3 (Cert.Spec.row 1024 (by decide) (tbl V 0 (ValueIdx.ix1 i))) (0 : Fin 1) b))
    (V c main_v1 (ValueIdx.ix3 (Cert.Spec.row 1024 (by decide) (tbl V 1 (ValueIdx.ix1 i))) (0 : Fin 1) b))

-- The layer as one array.
def gateRows (c : Dev nD) : S16000x1x2048.Idx → BitVec 32 := fun j => gate V c ⟨(j 0).val, (j 0).isLt⟩ ⟨(j 2).val, (j 2).isLt⟩

-- Point t's block of the output is its block of the layer.
theorem flushed_eq (hO : Ok V) (c : Dev nD) (t : Fin (cfgM V hO).N) :
    (dat (F := Ideal) V hO c).flushed 2 t = (((cfgM V hO).win 2).blk t).view.read (Elt Ideal) (gateRows V c) := by
  show ((cfgM V hO).win 2).cut ((cfgM V hO).grid.coords t) ((dat (F := Ideal) V hO c).after 2 t) = _
  rw [after_2]
  refine funext fun (j : S1x1x2048.Idx) => ?_
  obtain ⟨p0, p1, q, rfl⟩ : ∃ (p0 : Fin 1) (p1 : Fin 1) (q : Fin 2048), j = ValueIdx.ix3 p0 p1 q :=
    ⟨j (0 : Fin 3), j (1 : Fin 3), j (2 : Fin 3), ValueIdx.eq_ix3 j⟩
  obtain rfl : p0 = 0 := Subsingleton.elim _ _
  obtain rfl : p1 = 0 := Subsingleton.elim _ _
  show outAt V hO c t (col q)
    = gateRows V c ((((cfgM V hO).win 2).blk t).view.emb (col q))
  rw [emb2 (adm V hO) t q]
  unfold outAt
  refine (outOn_apply c (grid1.coords t) _ _ _ _ _ _ (iblk V hO c 0 t) (iblk V hO c 1 t) (tbl V 0) (tbl V 1) (tbl V 2) (tbl V 3) (tbl V 4) (tbl V 5) q).trans ?_
  show Cert.Spec.sel4 _ _ _ _ (V c main_v1 ((((cfgM V hO).win 0).blk t).view.emb (col q)))
      (V c main_v1 ((((cfgM V hO).win 1).blk t).view.emb (col q))) = _
  rw [emb0 (adm V hO) t q, emb1 (adm V hO) t q]
  rfl

set_option backward.isDefEq.respectTransparency.types false in
-- The row blocks tile the array: row r is the block of point r.
theorem covered (i : S16000x1x2048.Idx) :
    ∃ t : Fin (cfg1 a).N, ((cfg1 a).win 2).flush t = true ∧ i ∈ (((cfg1 a).win 2).blk t).view.set := by
  have hi0 : (i 0).val < 16000 := (i 0).isLt
  have hi1 : (i 1).val < 1 := (i 1).isLt
  have hi2 : (i 2).val < 2048 := (i 2).isLt
  obtain ⟨t, ht⟩ : ∃ t : Fin (cfg1 a).N, t.val = (i 0).val := ⟨⟨(i 0).val, (N_eq a).symm ▸ hi0⟩, rfl⟩
  refine ⟨t, flush2 a t, ?_⟩
  show i ∈ ((View.whole main_v16).slice (((cfg1 a).win 2).rect t)).set
  rw [View.set_slice_whole]
  refine Rect.mem_set_unit.2 fun d => ?_
  match d with
  | ⟨0, _⟩ =>
    show ((cfg1 a).win 2).index t (0 : Fin 3) * 1 ≤ (i 0).val ∧ (i 0).val < ((cfg1 a).win 2).index t (0 : Fin 3) * 1 + 1
    rw [index2]; omega
  | ⟨1, _⟩ => show 0 * 1 ≤ (i 1).val ∧ (i 1).val < 0 * 1 + 1; omega
  | ⟨2, _⟩ => show 0 * 2048 ≤ (i 2).val ∧ (i 2).val < 0 * 2048 + 2048; omega

-- The output array after the run is the layer.
theorem arr_eq (hO : Ok V) (c : Dev nD) : (dat (F := Ideal) V hO c).arrAt 2 (cfgM V hO).N = gateRows V c :=
  (dat (F := Ideal) V hO c).arrAt_eq_of_cover 2 (gateRows V c) (fun t _ => flushed_eq V hO c t) (covered (adm V hO))

theorem arr_out (hO : Ok V) (c : Dev nD) (i : Fin 16000) (b : Fin 2048) :
    (dat (F := Ideal) V hO c).arrAt 2 (cfgM V hO).N (ValueIdx.ix3 i (0 : Fin 1) b)
      = Cert.Spec.sel4 (tbl V 2 (ValueIdx.ix1 i)) (tbl V 3 (ValueIdx.ix1 i)) (tbl V 4 (ValueIdx.ix1 i)) (tbl V 5 (ValueIdx.ix1 i))
          (V c main_v1 (ValueIdx.ix3 (Cert.Spec.row 1024 (by decide) (tbl V 0 (ValueIdx.ix1 i))) (0 : Fin 1) b))
          (V c main_v1 (ValueIdx.ix3 (Cert.Spec.row 1024 (by decide) (tbl V 1 (ValueIdx.ix1 i))) (0 : Fin 1) b)) := by
  rw [arr_eq]
  rfl

end Cert.KernelIdeal.R1

end
-- ==== Proof.KI.Val2.lean ====
import proofs.«401413_j6932077216080_2_alg».proof.Proof.KI.R2
import proofs.«401413_j6932077216080_2_alg».proof.Proof.Spec
import Idealize.ShloMosaic.Lib.Pipeline.Value

noncomputable section

namespace Cert.KernelIdeal.R2

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable (V : (c : Dev nD) → (b : Ref sig .tc) → Buf (Elt Ideal) ((c : Thread nD τ).loc b))

-- Batch entry q of a one-row block.
abbrev col (q : Fin 2048) : S1x1x2048.Idx := ValueIdx.ix3 (0 : Fin 1) (0 : Fin 1) q

-- The grid point's coordinate, as an index into the tables and the rows of the output.
def gi (i : grid2.Coords) : Fin 16000 := ⟨(i 0).val, (i 0).isLt⟩

variable (a : (pcfg2 (F := Ideal)).Adm) (t : Fin (cfg2 a).N)

theorem N_eq : (cfg2 a).N = 16000 := N_2

-- On the one-axis grid a point's coordinate is its number.
theorem coords_val : (((cfg2 a).grid.coords t) 0).val = t.val := by
  show t.val / 1 % 16000 = t.val
  rw [Nat.div_one]
  exact Nat.mod_eq_of_lt ((N_eq a) ▸ t.isLt)

theorem ofNat_toNat_small (n : Nat) (h : n < 16000) : (BitVec.ofNat 32 n).toNat = n := by
  rw [BitVec.toNat_ofNat]; exact Nat.mod_eq_of_lt (by omega)

-- The output window's block index at a point starts with the point's number.
theorem index2 : ((cfg2 a).win 2).index t (0 : Fin 3) = t.val := by
  show (BitVec.ofNat 32 (((cfg2 a).grid.coords t) 0).val).toNat = t.val
  rw [coords_val, ofNat_toNat_small _ ((N_eq a) ▸ t.isLt)]

theorem flush2 : ((cfg2 a).win 2).flush t = true := by
  have ht : t.val < 16000 := (N_eq a) ▸ t.isLt
  unfold Pipeline.Window.flush
  rw [show ((cfg2 a).win 2).isOut = true from rfl, Bool.true_and, Bool.or_eq_true, decide_eq_true_eq, decide_eq_true_eq]
  by_cases h : t.val + 1 = (cfg2 a).grid.N
  · exact Or.inl h
  · have hN : (cfg2 a).grid.N = 16000 := N_2
    refine Or.inr ⟨by omega, fun e => ?_⟩
    have e0 := congrFun e (0 : Fin 3)
    rw [index2 a _, index2 a t] at e0
    simp at e0

theorem hz3 : (![0, 0, 0] : Fin 3 → Nat) = fun _ => 0 := funext fun a => by fin_cases a <;> rfl

-- The one-entry rectangle at the grid point's offset holds the table entry at the point's coordinate.
theorem unit_emb (i : grid2.Coords) (h : 0 < (Rect.unit (s := S16000) (k2_off1 i) S1.size (k2_off1_inb i)).shape.numel) :
    (Rect.unit (s := S16000) (k2_off1 i) S1.size (k2_off1_inb i)).emb (Shape.Idx.first h) = ValueIdx.ix1 (gi i) := by
  funext d
  apply Fin.ext
  match d with
  | ⟨0, _⟩ =>
    show (BitVec.ofNat 32 (i 0).val).toNat + 1 * 0 = (i 0).val
    rw [ofNat_toNat_small _ (i 0).isLt]; omega

theorem word_at (v : View sig .tc .smem S16000 .i32) (f : v.ty.Contents (Elt Ideal)) (i : grid2.Coords)
    (h : 0 < (Rect.unit (s := S16000) (k2_off1 i) S1.size (k2_off1_inb i)).toLoadRect.shape.numel) :
    View.readAt (Elt Ideal) v (Rect.unit (s := S16000) (k2_off1 i) S1.size (k2_off1_inb i)).toLoadRect f (Shape.Idx.first h)
      = v.read (Elt Ideal) f (ValueIdx.ix1 (gi i)) :=
  congrArg (v.read (Elt Ideal) f) (unit_emb i h)

-- What the body leaves in the output buffer, at a batch entry.
theorem outOn_apply (c : Dev nD) (i : grid2.Coords) (arg7 : Memref sig .tc .vmem S1x1x2048 .i32) (harg7 : arg7.IsWhole)
    (arg8 : Memref sig .tc .vmem S1x1x2048 .i32) (harg8 : arg8.IsWhole) (arg9 : Memref sig .tc .vmem S1x1x2048 .i32) (harg9 : arg9.IsWhole)
    (x0 x1 : Vec Ideal S1x1x2048 .i32)
    (t0 : TbBuf (F := Ideal) c (Memref.whole main_arg4)) (t1 : TbBuf (F := Ideal) c (Memref.whole main_arg5)) (t2 : TbBuf (F := Ideal) c (Memref.whole main_v20))
    (t3 : TbBuf (F := Ideal) c (Memref.whole main_v24)) (t4 : TbBuf (F := Ideal) c (Memref.whole main_v28)) (t5 : TbBuf (F := Ideal) c (Memref.whole main_v32))
    (q : Fin 2048) :
    outOn c i arg7 harg7 arg8 harg8 arg9 harg9 x0 x1 t0 t1 t2 t3 t4 t5 (col q)
      = Cert.Spec.sel4 (t2 (ValueIdx.ix1 (gi i))) (t3 (ValueIdx.ix1 (gi i))) (t4 (ValueIdx.ix1 (gi i))) (t5 (ValueIdx.ix1 (gi i)))
          (x0 (col q)) (x1 (col q)) := by
  unfold outOn
  rw [View.read_writes_eq_canon]
  swap; · exact View.cover_of_tiledL _ S1x1x2048.size (by sl_kernel_rfl)
  unfold kernelRun
  dsimp only
  sl_unfold_run_names
  rw [View.canon_unit_zero hz3, word_at, word_at, word_at, word_at]
  simp only [View.readAt_eq_ld, harg7.read_unread, harg8.read_unread, View.ld_unit_zero (S := S1x1x2048) hz3]
  unfold k2_pay1
  simp only [shapeCast_self]
  rfl

-- The first coordinate of an input window's block index at a grid point is the row its table word names.
theorem idx0_eq (pf : pre2.Contents (Elt Ideal)) (i : grid2.Coords) :
    cc2_transform_0 k2_off1_inb numel1_S1 pf i (0 : Fin 3) = (pf 0 (ValueIdx.ix1 (gi i)) : BitVec 32).toNat :=
  congrArg BitVec.toNat (congrArg (pf 0) (unit_emb i _))
theorem idx1_eq (pf : pre2.Contents (Elt Ideal)) (i : grid2.Coords) :
    cc2_transform_1 k2_off1_inb numel1_S1 pf i (0 : Fin 3) = (pf 1 (ValueIdx.ix1 (gi i)) : BitVec 32).toNat :=
  congrArg BitVec.toNat (congrArg (pf 1) (unit_emb i _))

-- An admissible table word names a row of the 16000-row layer.
theorem row_lt (i : grid2.Coords) :
    (a.1 0 (ValueIdx.ix1 (gi i)) : BitVec 32).toNat < 16000 ∧ (a.1 1 (ValueIdx.ix1 (gi i)) : BitVec 32).toNat < 16000 := by
  obtain ⟨h0, -⟩ := a.2.1 i
  obtain ⟨h1, -⟩ := a.2.2 i
  have e0 := h0 (0 : Fin 3)
  have e1 := h1 (0 : Fin 3)
  rw [idx0_eq] at e0
  rw [idx1_eq] at e1
  change (_ + 1) * 1 ≤ 16000 at e0
  change (_ + 1) * 1 ≤ 16000 at e1
  exact ⟨by omega, by omega⟩

-- Where the elements of the three windows' blocks at a point sit in their arrays.
theorem emb0 (q : Fin 2048) :
    (((cfg2 a).win 0).blk t).view.emb (col q)
      = ValueIdx.ix3 (Cert.Spec.row 16000 (by decide) (a.1 0 (ValueIdx.ix1 (gi ((cfg2 a).grid.coords t))))) (0 : Fin 1) q := by
  have hr := Cert.Spec.row_val_of_lt 16000 (by decide) _ (row_lt a ((cfg2 a).grid.coords t)).1
  funext d
  apply Fin.ext
  match d with
  | ⟨0, _⟩ =>
    exact (Nat.mul_one _).trans ((idx0_eq a.1 _).trans hr.symm)
  | ⟨1, _⟩ => rfl
  | ⟨2, _⟩ => show 0 * 2048 + 1 * q.val = q.val; omega

theorem emb1 (q : Fin 2048) :
    (((cfg2 a).win 1).blk t).view.emb (col q)
      = ValueIdx.ix3 (Cert.Spec.row 16000 (by decide) (a.1 1 (ValueIdx.ix1 (gi ((cfg2 a).grid.coords t))))) (0 : Fin 1) q := by
  have hr := Cert.Spec.row_val_of_lt 16000 (by decide) _ (row_lt a ((cfg2 a).grid.coords t)).2
  funext d
  apply Fin.ext
  match d with
  | ⟨0, _⟩ =>
    exact (Nat.mul_one _).trans ((idx1_eq a.1 _).trans hr.symm)
  | ⟨1, _⟩ => rfl
  | ⟨2, _⟩ => show 0 * 2048 + 1 * q.val = q.val; omega

theorem emb2 (q : Fin 2048) :
    (((cfg2 a).win 2).blk t).view.emb (col q)
      = ValueIdx.ix3 (gi ((cfg2 a).grid.coords t)) (0 : Fin 1) q := by
  funext d
  apply Fin.ext
  match d with
  | ⟨0, _⟩ =>
    exact (Nat.mul_one _).trans ((index2 a t).trans (coords_val a t).symm)
  | ⟨1, _⟩ => rfl
  | ⟨2, _⟩ => show 0 * 2048 + 1 * q.val = q.val; omega

-- Gate i at batch entry b: the selection, by the two operand bits read at the rows gate i's index words name, among its four table words.
def gate (c : Dev nD) (i : Fin 16000) (b : Fin 2048) : BitVec 32 :=
  Cert.Spec.sel4 (tbl V 2 (ValueIdx.ix1 i)) (tbl V 3 (ValueIdx.ix1 i)) (tbl V 4 (ValueIdx.ix1 i)) (tbl V 5 (ValueIdx.ix1 i))
    (V c main_v18 (ValueIdx.ix3 (Cert.Spec.row 16000 (by decide) (tbl V 0 (ValueIdx.ix1 i))) (0 : Fin 1) b))
    (V c main_v18 (ValueIdx.ix3 (Cert.Spec.row 16000 (by decide) (tbl V 1 (ValueIdx.ix1 i))) (0 : Fin 1) b))

-- The layer as one array.
def gateRows (c : Dev nD) : S16000x1x2048.Idx → BitVec 32 := fun j => gate V c ⟨(j 0).val, (j 0).isLt⟩ ⟨(j 2).val, (j 2).isLt⟩

-- Point t's block of the output is its block of the layer.
theorem flushed_eq (hO : Ok V) (c : Dev nD) (t : Fin (cfgM V hO).N) :
    (dat (F := Ideal) V hO c).flushed 2 t = (((cfgM V hO).win 2).blk t).view.read (Elt Ideal) (gateRows V c) := by
  show ((cfgM V hO).win 2).cut ((cfgM V hO).grid.coords t) ((dat (F := Ideal) V hO c).after 2 t) = _
  rw [after_2]
  refine funext fun (j : S1x1x2048.Idx) => ?_
  obtain ⟨p0, p1, q, rfl⟩ : ∃ (p0 : Fin 1) (p1 : Fin 1) (q : Fin 2048), j = ValueIdx.ix3 p0 p1 q :=
    ⟨j (0 : Fin 3), j (1 : Fin 3), j (2 : Fin 3), ValueIdx.eq_ix3 j⟩
  obtain rfl : p0 = 0 := Subsingleton.elim _ _
  obtain rfl : p1 = 0 := Subsingleton.elim _ _
  show outAt V hO c t (col q)
    = gateRows V c ((((cfgM V hO).win 2).blk t).view.emb (col q))
  rw [emb2 (adm V hO) t q]
  unfold outAt
  refine (outOn_apply c (grid2.coords t) _ _ _ _ _ _ (iblk V hO c 0 t) (iblk V hO c 1 t) (tbl V 0) (tbl V 1) (tbl V 2) (tbl V 3) (tbl V 4) (tbl V 5) q).trans ?_
  show Cert.Spec.sel4 _ _ _ _ (V c main_v18 ((((cfgM V hO).win 0).blk t).view.emb (col q)))
      (V c main_v18 ((((cfgM V hO).win 1).blk t).view.emb (col q))) = _
  rw [emb0 (adm V hO) t q, emb1 (adm V hO) t q]
  rfl

set_option backward.isDefEq.respectTransparency.types false in
-- The row blocks tile the array: row r is the block of point r.
theorem covered (i : S16000x1x2048.Idx) :
    ∃ t : Fin (cfg2 a).N, ((cfg2 a).win 2).flush t = true ∧ i ∈ (((cfg2 a).win 2).blk t).view.set := by
  have hi0 : (i 0).val < 16000 := (i 0).isLt
  have hi1 : (i 1).val < 1 := (i 1).isLt
  have hi2 : (i 2).val < 2048 := (i 2).isLt
  obtain ⟨t, ht⟩ : ∃ t : Fin (cfg2 a).N, t.val = (i 0).val := ⟨⟨(i 0).val, (N_eq a).symm ▸ hi0⟩, rfl⟩
  refine ⟨t, flush2 a t, ?_⟩
  show i ∈ ((View.whole main_v33).slice (((cfg2 a).win 2).rect t)).set
  rw [View.set_slice_whole]
  refine Rect.mem_set_unit.2 fun d => ?_
  match d with
  | ⟨0, _⟩ =>
    show ((cfg2 a).win 2).index t (0 : Fin 3) * 1 ≤ (i 0).val ∧ (i 0).val < ((cfg2 a).win 2).index t (0 : Fin 3) * 1 + 1
    rw [index2]; omega
  | ⟨1, _⟩ => show 0 * 1 ≤ (i 1).val ∧ (i 1).val < 0 * 1 + 1; omega
  | ⟨2, _⟩ => show 0 * 2048 ≤ (i 2).val ∧ (i 2).val < 0 * 2048 + 2048; omega

-- The output array after the run is the layer.
theorem arr_eq (hO : Ok V) (c : Dev nD) : (dat (F := Ideal) V hO c).arrAt 2 (cfgM V hO).N = gateRows V c :=
  (dat (F := Ideal) V hO c).arrAt_eq_of_cover 2 (gateRows V c) (fun t _ => flushed_eq V hO c t) (covered (adm V hO))

theorem arr_out (hO : Ok V) (c : Dev nD) (i : Fin 16000) (b : Fin 2048) :
    (dat (F := Ideal) V hO c).arrAt 2 (cfgM V hO).N (ValueIdx.ix3 i (0 : Fin 1) b)
      = Cert.Spec.sel4 (tbl V 2 (ValueIdx.ix1 i)) (tbl V 3 (ValueIdx.ix1 i)) (tbl V 4 (ValueIdx.ix1 i)) (tbl V 5 (ValueIdx.ix1 i))
          (V c main_v18 (ValueIdx.ix3 (Cert.Spec.row 16000 (by decide) (tbl V 0 (ValueIdx.ix1 i))) (0 : Fin 1) b))
          (V c main_v18 (ValueIdx.ix3 (Cert.Spec.row 16000 (by decide) (tbl V 1 (ValueIdx.ix1 i))) (0 : Fin 1) b)) := by
  rw [arr_eq]
  rfl

end Cert.KernelIdeal.R2

end
-- ==== Proof.KI.Val3.lean ====
import proofs.«401413_j6932077216080_2_alg».proof.Proof.KI.R3
import proofs.«401413_j6932077216080_2_alg».proof.Proof.Spec
import Idealize.ShloMosaic.Lib.Pipeline.Value

noncomputable section

namespace Cert.KernelIdeal.R3

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable (V : (c : Dev nD) → (b : Ref sig .tc) → Buf (Elt Ideal) ((c : Thread nD τ).loc b))

-- Batch entry q of a one-row block.
abbrev col (q : Fin 2048) : S1x1x2048.Idx := ValueIdx.ix3 (0 : Fin 1) (0 : Fin 1) q

-- The grid point's coordinate, as an index into the tables and the rows of the output.
def gi (i : grid3.Coords) : Fin 16000 := ⟨(i 0).val, (i 0).isLt⟩

variable (a : (pcfg3 (F := Ideal)).Adm) (t : Fin (cfg3 a).N)

theorem N_eq : (cfg3 a).N = 16000 := N_3

-- On the one-axis grid a point's coordinate is its number.
theorem coords_val : (((cfg3 a).grid.coords t) 0).val = t.val := by
  show t.val / 1 % 16000 = t.val
  rw [Nat.div_one]
  exact Nat.mod_eq_of_lt ((N_eq a) ▸ t.isLt)

theorem ofNat_toNat_small (n : Nat) (h : n < 16000) : (BitVec.ofNat 32 n).toNat = n := by
  rw [BitVec.toNat_ofNat]; exact Nat.mod_eq_of_lt (by omega)

-- The output window's block index at a point starts with the point's number.
theorem index2 : ((cfg3 a).win 2).index t (0 : Fin 3) = t.val := by
  show (BitVec.ofNat 32 (((cfg3 a).grid.coords t) 0).val).toNat = t.val
  rw [coords_val, ofNat_toNat_small _ ((N_eq a) ▸ t.isLt)]

theorem flush2 : ((cfg3 a).win 2).flush t = true := by
  have ht : t.val < 16000 := (N_eq a) ▸ t.isLt
  unfold Pipeline.Window.flush
  rw [show ((cfg3 a).win 2).isOut = true from rfl, Bool.true_and, Bool.or_eq_true, decide_eq_true_eq, decide_eq_true_eq]
  by_cases h : t.val + 1 = (cfg3 a).grid.N
  · exact Or.inl h
  · have hN : (cfg3 a).grid.N = 16000 := N_3
    refine Or.inr ⟨by omega, fun e => ?_⟩
    have e0 := congrFun e (0 : Fin 3)
    rw [index2 a _, index2 a t] at e0
    simp at e0

theorem hz3 : (![0, 0, 0] : Fin 3 → Nat) = fun _ => 0 := funext fun a => by fin_cases a <;> rfl

-- The one-entry rectangle at the grid point's offset holds the table entry at the point's coordinate.
theorem unit_emb (i : grid3.Coords) (h : 0 < (Rect.unit (s := S16000) (k3_off1 i) S1.size (k3_off1_inb i)).shape.numel) :
    (Rect.unit (s := S16000) (k3_off1 i) S1.size (k3_off1_inb i)).emb (Shape.Idx.first h) = ValueIdx.ix1 (gi i) := by
  funext d
  apply Fin.ext
  match d with
  | ⟨0, _⟩ =>
    show (BitVec.ofNat 32 (i 0).val).toNat + 1 * 0 = (i 0).val
    rw [ofNat_toNat_small _ (i 0).isLt]; omega

theorem word_at (v : View sig .tc .smem S16000 .i32) (f : v.ty.Contents (Elt Ideal)) (i : grid3.Coords)
    (h : 0 < (Rect.unit (s := S16000) (k3_off1 i) S1.size (k3_off1_inb i)).toLoadRect.shape.numel) :
    View.readAt (Elt Ideal) v (Rect.unit (s := S16000) (k3_off1 i) S1.size (k3_off1_inb i)).toLoadRect f (Shape.Idx.first h)
      = v.read (Elt Ideal) f (ValueIdx.ix1 (gi i)) :=
  congrArg (v.read (Elt Ideal) f) (unit_emb i h)

-- What the body leaves in the output buffer, at a batch entry.
theorem outOn_apply (c : Dev nD) (i : grid3.Coords) (arg7 : Memref sig .tc .vmem S1x1x2048 .i32) (harg7 : arg7.IsWhole)
    (arg8 : Memref sig .tc .vmem S1x1x2048 .i32) (harg8 : arg8.IsWhole) (arg9 : Memref sig .tc .vmem S1x1x2048 .i32) (harg9 : arg9.IsWhole)
    (x0 x1 : Vec Ideal S1x1x2048 .i32)
    (t0 : TbBuf (F := Ideal) c (Memref.whole main_arg7)) (t1 : TbBuf (F := Ideal) c (Memref.whole main_arg8)) (t2 : TbBuf (F := Ideal) c (Memref.whole main_v37))
    (t3 : TbBuf (F := Ideal) c (Memref.whole main_v41)) (t4 : TbBuf (F := Ideal) c (Memref.whole main_v45)) (t5 : TbBuf (F := Ideal) c (Memref.whole main_v49))
    (q : Fin 2048) :
    outOn c i arg7 harg7 arg8 harg8 arg9 harg9 x0 x1 t0 t1 t2 t3 t4 t5 (col q)
      = Cert.Spec.sel4 (t2 (ValueIdx.ix1 (gi i))) (t3 (ValueIdx.ix1 (gi i))) (t4 (ValueIdx.ix1 (gi i))) (t5 (ValueIdx.ix1 (gi i)))
          (x0 (col q)) (x1 (col q)) := by
  unfold outOn
  rw [View.read_writes_eq_canon]
  swap; · exact View.cover_of_tiledL _ S1x1x2048.size (by sl_kernel_rfl)
  unfold kernelRun
  dsimp only
  sl_unfold_run_names
  rw [View.canon_unit_zero hz3, word_at, word_at, word_at, word_at]
  simp only [View.readAt_eq_ld, harg7.read_unread, harg8.read_unread, View.ld_unit_zero (S := S1x1x2048) hz3]
  unfold k3_pay1
  simp only [shapeCast_self]
  rfl

-- The first coordinate of an input window's block index at a grid point is the row its table word names.
theorem idx0_eq (pf : pre3.Contents (Elt Ideal)) (i : grid3.Coords) :
    cc3_transform_0 k3_off1_inb numel1_S1 pf i (0 : Fin 3) = (pf 0 (ValueIdx.ix1 (gi i)) : BitVec 32).toNat :=
  congrArg BitVec.toNat (congrArg (pf 0) (unit_emb i _))
theorem idx1_eq (pf : pre3.Contents (Elt Ideal)) (i : grid3.Coords) :
    cc3_transform_1 k3_off1_inb numel1_S1 pf i (0 : Fin 3) = (pf 1 (ValueIdx.ix1 (gi i)) : BitVec 32).toNat :=
  congrArg BitVec.toNat (congrArg (pf 1) (unit_emb i _))

-- An admissible table word names a row of the 16000-row layer.
theorem row_lt (i : grid3.Coords) :
    (a.1 0 (ValueIdx.ix1 (gi i)) : BitVec 32).toNat < 16000 ∧ (a.1 1 (ValueIdx.ix1 (gi i)) : BitVec 32).toNat < 16000 := by
  obtain ⟨h0, -⟩ := a.2.1 i
  obtain ⟨h1, -⟩ := a.2.2 i
  have e0 := h0 (0 : Fin 3)
  have e1 := h1 (0 : Fin 3)
  rw [idx0_eq] at e0
  rw [idx1_eq] at e1
  change (_ + 1) * 1 ≤ 16000 at e0
  change (_ + 1) * 1 ≤ 16000 at e1
  exact ⟨by omega, by omega⟩

-- Where the elements of the three windows' blocks at a point sit in their arrays.
theorem emb0 (q : Fin 2048) :
    (((cfg3 a).win 0).blk t).view.emb (col q)
      = ValueIdx.ix3 (Cert.Spec.row 16000 (by decide) (a.1 0 (ValueIdx.ix1 (gi ((cfg3 a).grid.coords t))))) (0 : Fin 1) q := by
  have hr := Cert.Spec.row_val_of_lt 16000 (by decide) _ (row_lt a ((cfg3 a).grid.coords t)).1
  funext d
  apply Fin.ext
  match d with
  | ⟨0, _⟩ =>
    exact (Nat.mul_one _).trans ((idx0_eq a.1 _).trans hr.symm)
  | ⟨1, _⟩ => rfl
  | ⟨2, _⟩ => show 0 * 2048 + 1 * q.val = q.val; omega

theorem emb1 (q : Fin 2048) :
    (((cfg3 a).win 1).blk t).view.emb (col q)
      = ValueIdx.ix3 (Cert.Spec.row 16000 (by decide) (a.1 1 (ValueIdx.ix1 (gi ((cfg3 a).grid.coords t))))) (0 : Fin 1) q := by
  have hr := Cert.Spec.row_val_of_lt 16000 (by decide) _ (row_lt a ((cfg3 a).grid.coords t)).2
  funext d
  apply Fin.ext
  match d with
  | ⟨0, _⟩ =>
    exact (Nat.mul_one _).trans ((idx1_eq a.1 _).trans hr.symm)
  | ⟨1, _⟩ => rfl
  | ⟨2, _⟩ => show 0 * 2048 + 1 * q.val = q.val; omega

theorem emb2 (q : Fin 2048) :
    (((cfg3 a).win 2).blk t).view.emb (col q)
      = ValueIdx.ix3 (gi ((cfg3 a).grid.coords t)) (0 : Fin 1) q := by
  funext d
  apply Fin.ext
  match d with
  | ⟨0, _⟩ =>
    exact (Nat.mul_one _).trans ((index2 a t).trans (coords_val a t).symm)
  | ⟨1, _⟩ => rfl
  | ⟨2, _⟩ => show 0 * 2048 + 1 * q.val = q.val; omega

-- Gate i at batch entry b: the selection, by the two operand bits read at the rows gate i's index words name, among its four table words.
def gate (c : Dev nD) (i : Fin 16000) (b : Fin 2048) : BitVec 32 :=
  Cert.Spec.sel4 (tbl V 2 (ValueIdx.ix1 i)) (tbl V 3 (ValueIdx.ix1 i)) (tbl V 4 (ValueIdx.ix1 i)) (tbl V 5 (ValueIdx.ix1 i))
    (V c main_v35 (ValueIdx.ix3 (Cert.Spec.row 16000 (by decide) (tbl V 0 (ValueIdx.ix1 i))) (0 : Fin 1) b))
    (V c main_v35 (ValueIdx.ix3 (Cert.Spec.row 16000 (by decide) (tbl V 1 (ValueIdx.ix1 i))) (0 : Fin 1) b))

-- The layer as one array.
def gateRows (c : Dev nD) : S16000x1x2048.Idx → BitVec 32 := fun j => gate V c ⟨(j 0).val, (j 0).isLt⟩ ⟨(j 2).val, (j 2).isLt⟩

-- Point t's block of the output is its block of the layer.
theorem flushed_eq (hO : Ok V) (c : Dev nD) (t : Fin (cfgM V hO).N) :
    (dat (F := Ideal) V hO c).flushed 2 t = (((cfgM V hO).win 2).blk t).view.read (Elt Ideal) (gateRows V c) := by
  show ((cfgM V hO).win 2).cut ((cfgM V hO).grid.coords t) ((dat (F := Ideal) V hO c).after 2 t) = _
  rw [after_2]
  refine funext fun (j : S1x1x2048.Idx) => ?_
  obtain ⟨p0, p1, q, rfl⟩ : ∃ (p0 : Fin 1) (p1 : Fin 1) (q : Fin 2048), j = ValueIdx.ix3 p0 p1 q :=
    ⟨j (0 : Fin 3), j (1 : Fin 3), j (2 : Fin 3), ValueIdx.eq_ix3 j⟩
  obtain rfl : p0 = 0 := Subsingleton.elim _ _
  obtain rfl : p1 = 0 := Subsingleton.elim _ _
  show outAt V hO c t (col q)
    = gateRows V c ((((cfgM V hO).win 2).blk t).view.emb (col q))
  rw [emb2 (adm V hO) t q]
  unfold outAt
  refine (outOn_apply c (grid3.coords t) _ _ _ _ _ _ (iblk V hO c 0 t) (iblk V hO c 1 t) (tbl V 0) (tbl V 1) (tbl V 2) (tbl V 3) (tbl V 4) (tbl V 5) q).trans ?_
  show Cert.Spec.sel4 _ _ _ _ (V c main_v35 ((((cfgM V hO).win 0).blk t).view.emb (col q)))
      (V c main_v35 ((((cfgM V hO).win 1).blk t).view.emb (col q))) = _
  rw [emb0 (adm V hO) t q, emb1 (adm V hO) t q]
  rfl

set_option backward.isDefEq.respectTransparency.types false in
-- The row blocks tile the array: row r is the block of point r.
theorem covered (i : S16000x1x2048.Idx) :
    ∃ t : Fin (cfg3 a).N, ((cfg3 a).win 2).flush t = true ∧ i ∈ (((cfg3 a).win 2).blk t).view.set := by
  have hi0 : (i 0).val < 16000 := (i 0).isLt
  have hi1 : (i 1).val < 1 := (i 1).isLt
  have hi2 : (i 2).val < 2048 := (i 2).isLt
  obtain ⟨t, ht⟩ : ∃ t : Fin (cfg3 a).N, t.val = (i 0).val := ⟨⟨(i 0).val, (N_eq a).symm ▸ hi0⟩, rfl⟩
  refine ⟨t, flush2 a t, ?_⟩
  show i ∈ ((View.whole main_v50).slice (((cfg3 a).win 2).rect t)).set
  rw [View.set_slice_whole]
  refine Rect.mem_set_unit.2 fun d => ?_
  match d with
  | ⟨0, _⟩ =>
    show ((cfg3 a).win 2).index t (0 : Fin 3) * 1 ≤ (i 0).val ∧ (i 0).val < ((cfg3 a).win 2).index t (0 : Fin 3) * 1 + 1
    rw [index2]; omega
  | ⟨1, _⟩ => show 0 * 1 ≤ (i 1).val ∧ (i 1).val < 0 * 1 + 1; omega
  | ⟨2, _⟩ => show 0 * 2048 ≤ (i 2).val ∧ (i 2).val < 0 * 2048 + 2048; omega

-- The output array after the run is the layer.
theorem arr_eq (hO : Ok V) (c : Dev nD) : (dat (F := Ideal) V hO c).arrAt 2 (cfgM V hO).N = gateRows V c :=
  (dat (F := Ideal) V hO c).arrAt_eq_of_cover 2 (gateRows V c) (fun t _ => flushed_eq V hO c t) (covered (adm V hO))

theorem arr_out (hO : Ok V) (c : Dev nD) (i : Fin 16000) (b : Fin 2048) :
    (dat (F := Ideal) V hO c).arrAt 2 (cfgM V hO).N (ValueIdx.ix3 i (0 : Fin 1) b)
      = Cert.Spec.sel4 (tbl V 2 (ValueIdx.ix1 i)) (tbl V 3 (ValueIdx.ix1 i)) (tbl V 4 (ValueIdx.ix1 i)) (tbl V 5 (ValueIdx.ix1 i))
          (V c main_v35 (ValueIdx.ix3 (Cert.Spec.row 16000 (by decide) (tbl V 0 (ValueIdx.ix1 i))) (0 : Fin 1) b))
          (V c main_v35 (ValueIdx.ix3 (Cert.Spec.row 16000 (by decide) (tbl V 1 (ValueIdx.ix1 i))) (0 : Fin 1) b)) := by
  rw [arr_eq]
  rfl

end Cert.KernelIdeal.R3

end
-- ==== Proof.LibBlockAcc.lean ====
import Mathlib.Algebra.BigOperators.Group.Finset.Basic
import Mathlib.Algebra.BigOperators.Fin

namespace Cert.LibBlockAcc

-- The accumulator restarts at each block's first point, so at offset j inside block k it is the sum of the block's first j + 1 terms.
theorem acc_eq_sum {M : Type} [AddCommMonoid M] (P : ℕ) (hP : 0 < P) (term acc : ℕ → M)
    (h0 : ∀ n, n % P = 0 → acc n = term n) (hs : ∀ n, n % P ≠ 0 → acc n = acc (n - 1) + term n) (k j : ℕ) (hj : j < P) :
    acc (P * k + j) = ∑ i ∈ Finset.range (j + 1), term (P * k + i) := by
  induction j with
  | zero =>
    rw [Finset.sum_range_one, Nat.add_zero]
    exact h0 _ (Nat.mul_mod_right P k)
  | succ j ih =>
    have hm : (P * k + (j + 1)) % P ≠ 0 := by
      rw [Nat.mul_add_mod, Nat.mod_eq_of_lt hj]
      exact Nat.succ_ne_zero j
    rw [hs _ hm, Finset.sum_range_succ, Nat.add_succ_sub_one, ih (Nat.lt_of_succ_lt hj)]

theorem acc_last {M : Type} [AddCommMonoid M] (P : ℕ) (hP : 0 < P) (term acc : ℕ → M)
    (h0 : ∀ n, n % P = 0 → acc n = term n) (hs : ∀ n, n % P ≠ 0 → acc n = acc (n - 1) + term n) (k : ℕ) :
    acc (P * k + (P - 1)) = ∑ i : Fin P, term (P * k + i.val) := by
  rw [acc_eq_sum P hP term acc h0 hs k (P - 1) (Nat.sub_lt hP Nat.one_pos), Nat.sub_add_cancel hP, Finset.sum_range]

end Cert.LibBlockAcc
-- ==== Proof.KI.Val4.lean ====
import proofs.«401413_j6932077216080_2_alg».proof.Proof.KI.R4
import proofs.«401413_j6932077216080_2_alg».proof.Proof.Spec
import proofs.«401413_j6932077216080_2_alg».proof.Proof.LibBlockAcc
import Idealize.ShloMosaic.Lib.Pipeline.Value
import Idealize.ShloMosaic.Lib.ValueIdx

noncomputable section

namespace Cert.KernelIdeal.R4

open Cert.KernelIdeal Cert.KernelIdeal.Gen
open Idealize.ShloMosaic Idealize.ShloMosaic.TcCoe

variable (V : (c : Dev nD) → (b : Ref sig .tc) → Buf (Elt Ideal) ((c : Thread nD τ).loc b)) (hO : Ok V) (c : Dev nD)
  (t : Fin (cfgM V hO).N)

-- Grid point t as a gate of the layer.
abbrev gateIx (t : Fin grid4.N) : Fin 16000 := ⟨t.val, lt_of_lt_of_eq t.isLt N_4⟩

-- The table index read at grid point t is t.
theorem tb_idx (t : Fin grid4.N) (h1 : 0 < S1.numel) :
    (Rect.unit (s := S16000) (k4_off1 (grid4.coords t)) S1.size (k4_off1_inb _)).idx (Shape.Idx.first h1)
      = ValueIdx.ix1 (gateIx t) := by
  funext a
  apply Fin.ext
  match a with
  | ⟨0, _⟩ =>
    show (BitVec.ofNat 32 (grid4.coords t 0).val).toNat + 1 * (Shape.Idx.first h1 (0 : Fin 1)).val = t.val
    have := (Shape.Idx.first h1 (0 : Fin 1)).isLt
    have e : S1.size (0 : Fin 1) = 1 := by decide
    have hn : t.val < 16000 := lt_of_lt_of_eq t.isLt N_4
    rw [coords_val, BitVec.toNat_ofNat, Nat.mod_eq_of_lt (by omega)]
    omega

theorem rowOf_apply (i : grid4.Coords) (x0 x1 : Vec Ideal S1x1x2048 .i32)
    (f2 : TbBuf (F := Ideal) c tbM2) (f3 : TbBuf (F := Ideal) c tbM3) (f4 : TbBuf (F := Ideal) c tbM4) (f5 : TbBuf (F := Ideal) c tbM5)
    (y : S1x1x2048.Idx) :
    rowOf c i x0 x1 f2 f3 f4 f5 y
      = Cert.Spec.sel4 (wordAt c tbM2 f2 i) (wordAt c tbM3 f3 i) (wordAt c tbM4 f4 i) (wordAt c tbM5 f5 i) (x0 y) (x1 y) := by
  unfold rowOf k4_pay3
  simp only [shapeCast_self]
  rfl

theorem pay1_apply (r : IVec S1x1x2048 32) (x : Vec Ideal S1x1x2048 .i32) (y : S1x1x2048.Idx) :
    k4_pay1 (F := Ideal) r x y = x y + r y := by
  unfold k4_pay1
  simp only [shapeCast_self]
  rfl
theorem pay2_apply (y : S1x1x2048.Idx) : (k4_pay2 y : BitVec 32) = 0 := rfl

-- The two input windows' block indices, from the tables' words at the grid point.
theorem transform_0_eq (pf : pre4.Contents (Elt Ideal)) (t : Fin grid4.N) :
    cc4_transform_0 k4_off1_inb numel1_S1 pf (grid4.coords t) = ![(pf 0 (ValueIdx.ix1 (gateIx t))).toNat, 0, 0] :=
  congrArg (fun z : S16000.Idx => (![(pf 0 z).toNat, 0, 0] : Fin 3 → ℕ)) (tb_idx t _)
theorem transform_1_eq (pf : pre4.Contents (Elt Ideal)) (t : Fin grid4.N) :
    cc4_transform_1 k4_off1_inb numel1_S1 pf (grid4.coords t) = ![(pf 1 (ValueIdx.ix1 (gateIx t))).toNat, 0, 0] :=
  congrArg (fun z : S16000.Idx => (![(pf 1 z).toNat, 0, 0] : Fin 3 → ℕ)) (tb_idx t _)

-- An element of a one-row block whose index is (r, 0, 0) sits in row r of the array at the element's lane.
private theorem blk_at {n : ℕ} {ix : Fin 3 → ℕ} (r : Fin n) (hix : ix = ![r.val, 0, 0]) (y : S1x1x2048.Idx)
    (e : (⟨3, ![n, 1, 2048]⟩ : Shape).Idx) (he : ∀ a, (e a).val = ix a * S1x1x2048.size a + 1 * (y a).val) :
    e = ValueIdx.ix3 r (0 : Fin 1) (⟨(y 2).val, (y 2).isLt⟩ : Fin 2048) := by
  subst hix
  have h0 := (y 0).isLt
  have h1 := (y 1).isLt
  have e0 : S1x1x2048.size 0 = 1 := rfl
  have e1 : S1x1x2048.size 1 = 1 := rfl
  funext a
  apply Fin.ext
  rw [he]
  match a with
  | ⟨0, _⟩ =>
    show r.val * 1 + 1 * (y 0).val = r.val
    omega
  | ⟨1, _⟩ =>
    show 0 * 1 + 1 * (y 1).val = 0
    omega
  | ⟨2, _⟩ =>
    show 0 * 2048 + 1 * (y 2).val = (y 2).val
    omega

-- The same for a block index (w, 0, 0) given by a word w that names a row of the 16000.
private theorem blk_row {ix : Fin 3 → ℕ} {wd : BitVec 32} (hix : ix = ![wd.toNat, 0, 0]) (hb : (ix 0 + 1) * 1 ≤ 16000)
    (y : S1x1x2048.Idx) (e : S16000x1x2048.Idx) (he : ∀ a, (e a).val = ix a * S1x1x2048.size a + 1 * (y a).val) :
    e = ValueIdx.ix3 (Cert.Spec.row 16000 (by decide) wd) (0 : Fin 1) (⟨(y 2).val, (y 2).isLt⟩ : Fin 2048) := by
  subst hix
  have hw : (wd.toNat + 1) * 1 ≤ 16000 := hb
  exact blk_at _ (by rw [Cert.Spec.row_val_of_lt _ _ _ (by omega)]) y e he

-- Each input window's block at point t, at a lane: the input array's row its table names at t.
theorem iblk0_apply (y : S1x1x2048.Idx) :
    iblk V hO c 0 t y
      = V c main_v52 (ValueIdx.ix3 (Cert.Spec.row 16000 (by decide) (tbl V 0 (ValueIdx.ix1 (gateIx t))))
          (0 : Fin 1) (⟨(y 2).val, (y 2).isLt⟩ : Fin 2048)) := by
  show V c main_v52 ((((cfgM V hO).win 0).blk t).view.emb y) = _
  exact congrArg _ (blk_row (transform_0_eq (tbl V) t) ((hO.1 _).1 0) y _ fun _ => rfl)
theorem iblk1_apply (y : S1x1x2048.Idx) :
    iblk V hO c 1 t y
      = V c main_v52 (ValueIdx.ix3 (Cert.Spec.row 16000 (by decide) (tbl V 1 (ValueIdx.ix1 (gateIx t))))
          (0 : Fin 1) (⟨(y 2).val, (y 2).isLt⟩ : Fin 2048)) := by
  show V c main_v52 ((((cfgM V hO).win 1).blk t).view.emb y) = _
  exact congrArg _ (blk_row (transform_1_eq (tbl V) t) ((hO.2 _).1 0) y _ fun _ => rfl)

def term (g : Fin 16000) (b : Fin 2048) : BitVec 32 :=
  Cert.Spec.sel4 (tbl V 2 (ValueIdx.ix1 g)) (tbl V 3 (ValueIdx.ix1 g)) (tbl V 4 (ValueIdx.ix1 g)) (tbl V 5 (ValueIdx.ix1 g))
    (V c main_v52 (ValueIdx.ix3 (Cert.Spec.row 16000 (by decide) (tbl V 0 (ValueIdx.ix1 g))) (0 : Fin 1) b))
    (V c main_v52 (ValueIdx.ix3 (Cert.Spec.row 16000 (by decide) (tbl V 1 (ValueIdx.ix1 g))) (0 : Fin 1) b))

private theorem sel4_congr {a a' b b' c c' d d' e e' f f' : BitVec 32} (ha : a = a') (hb : b = b') (hc : c = c') (hd : d = d')
    (he : e = e') (hf : f = f') : Cert.Spec.sel4 a b c d e f = Cert.Spec.sel4 a' b' c' d' e' f' := by
  subst ha hb hc hd he hf; rfl

-- The gate row of point t at a lane is gate t's term there.
theorem row_lane (y : S1x1x2048.Idx) :
    row V hO c t y = term V c (gateIx t) ⟨(y 2).val, (y 2).isLt⟩ := by
  unfold row term
  exact (rowOf_apply c (grid4.coords t) (iblk V hO c 0 t) (iblk V hO c 1 t) (tbl V 2) (tbl V 3) (tbl V 4) (tbl V 5) y).trans
    (sel4_congr (congrArg (tbl V 2) (tb_idx t _)) (congrArg (tbl V 3) (tb_idx t _)) (congrArg (tbl V 4) (tb_idx t _))
      (congrArg (tbl V 5) (tb_idx t _)) (iblk0_apply V hO c t y) (iblk1_apply V hO c t y))

def accF (y : S1x1x2048.Idx) (n : ℕ) : BitVec 32 :=
  if h : n < (cfgM V hO).N then acc V hO c n h y else 0
def termF (y : S1x1x2048.Idx) (n : ℕ) : BitVec 32 :=
  if h : n < (cfgM V hO).N then row V hO c ⟨n, h⟩ y else 0

theorem accF_zero_mod (y : S1x1x2048.Idx) (n : ℕ) (h : n % 1600 = 0) :
    accF V hO c y n = termF V hO c y n := by
  unfold accF termF
  by_cases hn : n < (cfgM V hO).N
  · rw [dif_pos hn, dif_pos hn, acc_zero_mod V hO c n hn h, pay1_apply, pay2_apply, zero_add]
  · rw [dif_neg hn, dif_neg hn]

theorem accF_succ (y : S1x1x2048.Idx) (n : ℕ) (h : n % 1600 ≠ 0) :
    accF V hO c y n = accF V hO c y (n - 1) + termF V hO c y n := by
  have hN : (cfgM V hO).N = 16000 := N_a (adm V hO)
  unfold accF termF
  by_cases hn : n < (cfgM V hO).N
  · rw [dif_pos hn, dif_pos hn, dif_pos (Nat.lt_of_le_of_lt (Nat.sub_le _ _) hn), acc_succ V hO c n hn h, pay1_apply]
  · have h1 : ¬ n - 1 < (cfgM V hO).N := by omega
    rw [dif_neg hn, dif_neg hn, dif_neg h1, add_zero]

theorem acc_group (k : Fin 10) (y : S1x1x2048.Idx) (n : ℕ) (h : n < (cfgM V hO).N) (hn : n = 1600 * k.val + 1599) :
    acc V hO c n h y = ∑ j : Fin 1600, term V c (Cert.Spec.inBlock k j) ⟨(y 2).val, (y 2).isLt⟩ := by
  subst hn
  have hN : (cfgM V hO).N = 16000 := N_a (adm V hO)
  have e := Cert.LibBlockAcc.acc_last 1600 (by decide) (termF V hO c y) (accF V hO c y)
    (accF_zero_mod V hO c y) (accF_succ V hO c y) k.val
  have e1 : accF V hO c y (1600 * k.val + (1600 - 1)) = acc V hO c (1600 * k.val + 1599) h y := by
    unfold accF; rw [dif_pos h]
  rw [← e1, e]
  refine Finset.sum_congr rfl fun j _ => ?_
  have hj : 1600 * k.val + j.val < (cfgM V hO).N := by have := k.isLt; have := j.isLt; omega
  unfold termF
  rw [dif_pos hj, row_lane]
  rfl

def outG : S10x1x2048.Idx → BitVec 32 :=
  fun i => ∑ j : Fin 1600, term V c (Cert.Spec.inBlock ⟨(i 0).val, (i 0).isLt⟩ j) ⟨(i 2).val, (i 2).isLt⟩

theorem flushed_eq (hf : ((cfgM V hO).win 2).flush t = true) :
    (dat (F := Ideal) V hO c).flushed 2 t = (((cfgM V hO).win 2).blk t).view.read (Elt Ideal) (outG V c) := by
  have hN : (cfgM V hO).N = 16000 := N_a (adm V hO)
  have ht := t.isLt
  have hm : (t.val + 1) % 1600 = 0 := (flush_2 (adm V hO) t).mp hf
  show ((cfgM V hO).win 2).cut (grid4.coords t) ((dat (F := Ideal) V hO c).after 2 t) = _
  rw [after_2]
  refine funext fun (y : S1x1x2048.Idx) => ?_
  show acc V hO c t.val t.isLt y = outG V c ((((cfgM V hO).win 2).blk t).view.emb y)
  rw [show (((cfgM V hO).win 2).blk t).view.emb y = _ from blk_at ⟨t.val / 1600, by omega⟩ (index_2 (adm V hO) t) y _ fun _ => rfl,
    acc_group V hO c ⟨t.val / 1600, by omega⟩ y t.val t.isLt (by show t.val = 1600 * (t.val / 1600) + 1599; omega)]
  rfl

theorem covered (i : S10x1x2048.Idx) :
    ∃ t : Fin (cfgM V hO).N, ((cfgM V hO).win 2).flush t = true ∧ i ∈ (((cfgM V hO).win 2).blk t).view.set := by
  have hN : (cfgM V hO).N = 16000 := N_a (adm V hO)
  have hi0 : (i 0).val < 10 := (i 0).isLt
  obtain ⟨T, hT⟩ : ∃ T : Fin (cfgM V hO).N, T.val = 1600 * (i 0).val + 1599 := ⟨⟨_, by omega⟩, rfl⟩
  let y : S1x1x2048.Idx := ValueIdx.ix3 (0 : Fin 1) (0 : Fin 1) (i 2)
  have hemb : (((cfgM V hO).win 2).blk T).view.emb y = i :=
    (blk_at (i 0) ((index_2 (adm V hO) T).trans (by rw [show T.val / 1600 = (i 0).val by omega])) y _ fun _ => rfl).trans
      ((congrArg (fun b => ValueIdx.ix3 (i 0) b (i 2)) (Subsingleton.elim _ _)).trans (ValueIdx.eq_ix3 i).symm)
  exact ⟨T, (flush_2 (adm V hO) T).mpr (by omega), hemb ▸ (((cfgM V hO).win 2).blk T).view.emb_mem_set y⟩

theorem arr_eq : (dat (F := Ideal) V hO c).arrAt 2 (cfgM V hO).N = outG V c :=
  (dat (F := Ideal) V hO c).arrAt_eq_of_cover 2 (outG V c) (fun t hf => flushed_eq V hO c t hf) (covered V hO)

theorem arr_out (k : Fin 10) (b : Fin 2048) :
    (dat (F := Ideal) V hO c).arrAt 2 (cfgM V hO).N (ValueIdx.ix3 k (0 : Fin 1) b)
      = ∑ j : Fin 1600, Cert.Spec.sel4 (tbl V 2 (ValueIdx.ix1 (Cert.Spec.inBlock k j))) (tbl V 3 (ValueIdx.ix1 (Cert.Spec.inBlock k j)))
          (tbl V 4 (ValueIdx.ix1 (Cert.Spec.inBlock k j))) (tbl V 5 (ValueIdx.ix1 (Cert.Spec.inBlock k j)))
          (V c main_v52 (ValueIdx.ix3 (Cert.Spec.row 16000 (by decide) (tbl V 0 (ValueIdx.ix1 (Cert.Spec.inBlock k j)))) (0 : Fin 1) b))
          (V c main_v52 (ValueIdx.ix3 (Cert.Spec.row 16000 (by decide) (tbl V 1 (ValueIdx.ix1 (Cert.Spec.inBlock k j)))) (0 : Fin 1) b)) := by
  rw [arr_eq]
  rfl

end Cert.KernelIdeal.R4

end
-- ==== Proof.KI.Host.lean ====
import proofs.«401413_j6932077216080_2_alg».proof.Proof.Gen.KernelIdeal.Regions
import proofs.«401413_j6932077216080_2_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable [Cert.KernelIdeal.Facts]
variable (W : Valuation τ sig (Elt Ideal))

abbrev lowBit (OP : S16000.Idx → BitVec 32) : S16000.Idx → BitVec 32 :=
  andi OP (broadcastInDim S16000 ![] bcast_S_S16000 (constantI S_ 32 1#32))

abbrev bitOf (k : BitVec 32) (OP : S16000.Idx → BitVec 32) : S16000.Idx → BitVec 32 :=
  andi (Host.shrsi OP (broadcastInDim S16000 ![] bcast_S_S16000 (constantI S_ 32 k)))
    (broadcastInDim S16000 ![] bcast_S_S16000 (constantI S_ 32 1#32))

theorem lowBit_apply (OP : S16000.Idx → BitVec 32) (i : S16000.Idx) : lowBit OP i = Cert.Spec.bit0 (OP i) := rfl

theorem bitOf_apply (k : BitVec 32) (OP : S16000.Idx → BitVec 32) (i : S16000.Idx) :
    bitOf k OP i = Cert.Spec.bitAt (OP i) k := rfl

theorem unflatten_flatten (X : S16000x1x2048.Idx → BitVec 32) :
    shapeCast S16000x1x2048 (shapeCast S16000x2048 X shapeCasts_S16000x1x2048_S16000x2048) shapeCasts_S16000x2048_S16000x1x2048 = X :=
  shapeCast_shapeCast X _ _

-- A reshape moves nothing: the entry with the same row-major position.
theorem h1_in (n : Fin 1024) (b : Fin 2048) :
    StableHlo.after hostOps1 W main_v1 (ValueIdx.ix3 n (0 : Fin 1) b) = W main_v0 (ValueIdx.ix2 n b) := by
  have e : (StableHlo.after hostOps1 W main_v1 : S1024x1x2048.Idx → BitVec 32)
      = shapeCast S1024x1x2048 (W main_v0 : S1024x2048.Idx → BitVec 32) shapeCasts_S1024x2048_S1024x1x2048 := by
    after_results <;> rfl
  rw [e]
  refine shapeCast_apply (s := S1024x2048) (t := S1024x1x2048) _ _ _ _ ?_
  rw [Shape.rowMajor_val_two, Shape.rowMajor_val_three]
  show n.val * 2048 + b.val = (n.val * 1 + 0) * 2048 + b.val
  omega

-- The four tables a layer reads are the four bits of its truth-table word.
theorem h1_t2 (i : Fin 16000) :
    StableHlo.after hostOps1 W main_v3 (ValueIdx.ix1 i) = Cert.Spec.bit0 (W main_arg3 (ValueIdx.ix1 i)) :=
  congrFun (show (StableHlo.after hostOps1 W main_v3 : S16000.Idx → BitVec 32) = lowBit (W main_arg3) by after_results <;> rfl) _

theorem h1_t3 (i : Fin 16000) :
    StableHlo.after hostOps1 W main_v7 (ValueIdx.ix1 i) = Cert.Spec.bitAt (W main_arg3 (ValueIdx.ix1 i)) 1#32 :=
  congrFun (show (StableHlo.after hostOps1 W main_v7 : S16000.Idx → BitVec 32) = bitOf 1#32 (W main_arg3) by after_results <;> rfl) _

theorem h1_t4 (i : Fin 16000) :
    StableHlo.after hostOps1 W main_v11 (ValueIdx.ix1 i) = Cert.Spec.bitAt (W main_arg3 (ValueIdx.ix1 i)) 2#32 :=
  congrFun (show (StableHlo.after hostOps1 W main_v11 : S16000.Idx → BitVec 32) = bitOf 2#32 (W main_arg3) by after_results <;> rfl) _

theorem h1_t5 (i : Fin 16000) :
    StableHlo.after hostOps1 W main_v15 (ValueIdx.ix1 i) = Cert.Spec.bitAt (W main_arg3 (ValueIdx.ix1 i)) 3#32 :=
  congrFun (show (StableHlo.after hostOps1 W main_v15 : S16000.Idx → BitVec 32) = bitOf 3#32 (W main_arg3) by after_results <;> rfl) _

theorem h2_in (i : Fin 16000) (b : Fin 2048) :
    StableHlo.after hostOps2 W main_v18 (ValueIdx.ix3 i (0 : Fin 1) b) = W main_v16 (ValueIdx.ix3 i (0 : Fin 1) b) := by
  have e : (StableHlo.after hostOps2 W main_v18 : S16000x1x2048.Idx → BitVec 32)
      = shapeCast S16000x1x2048 (shapeCast S16000x2048 (W main_v16 : S16000x1x2048.Idx → BitVec 32)
          shapeCasts_S16000x1x2048_S16000x2048) shapeCasts_S16000x2048_S16000x1x2048 := by
    after_results <;> rfl
  rw [e, unflatten_flatten]

theorem h2_t2 (i : Fin 16000) :
    StableHlo.after hostOps2 W main_v20 (ValueIdx.ix1 i) = Cert.Spec.bit0 (W main_arg6 (ValueIdx.ix1 i)) :=
  congrFun (show (StableHlo.after hostOps2 W main_v20 : S16000.Idx → BitVec 32) = lowBit (W main_arg6) by after_results <;> rfl) _

theorem h2_t3 (i : Fin 16000) :
    StableHlo.after hostOps2 W main_v24 (ValueIdx.ix1 i) = Cert.Spec.bitAt (W main_arg6 (ValueIdx.ix1 i)) 1#32 :=
  congrFun (show (StableHlo.after hostOps2 W main_v24 : S16000.Idx → BitVec 32) = bitOf 1#32 (W main_arg6) by after_results <;> rfl) _

theorem h2_t4 (i : Fin 16000) :
    StableHlo.after hostOps2 W main_v28 (ValueIdx.ix1 i) = Cert.Spec.bitAt (W main_arg6 (ValueIdx.ix1 i)) 2#32 :=
  congrFun (show (StableHlo.after hostOps2 W main_v28 : S16000.Idx → BitVec 32) = bitOf 2#32 (W main_arg6) by after_results <;> rfl) _

theorem h2_t5 (i : Fin 16000) :
    StableHlo.after hostOps2 W main_v32 (ValueIdx.ix1 i) = Cert.Spec.bitAt (W main_arg6 (ValueIdx.ix1 i)) 3#32 :=
  congrFun (show (StableHlo.after hostOps2 W main_v32 : S16000.Idx → BitVec 32) = bitOf 3#32 (W main_arg6) by after_results <;> rfl) _

theorem h3_in (i : Fin 16000) (b : Fin 2048) :
    StableHlo.after hostOps3 W main_v35 (ValueIdx.ix3 i (0 : Fin 1) b) = W main_v33 (ValueIdx.ix3 i (0 : Fin 1) b) := by
  have e : (StableHlo.after hostOps3 W main_v35 : S16000x1x2048.Idx → BitVec 32)
      = shapeCast S16000x1x2048 (shapeCast S16000x2048 (W main_v33 : S16000x1x2048.Idx → BitVec 32)
          shapeCasts_S16000x1x2048_S16000x2048) shapeCasts_S16000x2048_S16000x1x2048 := by
    after_results <;> rfl
  rw [e, unflatten_flatten]

theorem h3_t2 (i : Fin 16000) :
    StableHlo.after hostOps3 W main_v37 (ValueIdx.ix1 i) = Cert.Spec.bit0 (W main_arg9 (ValueIdx.ix1 i)) :=
  congrFun (show (StableHlo.after hostOps3 W main_v37 : S16000.Idx → BitVec 32) = lowBit (W main_arg9) by after_results <;> rfl) _

theorem h3_t3 (i : Fin 16000) :
    StableHlo.after hostOps3 W main_v41 (ValueIdx.ix1 i) = Cert.Spec.bitAt (W main_arg9 (ValueIdx.ix1 i)) 1#32 :=
  congrFun (show (StableHlo.after hostOps3 W main_v41 : S16000.Idx → BitVec 32) = bitOf 1#32 (W main_arg9) by after_results <;> rfl) _

theorem h3_t4 (i : Fin 16000) :
    StableHlo.after hostOps3 W main_v45 (ValueIdx.ix1 i) = Cert.Spec.bitAt (W main_arg9 (ValueIdx.ix1 i)) 2#32 :=
  congrFun (show (StableHlo.after hostOps3 W main_v45 : S16000.Idx → BitVec 32) = bitOf 2#32 (W main_arg9) by after_results <;> rfl) _

theorem h3_t5 (i : Fin 16000) :
    StableHlo.after hostOps3 W main_v49 (ValueIdx.ix1 i) = Cert.Spec.bitAt (W main_arg9 (ValueIdx.ix1 i)) 3#32 :=
  congrFun (show (StableHlo.after hostOps3 W main_v49 : S16000.Idx → BitVec 32) = bitOf 3#32 (W main_arg9) by after_results <;> rfl) _

theorem h4_in (i : Fin 16000) (b : Fin 2048) :
    StableHlo.after hostOps4 W main_v52 (ValueIdx.ix3 i (0 : Fin 1) b) = W main_v50 (ValueIdx.ix3 i (0 : Fin 1) b) := by
  have e : (StableHlo.after hostOps4 W main_v52 : S16000x1x2048.Idx → BitVec 32)
      = shapeCast S16000x1x2048 (shapeCast S16000x2048 (W main_v50 : S16000x1x2048.Idx → BitVec 32)
          shapeCasts_S16000x1x2048_S16000x2048) shapeCasts_S16000x2048_S16000x1x2048 := by
    after_results <;> rfl
  rw [e, unflatten_flatten]

theorem h4_t2 (i : Fin 16000) :
    StableHlo.after hostOps4 W main_v54 (ValueIdx.ix1 i) = Cert.Spec.bit0 (W main_arg12 (ValueIdx.ix1 i)) :=
  congrFun (show (StableHlo.after hostOps4 W main_v54 : S16000.Idx → BitVec 32) = lowBit (W main_arg12) by after_results <;> rfl) _

theorem h4_t3 (i : Fin 16000) :
    StableHlo.after hostOps4 W main_v58 (ValueIdx.ix1 i) = Cert.Spec.bitAt (W main_arg12 (ValueIdx.ix1 i)) 1#32 :=
  congrFun (show (StableHlo.after hostOps4 W main_v58 : S16000.Idx → BitVec 32) = bitOf 1#32 (W main_arg12) by after_results <;> rfl) _

theorem h4_t4 (i : Fin 16000) :
    StableHlo.after hostOps4 W main_v62 (ValueIdx.ix1 i) = Cert.Spec.bitAt (W main_arg12 (ValueIdx.ix1 i)) 2#32 :=
  congrFun (show (StableHlo.after hostOps4 W main_v62 : S16000.Idx → BitVec 32) = bitOf 2#32 (W main_arg12) by after_results <;> rfl) _

theorem h4_t5 (i : Fin 16000) :
    StableHlo.after hostOps4 W main_v66 (ValueIdx.ix1 i) = Cert.Spec.bitAt (W main_arg12 (ValueIdx.ix1 i)) 3#32 :=
  congrFun (show (StableHlo.after hostOps4 W main_v66 : S16000.Idx → BitVec 32) = bitOf 3#32 (W main_arg12) by after_results <;> rfl) _

-- The final transpose swaps the two coordinates.
theorem h5_out (b : Fin 2048) (k : Fin 10) :
    StableHlo.after hostOps5 W main_v69 (ValueIdx.ix2 b k) = W main_v67 (ValueIdx.ix3 k (0 : Fin 1) b) := by
  have e : (StableHlo.after hostOps5 W main_v69 : S2048x10.Idx → BitVec 32)
      = transpose S2048x10 [1, 0] (shapeCast S10x2048 (W main_v67 : S10x1x2048.Idx → BitVec 32) shapeCasts_S10x1x2048_S10x2048)
          transposes_S10x2048_S2048x10_1_0 := by
    after_results <;> rfl
  rw [e, transpose_apply (s := S10x2048) (t := S2048x10) _ _ _ (ValueIdx.ix2 b k) (ValueIdx.ix2 k b) (fun a => match a with
    | ⟨0, _⟩ => rfl
    | ⟨1, _⟩ => rfl)]
  refine shapeCast_apply (s := S10x1x2048) (t := S10x2048) _ _ _ _ ?_
  rw [Shape.rowMajor_val_two, Shape.rowMajor_val_three]
  show (k.val * 1 + 0) * 2048 + b.val = k.val * 2048 + b.val
  omega

end Cert.KernelIdeal.Host

end
-- ==== Proof.KI.Value.lean ====
import proofs.«401413_j6932077216080_2_alg».proof.Proof.KI.Keep
import proofs.«401413_j6932077216080_2_alg».proof.Proof.KI.Val0
import proofs.«401413_j6932077216080_2_alg».proof.Proof.KI.Val1
import proofs.«401413_j6932077216080_2_alg».proof.Proof.KI.Val2
import proofs.«401413_j6932077216080_2_alg».proof.Proof.KI.Val3
import proofs.«401413_j6932077216080_2_alg».proof.Proof.KI.Val4
import proofs.«401413_j6932077216080_2_alg».proof.Proof.KI.Host
import proofs.«401413_j6932077216080_2_alg».proof.Proof.Spec
import Idealize.ShloMosaic.Lib.ValueIdx

noncomputable section

namespace Cert.KernelIdeal.Run

open Cert.KernelIdeal Cert.KernelIdeal.Gen
open Idealize.ShloMosaic Idealize.ShloMosaic.TcCoe
open Idealize.SL Idealize.SL.Sem
open Cert.Spec

-- A gate's word is the table bit its two operand bits select, which is the specification's layer once the six tables and the previous layer are identified.
theorem gate_layer {n : Nat} (hn : 0 < n) {prev : Fin n → Fin 2048 → BitVec 32} {ia ib op : Fin 16000 → BitVec 32}
    {T0 T1 T2 T3 T4 T5 : Fin 16000 → BitVec 32} {inp : Fin n → Fin 2048 → BitVec 32}
    (hT0 : ∀ i, T0 i = ia i) (hT1 : ∀ i, T1 i = ib i) (hT2 : ∀ i, T2 i = bit0 (op i)) (hT3 : ∀ i, T3 i = bitAt (op i) 1#32)
    (hT4 : ∀ i, T4 i = bitAt (op i) 2#32) (hT5 : ∀ i, T5 i = bitAt (op i) 3#32) (hin : ∀ r b, inp r b = prev r b)
    (i : Fin 16000) (b : Fin 2048) :
    sel4 (T2 i) (T3 i) (T4 i) (T5 i) (inp (row n hn (T0 i)) b) (inp (row n hn (T1 i)) b) = layer hn prev ia ib op i b := by
  rw [hT0, hT1, hT2, hT3, hT4, hT5, hin, hin]
  rfl

variable (m : (ℓ : Loc nD τ sig) → Buf (Elt Ideal) ℓ)

abbrev a0 : Fin 2048 → Fin 1024 → Ideal .f32 := fun b n => m (((0 : Dev nD).tc : Thread nD τ).loc main_arg0) (ValueIdx.ix2 b n)
abbrev a1 : Fin 16000 → BitVec 32 := fun t => m (((0 : Dev nD).tc : Thread nD τ).loc main_arg1) (ValueIdx.ix1 t)
abbrev a2 : Fin 16000 → BitVec 32 := fun t => m (((0 : Dev nD).tc : Thread nD τ).loc main_arg2) (ValueIdx.ix1 t)
abbrev a3 : Fin 16000 → BitVec 32 := fun t => m (((0 : Dev nD).tc : Thread nD τ).loc main_arg3) (ValueIdx.ix1 t)
abbrev a4 : Fin 16000 → BitVec 32 := fun t => m (((0 : Dev nD).tc : Thread nD τ).loc main_arg4) (ValueIdx.ix1 t)
abbrev a5 : Fin 16000 → BitVec 32 := fun t => m (((0 : Dev nD).tc : Thread nD τ).loc main_arg5) (ValueIdx.ix1 t)
abbrev a6 : Fin 16000 → BitVec 32 := fun t => m (((0 : Dev nD).tc : Thread nD τ).loc main_arg6) (ValueIdx.ix1 t)
abbrev a7 : Fin 16000 → BitVec 32 := fun t => m (((0 : Dev nD).tc : Thread nD τ).loc main_arg7) (ValueIdx.ix1 t)
abbrev a8 : Fin 16000 → BitVec 32 := fun t => m (((0 : Dev nD).tc : Thread nD τ).loc main_arg8) (ValueIdx.ix1 t)
abbrev a9 : Fin 16000 → BitVec 32 := fun t => m (((0 : Dev nD).tc : Thread nD τ).loc main_arg9) (ValueIdx.ix1 t)
abbrev a10 : Fin 16000 → BitVec 32 := fun t => m (((0 : Dev nD).tc : Thread nD τ).loc main_arg10) (ValueIdx.ix1 t)
abbrev a11 : Fin 16000 → BitVec 32 := fun t => m (((0 : Dev nD).tc : Thread nD τ).loc main_arg11) (ValueIdx.ix1 t)
abbrev a12 : Fin 16000 → BitVec 32 := fun t => m (((0 : Dev nD).tc : Thread nD τ).loc main_arg12) (ValueIdx.ix1 t)

theorem L0 (n : Fin 1024) (b : Fin 2048) : X2 m 0 main_v1 (ValueIdx.ix3 n (0 : Fin 1) b) = h0 (a0 m) n b := by
  refine (Host.h1_in (X1 m 0) n b).trans ?_
  have e : X1 m 0 main_v0 = o1 m 0 := by unfold X1; exact Function.update_self ..
  rw [e]
  unfold o1
  exact R0.arr_out (rd (X0 m)) 0 n b

theorem T1_0 (t : Fin 16000) : R1.tbl (R1.VW (X2 m)) 0 (ValueIdx.ix1 t) = a1 m t :=
  congrFun (X2_main_arg1 m 0) (ValueIdx.ix1 t)
theorem T1_1 (t : Fin 16000) : R1.tbl (R1.VW (X2 m)) 1 (ValueIdx.ix1 t) = a2 m t :=
  congrFun (X2_main_arg2 m 0) (ValueIdx.ix1 t)
theorem T1_2 (t : Fin 16000) : R1.tbl (R1.VW (X2 m)) 2 (ValueIdx.ix1 t) = bit0 (a3 m t) :=
  (Host.h1_t2 (X1 m 0) t).trans (congrArg bit0 (congrFun (X1_main_arg3 m 0) (ValueIdx.ix1 t)))
theorem T1_3 (t : Fin 16000) : R1.tbl (R1.VW (X2 m)) 3 (ValueIdx.ix1 t) = bitAt (a3 m t) 1#32 :=
  (Host.h1_t3 (X1 m 0) t).trans (congrArg (bitAt · 1#32) (congrFun (X1_main_arg3 m 0) (ValueIdx.ix1 t)))
theorem T1_4 (t : Fin 16000) : R1.tbl (R1.VW (X2 m)) 4 (ValueIdx.ix1 t) = bitAt (a3 m t) 2#32 :=
  (Host.h1_t4 (X1 m 0) t).trans (congrArg (bitAt · 2#32) (congrFun (X1_main_arg3 m 0) (ValueIdx.ix1 t)))
theorem T1_5 (t : Fin 16000) : R1.tbl (R1.VW (X2 m)) 5 (ValueIdx.ix1 t) = bitAt (a3 m t) 3#32 :=
  (Host.h1_t5 (X1 m 0) t).trans (congrArg (bitAt · 3#32) (congrFun (X1_main_arg3 m 0) (ValueIdx.ix1 t)))

variable (h1 : R1.Ok (R1.VW (X2 m)))

-- Layer by layer, the array the next region reads is the specification's layer of the arguments.
theorem L1 (i : Fin 16000) (b : Fin 2048) :
    X4 m h1 0 main_v18 (ValueIdx.ix3 i (0 : Fin 1) b) = Spec.h1 (a0 m) (a1 m) (a2 m) (a3 m) i b := by
  refine (Host.h2_in (X3 m h1 0) i b).trans ?_
  have e : X3 m h1 0 main_v16 = o3 m h1 0 := by unfold X3; exact Function.update_self ..
  rw [e]
  unfold o3
  refine (R1.arr_out (R1.VW (X2 m)) h1 0 i b).trans ?_
  exact gate_layer (by decide)
    (T1_0 m) (T1_1 m) (T1_2 m) (T1_3 m) (T1_4 m) (T1_5 m) (L0 m) i b

theorem T2_0 (t : Fin 16000) : R2.tbl (R2.VW (X4 m h1)) 0 (ValueIdx.ix1 t) = a4 m t :=
  congrFun (X4_main_arg4 m h1 0) (ValueIdx.ix1 t)
theorem T2_1 (t : Fin 16000) : R2.tbl (R2.VW (X4 m h1)) 1 (ValueIdx.ix1 t) = a5 m t :=
  congrFun (X4_main_arg5 m h1 0) (ValueIdx.ix1 t)
theorem T2_2 (t : Fin 16000) : R2.tbl (R2.VW (X4 m h1)) 2 (ValueIdx.ix1 t) = bit0 (a6 m t) :=
  (Host.h2_t2 (X3 m h1 0) t).trans (congrArg bit0 (congrFun (X3_main_arg6 m h1 0) (ValueIdx.ix1 t)))
theorem T2_3 (t : Fin 16000) : R2.tbl (R2.VW (X4 m h1)) 3 (ValueIdx.ix1 t) = bitAt (a6 m t) 1#32 :=
  (Host.h2_t3 (X3 m h1 0) t).trans (congrArg (bitAt · 1#32) (congrFun (X3_main_arg6 m h1 0) (ValueIdx.ix1 t)))
theorem T2_4 (t : Fin 16000) : R2.tbl (R2.VW (X4 m h1)) 4 (ValueIdx.ix1 t) = bitAt (a6 m t) 2#32 :=
  (Host.h2_t4 (X3 m h1 0) t).trans (congrArg (bitAt · 2#32) (congrFun (X3_main_arg6 m h1 0) (ValueIdx.ix1 t)))
theorem T2_5 (t : Fin 16000) : R2.tbl (R2.VW (X4 m h1)) 5 (ValueIdx.ix1 t) = bitAt (a6 m t) 3#32 :=
  (Host.h2_t5 (X3 m h1 0) t).trans (congrArg (bitAt · 3#32) (congrFun (X3_main_arg6 m h1 0) (ValueIdx.ix1 t)))

variable (h2 : R2.Ok (R2.VW (X4 m h1)))

theorem L2 (i : Fin 16000) (b : Fin 2048) :
    X6 m h1 h2 0 main_v35 (ValueIdx.ix3 i (0 : Fin 1) b) = Spec.h2 (a0 m) (a1 m) (a2 m) (a3 m) (a4 m) (a5 m) (a6 m) i b := by
  refine (Host.h3_in (X5 m h1 h2 0) i b).trans ?_
  have e : X5 m h1 h2 0 main_v33 = o5 m h1 h2 0 := by unfold X5; exact Function.update_self ..
  rw [e]
  unfold o5
  refine (R2.arr_out (R2.VW (X4 m h1)) h2 0 i b).trans ?_
  exact gate_layer (by decide)
    (T2_0 m h1) (T2_1 m h1) (T2_2 m h1) (T2_3 m h1) (T2_4 m h1) (T2_5 m h1) (L1 m h1) i b

theorem T3_0 (t : Fin 16000) : R3.tbl (R3.VW (X6 m h1 h2)) 0 (ValueIdx.ix1 t) = a7 m t :=
  congrFun (X6_main_arg7 m h1 h2 0) (ValueIdx.ix1 t)
theorem T3_1 (t : Fin 16000) : R3.tbl (R3.VW (X6 m h1 h2)) 1 (ValueIdx.ix1 t) = a8 m t :=
  congrFun (X6_main_arg8 m h1 h2 0) (ValueIdx.ix1 t)
theorem T3_2 (t : Fin 16000) : R3.tbl (R3.VW (X6 m h1 h2)) 2 (ValueIdx.ix1 t) = bit0 (a9 m t) :=
  (Host.h3_t2 (X5 m h1 h2 0) t).trans (congrArg bit0 (congrFun (X5_main_arg9 m h1 h2 0) (ValueIdx.ix1 t)))
theorem T3_3 (t : Fin 16000) : R3.tbl (R3.VW (X6 m h1 h2)) 3 (ValueIdx.ix1 t) = bitAt (a9 m t) 1#32 :=
  (Host.h3_t3 (X5 m h1 h2 0) t).trans (congrArg (bitAt · 1#32) (congrFun (X5_main_arg9 m h1 h2 0) (ValueIdx.ix1 t)))
theorem T3_4 (t : Fin 16000) : R3.tbl (R3.VW (X6 m h1 h2)) 4 (ValueIdx.ix1 t) = bitAt (a9 m t) 2#32 :=
  (Host.h3_t4 (X5 m h1 h2 0) t).trans (congrArg (bitAt · 2#32) (congrFun (X5_main_arg9 m h1 h2 0) (ValueIdx.ix1 t)))
theorem T3_5 (t : Fin 16000) : R3.tbl (R3.VW (X6 m h1 h2)) 5 (ValueIdx.ix1 t) = bitAt (a9 m t) 3#32 :=
  (Host.h3_t5 (X5 m h1 h2 0) t).trans (congrArg (bitAt · 3#32) (congrFun (X5_main_arg9 m h1 h2 0) (ValueIdx.ix1 t)))

variable (h3 : R3.Ok (R3.VW (X6 m h1 h2)))

theorem L3 (i : Fin 16000) (b : Fin 2048) :
    X8 m h1 h2 h3 0 main_v52 (ValueIdx.ix3 i (0 : Fin 1) b)
      = Spec.h3 (a0 m) (a1 m) (a2 m) (a3 m) (a4 m) (a5 m) (a6 m) (a7 m) (a8 m) (a9 m) i b := by
  refine (Host.h4_in (X7 m h1 h2 h3 0) i b).trans ?_
  have e : X7 m h1 h2 h3 0 main_v50 = o7 m h1 h2 h3 0 := by unfold X7; exact Function.update_self ..
  rw [e]
  unfold o7
  refine (R3.arr_out (R3.VW (X6 m h1 h2)) h3 0 i b).trans ?_
  exact gate_layer (by decide)
    (T3_0 m h1 h2) (T3_1 m h1 h2) (T3_2 m h1 h2) (T3_3 m h1 h2) (T3_4 m h1 h2) (T3_5 m h1 h2) (L2 m h1 h2) i b

theorem T4_0 (t : Fin 16000) : R4.tbl (R4.VW (X8 m h1 h2 h3)) 0 (ValueIdx.ix1 t) = a10 m t :=
  congrFun (X8_main_arg10 m h1 h2 h3 0) (ValueIdx.ix1 t)
theorem T4_1 (t : Fin 16000) : R4.tbl (R4.VW (X8 m h1 h2 h3)) 1 (ValueIdx.ix1 t) = a11 m t :=
  congrFun (X8_main_arg11 m h1 h2 h3 0) (ValueIdx.ix1 t)
theorem T4_2 (t : Fin 16000) : R4.tbl (R4.VW (X8 m h1 h2 h3)) 2 (ValueIdx.ix1 t) = bit0 (a12 m t) :=
  (Host.h4_t2 (X7 m h1 h2 h3 0) t).trans (congrArg bit0 (congrFun (X7_main_arg12 m h1 h2 h3 0) (ValueIdx.ix1 t)))
theorem T4_3 (t : Fin 16000) : R4.tbl (R4.VW (X8 m h1 h2 h3)) 3 (ValueIdx.ix1 t) = bitAt (a12 m t) 1#32 :=
  (Host.h4_t3 (X7 m h1 h2 h3 0) t).trans (congrArg (bitAt · 1#32) (congrFun (X7_main_arg12 m h1 h2 h3 0) (ValueIdx.ix1 t)))
theorem T4_4 (t : Fin 16000) : R4.tbl (R4.VW (X8 m h1 h2 h3)) 4 (ValueIdx.ix1 t) = bitAt (a12 m t) 2#32 :=
  (Host.h4_t4 (X7 m h1 h2 h3 0) t).trans (congrArg (bitAt · 2#32) (congrFun (X7_main_arg12 m h1 h2 h3 0) (ValueIdx.ix1 t)))
theorem T4_5 (t : Fin 16000) : R4.tbl (R4.VW (X8 m h1 h2 h3)) 5 (ValueIdx.ix1 t) = bitAt (a12 m t) 3#32 :=
  (Host.h4_t5 (X7 m h1 h2 h3 0) t).trans (congrArg (bitAt · 3#32) (congrFun (X7_main_arg12 m h1 h2 h3 0) (ValueIdx.ix1 t)))

variable (h4 : R4.Ok (R4.VW (X8 m h1 h2 h3)))

theorem sum_words_congr (f g : Fin 1600 → BitVec 32) (h : ∀ j, f j = g j) : ∑ j, f j = ∑ j, g j :=
  Finset.sum_congr rfl fun j _ => h j

-- The last region's block sums are the sums of the fourth layer over each group of 1600 gates.
theorem L4 (k : Fin 10) (b : Fin 2048) :
    o9 m h1 h2 h3 h4 0 (ValueIdx.ix3 k (0 : Fin 1) b)
      = blockSum (Spec.h4 (a0 m) (a1 m) (a2 m) (a3 m) (a4 m) (a5 m) (a6 m) (a7 m) (a8 m) (a9 m) (a10 m) (a11 m) (a12 m)) b k := by
  unfold o9
  refine (R4.arr_out (R4.VW (X8 m h1 h2 h3)) h4 0 k b).trans ?_
  unfold blockSum
  refine sum_words_congr _ _ fun j => ?_
  exact gate_layer (by decide)
    (T4_0 m h1 h2 h3) (T4_1 m h1 h2 h3) (T4_2 m h1 h2 h3) (T4_3 m h1 h2 h3) (T4_4 m h1 h2 h3) (T4_5 m h1 h2 h3) (L3 m h1 h2 h3) (inBlock k j) b

-- The result is the transposed block sums, entry by entry.
theorem result_eq (c : Dev nD) : X10 m h1 h2 h3 h4 c main_v69
    = Cert.Spec.OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  obtain rfl : c = 0 := Subsingleton.elim _ _
  show (X10 m h1 h2 h3 h4 0 main_v69 : SO.Idx → BitVec 32) = _
  funext j
  obtain ⟨b, k, rfl⟩ : ∃ (b : Fin 2048) (k : Fin 10), j = ValueIdx.ix2 b k := ⟨j 0, j 1, ValueIdx.eq_ix2 j⟩
  refine (Host.h5_out (X9 m h1 h2 h3 h4 0) b k).trans ?_
  have e : X9 m h1 h2 h3 h4 0 main_v67 = o9 m h1 h2 h3 h4 0 := by unfold X9; exact Function.update_self ..
  rw [e]
  exact L4 m h1 h2 h3 h4 k b

end Cert.KernelIdeal.Run

end
-- ==== Proof.RefValue.lean ====
import proofs.«401413_j6932077216080_2_alg».proof.Defs
import proofs.«401413_j6932077216080_2_alg».proof.Proof.Gen.ReferenceIdeal
import proofs.«401413_j6932077216080_2_alg».proof.Proof.Gen.ReferenceIdeal.Run
import proofs.«401413_j6932077216080_2_alg».proof.Proof.Gen.ReferenceIdeal.Read
import proofs.«401413_j6932077216080_2_alg».proof.Proof.Spec
import Idealize.ShloMosaic.Lib.ValueIdx
import Idealize.ShloMosaic.Lib.Pipeline.Value
import Idealize.ShloMosaic.Lib.StableHlo.Run
import Idealize.ShloMosaic.PureOps.Reduce

noncomputable section

namespace Cert.RefValue

open Idealize.ShloMosaic Idealize.ShloMosaic.TcCoe Idealize.SL.Sem Cert.ReferenceIdeal Cert.Spec
open Idealize.ShloMosaic.ValueIdx

theorem andi_one_01 (x : BitVec 32) : IntOp.andi x 1#32 = 0#32 ∨ IntOp.andi x 1#32 = 1#32 := by
  unfold IntOp.andi
  have h : (x &&& 1#32).toNat = x.toNat % 2 := by
    rw [BitVec.toNat_and]; exact Nat.and_one_is_mod _
  have h2 : x.toNat % 2 = 0 ∨ x.toNat % 2 = 1 := by omega
  rcases h2 with h2 | h2
  · left; apply BitVec.eq_of_toNat_eq; rw [h, h2]; rfl
  · right; apply BitVec.eq_of_toNat_eq; rw [h, h2]; rfl

theorem thr_01 (x : Ideal .f32) : thr x = 0#32 ∨ thr x = 1#32 := by
  unfold thr
  rcases BitVec.eq_zero_or_eq_one (FloatOps.cmpf (F := Ideal) .ogt x (FloatOps.ofBits (F := Ideal) .f32 0x3F000000#32)) with h | h
  · left; rw [h]; rfl
  · right; rw [h]; rfl

theorem gate_01 (op a b : BitVec 32) : gate op a b = 0#32 ∨ gate op a b = 1#32 := by
  unfold gate Scalar.select bit0 bitAt
  split <;> split <;> exact andi_one_01 _

-- For operand bits a and b the reference's shift by 3 - 2a - b reads the same truth-table bit as the four-way selection.
theorem shift_gate (op a b : BitVec 32) (ha : a = 0#32 ∨ a = 1#32) (hb : b = 0#32 ∨ b = 1#32) :
    IntOp.andi (IntOp.shrsi .host op (IntOp.subi (IntOp.subi 3#32 (IntOp.muli 2#32 a)) b)) 1#32 = gate op a b := by
  rcases ha with rfl | rfl <;> rcases hb with rfl | rfl
  · show _ = bitAt op 3#32; rfl
  · show _ = bitAt op 2#32; rfl
  · show _ = bitAt op 1#32; rfl
  · show _ = bit0 op
    unfold bit0
    congr 1
    show (if (0#32).toNat < 32 then op.sshiftRight' 0#32 else _) = op
    rw [if_pos (by decide)]
    exact BitVec.sshiftRight_zero

theorem wrap_id (w n : BitVec 32) (h : 0 ≤ w.toInt) :
    Scalar.select (IntOp.cmpi .slt w 0#32) (IntOp.addi w n) w = w := by
  unfold Scalar.select IntOp.cmpi
  have : w.slt 0#32 = false := by
    rw [BitVec.slt_eq_decide]
    simp only [BitVec.toInt_zero]
    exact decide_eq_false (by omega)
  simp only [this]
  rfl

abbrev colDims (R N C : Nat) (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

-- A gather of whole columns reads, at (b, i), the operand's column named by the i-th index word, clamped to the last column.
theorem gather_col_apply {α : Type} {R N C w : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (b : Fin R) (i : Fin C) :
    Host.gather (colDims R N C wf) x idx (ix2 b i)
      = x (ix2 b ⟨min (idx (ix2 i ⟨0, Nat.one_pos⟩)).toInt.toNat (N - 1), by omega⟩) := by
  unfold Host.gather
  refine congrArg x (funext fun a => Fin.ext ?_)
  match a with
  | ⟨0, _⟩ =>
    show (colDims R N C wf).start (ix2 b i) idx 0 + (colDims R N C wf).batchCoord (ix2 b i) 0 + (colDims R N C wf).offCoord (ix2 b i) 0 = b.val
    rw [GatherDims.batchCoord_eq_zero _ _ _ List.not_mem_nil]
    unfold GatherDims.start
    rw [dif_neg (fun h => Nat.zero_ne_one (congrArg Fin.val (List.mem_singleton.mp h)))]
    unfold GatherDims.offCoord
    rw [dif_pos (show (0 : Fin 2) ∈ (colDims R N C wf).sKept from ((colDims R N C wf).mem_sKept 0).mpr
      ⟨fun h => Nat.zero_ne_one (congrArg Fin.val (List.mem_singleton.mp h)), List.not_mem_nil⟩)]
    simp only [Nat.zero_add, Nat.add_zero]
    rfl
  | ⟨1, _⟩ =>
    show (colDims R N C wf).start (ix2 b i) idx 1 + (colDims R N C wf).batchCoord (ix2 b i) 1 + (colDims R N C wf).offCoord (ix2 b i) 1 = _
    rw [GatherDims.batchCoord_eq_zero _ _ _ List.not_mem_nil,
      GatherDims.offCoord_eq_zero _ _ _ (fun h => (((colDims R N C wf).mem_sKept _).mp h).1 (List.mem_singleton.mpr rfl))]
    simp only [Nat.add_zero]
    unfold GatherDims.start
    rw [dif_pos (show (1 : Fin 2) ∈ (colDims R N C wf).startIndexMap from List.mem_singleton.mpr rfl)]
    have hsi : (colDims R N C wf).siIdx (ix2 b i) ⟨List.idxOf (1 : Fin 2) (colDims R N C wf).startIndexMap,
        List.idxOf_lt_length_iff.2 (List.mem_singleton.mpr rfl)⟩ = ix2 i ⟨0, Nat.one_pos⟩ := by
      funext c; refine Fin.ext ?_
      match c with
      | ⟨0, _⟩ => rfl
      | ⟨1, _⟩ => rfl
    rw [hsi]
    rfl

theorem fold_addi_eq_sum {ι : Type} (S : Finset ι) (f : ι → BitVec 32) : S.fold IntOp.addi 0#32 f = ∑ i ∈ S, f i := by
  induction S using Finset.cons_induction with
  | empty => rw [Finset.fold_empty, Finset.sum_empty]; rfl
  | cons a S ha ih => rw [Finset.fold_cons, Finset.sum_cons, ih]; rfl

-- A sum over the last axis is the finite sum of the entries along it.
theorem reduce_last (x : IVec ⟨3, ![2048, 10, 1600]⟩ 32) (init : IVec ⟨0, ![]⟩ 32) (h0 : ∀ i, init i = 0#32)
    (h' : (⟨3, ![2048, 10, 1600]⟩ : Shape).ReducesTo [2] ⟨2, ![2048, 10]⟩) (hu : 0 < (⟨0, ![]⟩ : Shape).numel)
    (b : Fin 2048) (k : Fin 10) :
    Host.reduce IntOp.addi x init h' hu (ix2 b k) = ∑ j : Fin 1600, x (ix3 b k j) := by
  have h : (⟨3, ![2048, 10, 1600]⟩ : Shape).Reduces [2] ⟨2, ![2048, 10]⟩ := by decide
  rw [Host.reduce_eq_fold_single IntOp.addi x init h' h hu, h0, fold_addi_eq_sum]
  show ∑ j : Fin 1600, x (h.lift (ix2 b k) j) = _
  refine Finset.sum_congr rfl fun j _ => congrArg x ?_
  funext c; refine Fin.ext ?_
  show h.liftVal (ix2 b k) j.val c = (ix3 b k j c).val
  unfold Shape.Reduces.liftVal
  match c with
  | ⟨0, _⟩ => rfl
  | ⟨1, _⟩ => rfl
  | ⟨2, _⟩ => rfl

section Layers
variable [Cert.ReferenceIdeal.Facts]
open Cert.ReferenceIdeal.Facts₀

theorem row_eq {n : Nat} (hn : 0 < n) (w : BitVec 32) (h : InRange n w) : row n hn w = ⟨w.toNat, h.toNat_lt⟩ :=
  Fin.ext (row_val_of_lt n hn w h.toNat_lt)

theorem gather_col_read {R N C : Nat} (hN : 0 < N)
    (wf : GatherDims.WF ⟨2, ![R, N]⟩ ⟨2, ![C, 1]⟩ ⟨2, ![R, C]⟩ [0] [1] [] [1] [] 1 ![R, 1])
    (x : (⟨2, ![R, N]⟩ : Shape).Idx → BitVec 32) (idx : IVec ⟨2, ![C, 1]⟩ 32) (b : Fin R) (i : Fin C)
    (w : BitVec 32) (hw : idx (ix2 i ⟨0, Nat.one_pos⟩) = w) (hr : InRange N w) :
    Host.gather (colDims R N C wf) x idx (ix2 b i) = x (ix2 b ⟨w.toNat, hr.toNat_lt⟩) := by
  rw [gather_col_apply hN wf x idx b i]
  refine congrArg x (congrArg (ix2 b) (Fin.ext ?_))
  show min (idx (ix2 i ⟨0, Nat.one_pos⟩)).toInt.toNat (N - 1) = w.toNat
  rw [hw]
  have h1 := hr.toNat_lt
  have h2 : w.toInt = (w.toNat : Int) := by
    have := hr.1
    unfold BitVec.toInt at this ⊢
    split at this <;> [skip; omega]
    rw [if_pos ‹_›]
  rw [h2, Int.toNat_natCast]
  omega

def wrapCol (n : BitVec 32) (IA : IVec S16000 32) : IVec S16000x1 32 :=
  broadcastInDim S16000x1 ![0] bcast_S16000_S16000x1_0
    (select (cmpi .slt IA (broadcastInDim S16000 ![] bcast_S_S16000 (constantI S_ 32 0#32)))
      (addi IA (broadcastInDim S16000 ![] bcast_S_S16000 (constantI S_ 32 n))) IA)

theorem wrapCol_apply (n : BitVec 32) (IA : IVec S16000 32) (i : Fin 16000) :
    wrapCol n IA (ix2 i ⟨0, Nat.one_pos⟩)
      = Scalar.select (IntOp.cmpi .slt (IA (ix1 i)) 0#32) (IntOp.addi (IA (ix1 i)) n) (IA (ix1 i)) := by
  unfold wrapCol
  exact broadcastInDim_apply _ bcast_S16000_S16000x1_0 _ (ix2 i ⟨0, Nat.one_pos⟩) (ix1 i) (fun a => match a with
    | ⟨0, _⟩ => by show i.val = if (16000 : Nat) = 1 then 0 else i.val; rw [if_neg (by decide)])

theorem opRow_apply (OP : IVec S16000 32) (b : Fin 2048) (i : Fin 16000) :
    broadcastInDim S2048x16000 ![0, 1] bcast_S1x16000_S2048x16000_0_1
      (broadcastInDim S1x16000 ![1] bcast_S16000_S1x16000_1 OP) (ix2 b i) = OP (ix1 i) := by
  rw [broadcastInDim_apply _ bcast_S1x16000_S2048x16000_0_1 _ (ix2 b i) (ix2 ⟨0, Nat.one_pos⟩ i) (fun a => match a with
    | ⟨0, _⟩ => by show 0 = if (1 : Nat) = 1 then 0 else b.val; rw [if_pos rfl]
    | ⟨1, _⟩ => by show i.val = if (16000 : Nat) = 1 then 0 else i.val; rw [if_neg (by decide)])]
  exact broadcastInDim_apply _ bcast_S16000_S1x16000_1 OP _ (ix1 i) (fun a => match a with
    | ⟨0, _⟩ => by show i.val = if (16000 : Nat) = 1 then 0 else i.val; rw [if_neg (by decide)])

def stage {N : Nat} (d : GatherDims ⟨2, ![2048, N]⟩ S16000x1 S2048x16000) (n : BitVec 32)
    (H : IVec ⟨2, ![2048, N]⟩ 32) (IA IB OP : IVec S16000 32) : IVec S2048x16000 32 :=
  andi
    (Host.shrsi
      (broadcastInDim S2048x16000 ![0, 1] bcast_S1x16000_S2048x16000_0_1 (broadcastInDim S1x16000 ![1] bcast_S16000_S1x16000_1 OP))
      (subi
        (subi (broadcastInDim S2048x16000 ![] bcast_S_S2048x16000 (constantI S_ 32 3#32))
          (muli (broadcastInDim S2048x16000 ![] bcast_S_S2048x16000 (constantI S_ 32 2#32)) (Host.gather d H (wrapCol n IA))))
        (Host.gather d H (wrapCol n IB))))
    (broadcastInDim S2048x16000 ![] bcast_S_S2048x16000 (constantI S_ 32 1#32))

theorem gate_stage {n : Nat} (hn : 0 < n) (h : Fin n → Fin 2048 → BitVec 32) (h01 : ∀ r b, h r b = 0#32 ∨ h r b = 1#32)
    (ia ib op : Fin 16000 → BitVec 32) (i : Fin 16000) (b : Fin 2048) (hA : InRange n (ia i)) (hB : InRange n (ib i)) :
    IntOp.andi (IntOp.shrsi .host (op i) (IntOp.subi (IntOp.subi 3#32 (IntOp.muli 2#32 (h ⟨(ia i).toNat, hA.toNat_lt⟩ b)))
      (h ⟨(ib i).toNat, hB.toNat_lt⟩ b))) 1#32 = layer hn h ia ib op i b := by
  unfold layer
  rw [row_eq hn _ hA, row_eq hn _ hB]
  exact shift_gate _ _ _ (h01 _ _) (h01 _ _)

theorem layer_01 {n : Nat} (hn : 0 < n) (h : Fin n → Fin 2048 → BitVec 32) (ia ib op : Fin 16000 → BitVec 32)
    (i : Fin 16000) (b : Fin 2048) : layer hn h ia ib op i b = 0#32 ∨ layer hn h ia ib op i b = 1#32 := gate_01 _ _ _

theorem stage_layer {N : Nat} (hN : 0 < N)
    (wf : GatherDims.WF ⟨2, ![2048, N]⟩ ⟨2, ![16000, 1]⟩ ⟨2, ![2048, 16000]⟩ [0] [1] [] [1] [] 1 ![2048, 1]) (n : BitVec 32)
    (H : IVec ⟨2, ![2048, N]⟩ 32) (h : Fin N → Fin 2048 → BitVec 32) (hH : ∀ b r, H (ix2 b r) = h r b)
    (h01 : ∀ r b, h r b = 0#32 ∨ h r b = 1#32) (IA IB OP : IVec S16000 32)
    (hA : ∀ i, InRange N (IA i)) (hB : ∀ i, InRange N (IB i)) (b : Fin 2048) (i : Fin 16000) :
    stage (colDims 2048 N 16000 wf) n H IA IB OP (ix2 b i)
      = layer hN h (fun t => IA (ix1 t)) (fun t => IB (ix1 t)) (fun t => OP (ix1 t)) i b := by
  have gA := gather_col_read hN wf H (wrapCol n IA) b i (IA (ix1 i)) ((wrapCol_apply n IA i).trans (wrap_id _ _ (hA _).1)) (hA _)
  have gB := gather_col_read hN wf H (wrapCol n IB) b i (IB (ix1 i)) ((wrapCol_apply n IB i).trans (wrap_id _ _ (hB _).1)) (hB _)
  show IntOp.andi (IntOp.shrsi .host
      (broadcastInDim S2048x16000 ![0, 1] bcast_S1x16000_S2048x16000_0_1 (broadcastInDim S1x16000 ![1] bcast_S16000_S1x16000_1 OP) (ix2 b i))
      (IntOp.subi (IntOp.subi 3#32 (IntOp.muli 2#32 (Host.gather (colDims 2048 N 16000 wf) H (wrapCol n IA) (ix2 b i))))
        (Host.gather (colDims 2048 N 16000 wf) H (wrapCol n IB) (ix2 b i)))) 1#32 = _
  rw [opRow_apply, gA, gB, hH, hH]
  exact gate_stage hN h h01 (fun t => IA (ix1 t)) (fun t => IB (ix1 t)) (fun t => OP (ix1 t)) i b (hA _) (hB _)

theorem layer0_read (X : (⟨S2048x1024, .f32⟩ : BufTy).Contents (Elt Ideal)) (b : Fin 2048) (n : Fin 1024) :
    Read.val_main_v2 (F := Ideal) X (ix2 b n) = h0 (fun b n => X (ix2 b n)) n b := by
  rw [Read.val_main_v2_apply, Read.val_main_v1_apply, Read.val_main_v0_apply, Read.val_main_cst_apply]
  rfl

theorem stage1 (X : (⟨S2048x1024, .f32⟩ : BufTy).Contents (Elt Ideal)) (A0 B0 O0 : (⟨S16000, .i32⟩ : BufTy).Contents (Elt Ideal)) :
    Read.val_main_v26 (F := Ideal) X A0 B0 O0
      = stage (colDims 2048 1024 16000 gather_S2048x1024_S16000x1_S2048x16000_0_1_n_n_1_1_20481_wf) 1024#32 (Read.val_main_v2 (F := Ideal) X) A0 B0 O0 := rfl
theorem stage2 (X : (⟨S2048x1024, .f32⟩ : BufTy).Contents (Elt Ideal)) (A0 B0 O0 A1 B1 O1 : (⟨S16000, .i32⟩ : BufTy).Contents (Elt Ideal)) :
    Read.val_main_v50 (F := Ideal) X A0 B0 O0 A1 B1 O1
      = stage (colDims 2048 16000 16000 gather_S2048x16000_S16000x1_S2048x16000_0_1_n_n_1_1_20481_wf) 16000#32 (Read.val_main_v26 (F := Ideal) X A0 B0 O0) A1 B1 O1 := rfl
theorem stage3 (X : (⟨S2048x1024, .f32⟩ : BufTy).Contents (Elt Ideal)) (A0 B0 O0 A1 B1 O1 A2 B2 O2 : (⟨S16000, .i32⟩ : BufTy).Contents (Elt Ideal)) :
    Read.val_main_v74 (F := Ideal) X A0 B0 O0 A1 B1 O1 A2 B2 O2
      = stage (colDims 2048 16000 16000 gather_S2048x16000_S16000x1_S2048x16000_0_1_n_n_1_1_20481_wf) 16000#32 (Read.val_main_v50 (F := Ideal) X A0 B0 O0 A1 B1 O1) A2 B2 O2 := rfl
theorem stage4 (X : (⟨S2048x1024, .f32⟩ : BufTy).Contents (Elt Ideal)) (A0 B0 O0 A1 B1 O1 A2 B2 O2 A3 B3 O3 : (⟨S16000, .i32⟩ : BufTy).Contents (Elt Ideal)) :
    Read.val_main_v98 (F := Ideal) X A0 B0 O0 A1 B1 O1 A2 B2 O2 A3 B3 O3
      = stage (colDims 2048 16000 16000 gather_S2048x16000_S16000x1_S2048x16000_0_1_n_n_1_1_20481_wf) 16000#32 (Read.val_main_v74 (F := Ideal) X A0 B0 O0 A1 B1 O1 A2 B2 O2) A3 B3 O3 := rfl

theorem layer1_read (X : (⟨S2048x1024, .f32⟩ : BufTy).Contents (Elt Ideal)) (A0 B0 O0 : (⟨S16000, .i32⟩ : BufTy).Contents (Elt Ideal))
    (hA0 : ∀ i, InRange 1024 (A0 i)) (hB0 : ∀ i, InRange 1024 (B0 i)) (b : Fin 2048) (i : Fin 16000) :
    Read.val_main_v26 (F := Ideal) X A0 B0 O0 (ix2 b i) = h1 (fun b n => X (ix2 b n)) (fun t => A0 (ix1 t)) (fun t => B0 (ix1 t)) (fun t => O0 (ix1 t)) i b := by
  rw [stage1]
  exact stage_layer (by decide) _ _ _ (h0 fun b n => X (ix2 b n)) (fun b r => layer0_read X b r) (fun _ _ => thr_01 _)
    A0 B0 O0 hA0 hB0 b i

theorem layer2_read (X : (⟨S2048x1024, .f32⟩ : BufTy).Contents (Elt Ideal)) (A0 B0 O0 A1 B1 O1 : (⟨S16000, .i32⟩ : BufTy).Contents (Elt Ideal))
    (hA0 : ∀ i, InRange 1024 (A0 i)) (hB0 : ∀ i, InRange 1024 (B0 i)) (hA1 : ∀ i, InRange 16000 (A1 i)) (hB1 : ∀ i, InRange 16000 (B1 i)) (b : Fin 2048) (i : Fin 16000) :
    Read.val_main_v50 (F := Ideal) X A0 B0 O0 A1 B1 O1 (ix2 b i) = h2 (fun b n => X (ix2 b n)) (fun t => A0 (ix1 t)) (fun t => B0 (ix1 t)) (fun t => O0 (ix1 t)) (fun t => A1 (ix1 t)) (fun t => B1 (ix1 t)) (fun t => O1 (ix1 t)) i b := by
  rw [stage2]
  exact stage_layer (by decide) _ _ _ (h1 (fun b n => X (ix2 b n)) (fun t => A0 (ix1 t)) (fun t => B0 (ix1 t)) (fun t => O0 (ix1 t))) (fun b r => layer1_read X A0 B0 O0 hA0 hB0 b r)
    (fun _ _ => layer_01 _ _ _ _ _ _ _) A1 B1 O1 hA1 hB1 b i

theorem layer3_read (X : (⟨S2048x1024, .f32⟩ : BufTy).Contents (Elt Ideal)) (A0 B0 O0 A1 B1 O1 A2 B2 O2 : (⟨S16000, .i32⟩ : BufTy).Contents (Elt Ideal))
    (hA0 : ∀ i, InRange 1024 (A0 i)) (hB0 : ∀ i, InRange 1024 (B0 i)) (hA1 : ∀ i, InRange 16000 (A1 i)) (hB1 : ∀ i, InRange 16000 (B1 i)) (hA2 : ∀ i, InRange 16000 (A2 i)) (hB2 : ∀ i, InRange 16000 (B2 i)) (b : Fin 2048) (i : Fin 16000) :
    Read.val_main_v74 (F := Ideal) X A0 B0 O0 A1 B1 O1 A2 B2 O2 (ix2 b i) = h3 (fun b n => X (ix2 b n)) (fun t => A0 (ix1 t)) (fun t => B0 (ix1 t)) (fun t => O0 (ix1 t)) (fun t => A1 (ix1 t)) (fun t => B1 (ix1 t)) (fun t => O1 (ix1 t)) (fun t => A2 (ix1 t)) (fun t => B2 (ix1 t)) (fun t => O2 (ix1 t)) i b := by
  rw [stage3]
  exact stage_layer (by decide) _ _ _ (h2 (fun b n => X (ix2 b n)) (fun t => A0 (ix1 t)) (fun t => B0 (ix1 t)) (fun t => O0 (ix1 t)) (fun t => A1 (ix1 t)) (fun t => B1 (ix1 t)) (fun t => O1 (ix1 t))) (fun b r => layer2_read X A0 B0 O0 A1 B1 O1 hA0 hB0 hA1 hB1 b r)
    (fun _ _ => layer_01 _ _ _ _ _ _ _) A2 B2 O2 hA2 hB2 b i

theorem layer4_read (X : (⟨S2048x1024, .f32⟩ : BufTy).Contents (Elt Ideal)) (A0 B0 O0 A1 B1 O1 A2 B2 O2 A3 B3 O3 : (⟨S16000, .i32⟩ : BufTy).Contents (Elt Ideal))
    (hA0 : ∀ i, InRange 1024 (A0 i)) (hB0 : ∀ i, InRange 1024 (B0 i)) (hA1 : ∀ i, InRange 16000 (A1 i)) (hB1 : ∀ i, InRange 16000 (B1 i)) (hA2 : ∀ i, InRange 16000 (A2 i)) (hB2 : ∀ i, InRange 16000 (B2 i)) (hA3 : ∀ i, InRange 16000 (A3 i)) (hB3 : ∀ i, InRange 16000 (B3 i)) (b : Fin 2048) (i : Fin 16000) :
    Read.val_main_v98 (F := Ideal) X A0 B0 O0 A1 B1 O1 A2 B2 O2 A3 B3 O3 (ix2 b i) = h4 (fun b n => X (ix2 b n)) (fun t => A0 (ix1 t)) (fun t => B0 (ix1 t)) (fun t => O0 (ix1 t)) (fun t => A1 (ix1 t)) (fun t => B1 (ix1 t)) (fun t => O1 (ix1 t)) (fun t => A2 (ix1 t)) (fun t => B2 (ix1 t)) (fun t => O2 (ix1 t)) (fun t => A3 (ix1 t)) (fun t => B3 (ix1 t)) (fun t => O3 (ix1 t)) i b := by
  rw [stage4]
  exact stage_layer (by decide) _ _ _ (h3 (fun b n => X (ix2 b n)) (fun t => A0 (ix1 t)) (fun t => B0 (ix1 t)) (fun t => O0 (ix1 t)) (fun t => A1 (ix1 t)) (fun t => B1 (ix1 t)) (fun t => O1 (ix1 t)) (fun t => A2 (ix1 t)) (fun t => B2 (ix1 t)) (fun t => O2 (ix1 t))) (fun b r => layer3_read X A0 B0 O0 A1 B1 O1 A2 B2 O2 hA0 hB0 hA1 hB1 hA2 hB2 b r)
    (fun _ _ => layer_01 _ _ _ _ _ _ _) A3 B3 O3 hA3 hB3 b i

-- The reference's result term is the network's block sums when every index word is in range (no wrap-around, no clamping).
theorem ref_value (X : (⟨S2048x1024, .f32⟩ : BufTy).Contents (Elt Ideal))
    (A0 B0 O0 A1 B1 O1 A2 B2 O2 A3 B3 O3 : (⟨S16000, .i32⟩ : BufTy).Contents (Elt Ideal))
    (hA0 : ∀ i, InRange 1024 (A0 i)) (hB0 : ∀ i, InRange 1024 (B0 i)) (hA1 : ∀ i, InRange 16000 (A1 i)) (hB1 : ∀ i, InRange 16000 (B1 i)) (hA2 : ∀ i, InRange 16000 (A2 i)) (hB2 : ∀ i, InRange 16000 (B2 i)) (hA3 : ∀ i, InRange 16000 (A3 i)) (hB3 : ∀ i, InRange 16000 (B3 i)) :
    Read.val_main_v100 (F := Ideal) X A0 B0 O0 A1 B1 O1 A2 B2 O2 A3 B3 O3 = OUT X A0 B0 O0 A1 B1 O1 A2 B2 O2 A3 B3 O3 := by
  funext j
  obtain ⟨b, k, rfl⟩ : ∃ (b : Fin 2048) (k : Fin 10), j = ix2 b k := ⟨j 0, j 1, eq_ix2 j⟩
  unfold Read.val_main_v100
  refine (reduce_last _ _ (fun i => Read.val_main_c_27_apply i) _ _ b k).trans ?_
  show _ = ∑ jj : Fin 1600, h4 (fun b n => X (ix2 b n)) (fun t => A0 (ix1 t)) (fun t => B0 (ix1 t)) (fun t => O0 (ix1 t)) (fun t => A1 (ix1 t)) (fun t => B1 (ix1 t)) (fun t => O1 (ix1 t)) (fun t => A2 (ix1 t)) (fun t => B2 (ix1 t)) (fun t => O2 (ix1 t)) (fun t => A3 (ix1 t)) (fun t => B3 (ix1 t)) (fun t => O3 (ix1 t)) (inBlock k jj) b
  refine Finset.sum_congr rfl fun jj _ => ?_
  rw [Read.val_main_v99_apply]
  have e : Read.idx_main_v99 (ix3 b k jj) = ix2 b (inBlock k jj) := by
    funext a; refine Fin.ext ?_
    have hb := b.isLt; have hk := k.isLt; have hj := jj.isLt
    match a with
    | ⟨0, _⟩ => show ((b.val * 10 + k.val) * 1600 + jj.val) / 16000 = b.val; omega
    | ⟨1, _⟩ => show ((b.val * 10 + k.val) * 1600 + jj.val) % 16000 = 1600 * k.val + jj.val; omega
  rw [e]
  exact layer4_read X A0 B0 O0 A1 B1 O1 A2 B2 O2 A3 B3 O3 hA0 hB0 hA1 hB1 hA2 hB2 hA3 hB3 b (inBlock k jj)

end Layers

def TablesInRange (m : (ℓ : Loc nD τ sig) → Buf (Elt Ideal) ℓ) : Prop :=
  ∀ c : Dev nD,
    (∀ i, InRange 1024 (m ((c.tc : Thread nD τ).loc main_arg1) i)) ∧ (∀ i, InRange 1024 (m ((c.tc : Thread nD τ).loc main_arg2) i))
    ∧ (∀ i, InRange 16000 (m ((c.tc : Thread nD τ).loc main_arg4) i)) ∧ (∀ i, InRange 16000 (m ((c.tc : Thread nD τ).loc main_arg5) i))
    ∧ (∀ i, InRange 16000 (m ((c.tc : Thread nD τ).loc main_arg7) i)) ∧ (∀ i, InRange 16000 (m ((c.tc : Thread nD τ).loc main_arg8) i))
    ∧ (∀ i, InRange 16000 (m ((c.tc : Thread nD τ).loc main_arg10) i)) ∧ (∀ i, InRange 16000 (m ((c.tc : Thread nD τ).loc main_arg11) i))

def outOf (m : (ℓ : Loc nD τ sig) → Buf (Elt Ideal) ℓ) (c : Dev nD) : Buf (Elt Ideal) ((c.tc : Thread nD τ).loc main_v100) :=
  Spec.OUT (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))

theorem run_spec [Cert.ReferenceIdeal.Facts] (m : (ℓ : Loc nD τ sig) → Buf (Elt Ideal) ℓ) (ρ : Dev nD → PrngReg) (hr : TablesInRange m) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v100) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (Cert.ReferenceIdeal.defs (F := Ideal)) _ _).mono (fun _ h c => ⟨by
      rw [(h c).1, Read.val_main_v100_eq]
      obtain ⟨h1, h2, h3, h4, h5, h6, h7, h8⟩ := hr c
      exact ref_value _ _ _ _ _ _ _ _ _ _ _ _ _ h1 h2 h3 h4 h5 h6 h7 h8, (h c).2⟩)
    (Cert.ReferenceIdeal.Value.run (F := Ideal) m ρ)

end Cert.RefValue

end
-- ==== Proof.lean ====
import proofs.«401413_j6932077216080_2_alg».proof.Proof.KB.OkPre
import proofs.«401413_j6932077216080_2_alg».proof.Proof.KI.OkPre
import proofs.«401413_j6932077216080_2_alg».proof.Proof.KI.Value
import proofs.«401413_j6932077216080_2_alg».proof.Proof.RefValue

noncomputable section

namespace Cert.Proof

open Idealize.ShloMosaic Idealize.ShloMosaic.TcCoe Idealize.SL.Sem

instance : Cert.Pre_finite_inputs.Facts := Cert.Pre_finite_inputs.Gen.facts

theorem frame_p : Cert.frame_Kernel (hKernel := Cert.Kernel.Gen.facts) (hPre_finite_inputs := Cert.Pre_finite_inputs.Gen.facts) :=
  fun m ρ hpre =>
    Cert.Kernel.Run.frame m (Cert.Kernel.Run.ok1 m hpre) (Cert.Kernel.Run.ok2 m hpre) (Cert.Kernel.Run.ok3 m hpre) (Cert.Kernel.Run.ok4 m hpre) ρ

theorem frame_pi : Cert.frame_KernelIdeal (hKernelIdeal := Cert.KernelIdeal.Gen.facts) (hPre_finite_inputs := Cert.Pre_finite_inputs.Gen.facts) :=
  fun m ρ hpre =>
    Cert.KernelIdeal.Run.frame m (Cert.KernelIdeal.Run.ok1 m hpre) (Cert.KernelIdeal.Run.ok2 m hpre) (Cert.KernelIdeal.Run.ok3 m hpre) (Cert.KernelIdeal.Run.ok4 m hpre) ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

-- Both programs end with the network's block sums of the argument arrays; the index words are in range on both sides because the arguments agree.
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  have h1 := Cert.KernelIdeal.Run.ok1 m hpre
  have h2 := Cert.KernelIdeal.Run.ok2 m hpre
  have h3 := Cert.KernelIdeal.Run.ok3 m hpre
  have h4 := Cert.KernelIdeal.Run.ok4 m hpre
  refine ⟨_, (θ_run Cert.KernelIdeal.defs _ _).mono
    (fun r h c => ⟨(h c).1.trans (Cert.KernelIdeal.Run.result_eq m h1 h2 h3 h4 c), (h c).2⟩) (Cert.KernelIdeal.Run.result m h1 h2 h3 h4 ρ), ?_⟩
  have hr : Cert.RefValue.TablesInRange m' := fun c => by
    obtain ⟨e0, e1, e2, e3, e4, e5, e6, e7, e8, e9, e10, e11, e12⟩ := hagree c
    rw [e1, e2, e4, e5, e7, e8, e10, e11]
    exact Cert.KernelIdeal.Run.tables_in_range m hpre c
  refine (θ_run Cert.ReferenceIdeal.defs _ _).mono (fun r h c => ⟨(h c).1.trans ?_, (h c).2⟩) (Cert.RefValue.run_spec m' ρ' hr)
  obtain ⟨e0, e1, e2, e3, e4, e5, e6, e7, e8, e9, e10, e11, e12⟩ := hagree c
  unfold Cert.RefValue.outOf
  rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
